-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16384x64 : Shape := ⟨3, ![8, 16384, 64]⟩
abbrev S262144 : Shape := ⟨1, ![262144]⟩
abbrev S64x32 : Shape := ⟨2, ![64, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S16384 : Shape := ⟨1, ![16384]⟩
abbrev S256 : Shape := ⟨1, ![256]⟩
abbrev S128x256 : Shape := ⟨2, ![128, 256]⟩
abbrev S256x128 : Shape := ⟨2, ![256, 128]⟩
abbrev S128x4 : Shape := ⟨2, ![128, 4]⟩
abbrev S4 : Shape := ⟨1, ![4]⟩
abbrev S_ : Shape := ⟨0, ![]⟩

class Facts : Prop where
  bcast_S_S8x16384x64 : S_.BroadcastsInDim S8x16384x64 (![] : Fin 0 → Fin S8x16384x64.rank)
  reducesTo_S8x16384x64_S_d0_1_2 : S8x16384x64.ReducesTo [0, 1, 2] S_
  h_S_ : 0 < S_.numel
  bcast_S_S262144 : S_.BroadcastsInDim S262144 (![] : Fin 0 → Fin S262144.rank)
  reducesTo_S262144_S_d0 : S262144.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S16384 : S_.BroadcastsInDim S16384 (![] : Fin 0 → Fin S16384.rank)
  reducesTo_S16384_S_d0 : S16384.ReducesTo [0] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S256x128 : S_.BroadcastsInDim S256x128 (![] : Fin 0 → Fin S256x128.rank)
  reducesTo_S256x128_S_d0_1 : S256x128.ReducesTo [0, 1] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_

variable [Facts]

def fn_part6 {F : FTy → Type} [FloatOps F] (main_arg23 : FVec F S4 .f32) (main_v98 : IVec S_ 1) (main_v101 : IVec S128x4 1) (main_c_39 : IVec S_ 1) : IVec S_ 1 :=
  let main_v102 : IVec S_ 1 := (fun x v => Host.reduce IntOp.andi x v reducesTo_S128x4_S_d0_1 h_S_) main_v101 main_c_39
  let main_v103 : IVec S_ 1 := andi main_v98 main_v102
  let main_v104 : FVec F S4 .f32 := Host.absf main_arg23
  let main_cst_40 : FVec F S_ .f32 := constant S_ .f32 0x7F800000#32
  let main_v105 : FVec F S4 .f32 := broadcastInDim S4 ![] bcast_S_S4 main_cst_40
  let main_v106 : IVec S4 1 := cmpf .olt main_v104 main_v105
  let main_c_41 : IVec S_ 1 := constantI S_ 1 1#1
  let main_v107 : IVec S_ 1 := (fun x v => Host.reduce IntOp.andi x v reducesTo_S4_S_d0 h_S_) main_v106 main_c_41
  let main_v108 : IVec S_ 1 := andi main_v103 main_v107
  main_v108

def fn_part5 {F : FTy → Type} [FloatOps F] (main_arg20 : FVec F S256x128 .f32) (main_arg21 : FVec F S128 .f32) (main_arg22 : FVec F S128x4 .f32) (main_arg23 : FVec F S4 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x128 .f32 := Host.absf main_arg20
  let main_cst_34 : FVec F S_ .f32 := constant S_ .f32 0x7F800000#32
  let main_v90 : FVec F S256x128 .f32 := broadcastInDim S256x128 ![] bcast_S_S256x128 main_cst_34
  let main_v91 : IVec S256x128 1 := cmpf .olt main_v89 main_v90
  let main_c_35 : IVec S_ 1 := constantI S_ 1 1#1
  let main_v92 : IVec S_ 1 := (fun x v => Host.reduce IntOp.andi x v reducesTo_S256x128_S_d0_1 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x4 .f32 := Host.absf main_arg22
  let main_cst_38 : FVec F S_ .f32 := constant S_ .f32 0x7F800000#32
  let main_v100 : FVec F S128x4 .f32 := broadcastInDim S128x4 ![] bcast_S_S128x4 main_cst_38
  let main_v101 : IVec S128x4 1 := cmpf .olt main_v99 main_v100
  let main_c_39 : IVec S_ 1 := constantI S_ 1 1#1
  fn_part6 (F := F) main_arg23 main_v98 main_v101 main_c_39

def fn_part4 {F : FTy → Type} [FloatOps F] (main_arg16 : FVec F S128 .f32) (main_arg17 : FVec F S128 .f32) (main_arg18 : FVec F S128x256 .f32) (main_arg19 : FVec F S256 .f32) (main_arg20 : FVec F S256x128 .f32) (main_arg21 : FVec F S128 .f32) (main_arg22 : FVec F S128x4 .f32) (main_arg23 : FVec F S4 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x256 .f32 := Host.absf main_arg18
  let main_cst_30 : FVec F S_ .f32 := constant S_ .f32 0x7F800000#32
  let main_v80 : FVec F S128x256 .f32 := broadcastInDim S128x256 ![] bcast_S_S128x256 main_cst_30
  let main_v81 : IVec S128x256 1 := cmpf .olt main_v79 main_v80
  let main_c_31 : IVec S_ 1 := constantI S_ 1 1#1
  let main_v82 : IVec S_ 1 := (fun x v => Host.reduce IntOp.andi x v reducesTo_S128x256_S_d0_1 h_S_) main_v81 main_c_31
  let main_v83 : IVec S_ 1 := andi main_v78 main_v82
  let main_v84 : FVec F S256 .f32 := Host.absf main_arg19
  let main_cst_32 : FVec F S_ .f32 := constant S_ .f32 0x7F800000#32
  fn_part5 (F := F) main_arg20 main_arg21 main_arg22 main_arg23 main_v83 main_v84 main_cst_32

def fn_part3 {F : FTy → Type} [FloatOps F] (main_arg13 : FVec F S16384 .f32) (main_arg14 : FVec F S256 .f32) (main_arg15 : FVec F S256 .f32) (main_arg16 : FVec F S128 .f32) (main_arg17 : FVec F S128 .f32) (main_arg18 : FVec F S128x256 .f32) (main_arg19 : FVec F S256 .f32) (main_arg20 : FVec F S256x128 .f32) (main_arg21 : FVec F S128 .f32) (main_arg22 : FVec F S128x4 .f32) (main_arg23 : FVec F S4 .f32) (main_v48 : IVec S_ 1) (main_v49 : FVec F S16384 .f32) (main_v50 : FVec F S16384 .f32) : IVec S_ 1 :=
  let main_v51 : IVec S16384 1 := cmpf .olt main_v49 main_v50
  let main_c_19 : IVec S_ 1 := constantI S_ 1 1#1
  let main_v52 : IVec S_ 1 := (fun x v => Host.reduce IntOp.andi x v reducesTo_S16384_S_d0 h_S_) main_v51 main_c_19
  let main_v53 : IVec S_ 1 := andi main_v48 main_v52
  let main_v54 : FVec F S16384 .f32 := Host.absf main_arg13
  let main_cst_20 : FVec F S_ .f32 := constant S_ .f32 0x7F800000#32
  let main_v55 : FVec F S16384 .f32 := broadcastInDim S16384 ![] bcast_S_S16384 main_cst_20
  let main_v56 : IVec S16384 1 := cmpf .olt main_v54 main_v55
  let main_c_21 : IVec S_ 1 := constantI S_ 1 1#1
  let main_v57 : IVec S_ 1 := (fun x v => Host.reduce IntOp.andi x v reducesTo_S16384_S_d0 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg16 main_arg17 main_arg18 main_arg19 main_arg20 main_arg21 main_arg22 main_arg23 main_v63 main_v67

def fn_part2 {F : FTy → Type} [FloatOps F] (main_arg9 : FVec F S64 .f32) (main_arg10 : FVec F S64x128 .f32) (main_arg11 : FVec F S128 .f32) (main_arg12 : FVec F S16384 .f32) (main_arg13 : FVec F S16384 .f32) (main_arg14 : FVec F S256 .f32) (main_arg15 : FVec F S256 .f32) (main_arg16 : FVec F S128 .f32) (main_arg17 : FVec F S128 .f32) (main_arg18 : FVec F S128x256 .f32) (main_arg19 : FVec F S256 .f32) (main_arg20 : FVec F S256x128 .f32) (main_arg21 : FVec F S128 .f32) (main_arg22 : FVec F S128x4 .f32) (main_arg23 : FVec F S4 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x128 .f32 := Host.absf main_arg10
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S16384 .f32 := Host.absf main_arg12
  let main_cst_18 : FVec F S_ .f32 := constant S_ .f32 0x7F800000#32
  let main_v50 : FVec F S16384 .f32 := broadcastInDim S16384 ![] bcast_S_S16384 main_cst_18
  fn_part3 (F := F) main_arg13 main_arg14 main_arg15 main_arg16 main_arg17 main_arg18 main_arg19 main_arg20 main_arg21 main_arg22 main_arg23 main_v48 main_v49 main_v50

def fn_part1 {F : FTy → Type} [FloatOps F] (main_arg6 : FVec F S32x32 .f32) (main_arg7 : FVec F S32 .f32) (main_arg8 : FVec F S32x64 .f32) (main_arg9 : FVec F S64 .f32) (main_arg10 : FVec F S64x128 .f32) (main_arg11 : FVec F S128 .f32) (main_arg12 : FVec F S16384 .f32) (main_arg13 : FVec F S16384 .f32) (main_arg14 : FVec F S256 .f32) (main_arg15 : FVec F S256 .f32) (main_arg16 : FVec F S128 .f32) (main_arg17 : FVec F S128 .f32) (main_arg18 : FVec F S128x256 .f32) (main_arg19 : FVec F S256 .f32) (main_arg20 : FVec F S256x128 .f32) (main_arg21 : FVec F S128 .f32) (main_arg22 : FVec F S128x4 .f32) (main_arg23 : FVec F S4 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg6
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x64 .f32 := Host.absf main_arg8
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S8x16384x64 .f32) (main_arg1 : IVec S262144 32) (main_arg2 : IVec S262144 32) (main_arg3 : FVec F S262144 .f32) (main_arg4 : FVec F S64x32 .f32) (main_arg5 : FVec F S32 .f32) (main_arg6 : FVec F S32x32 .f32) (main_arg7 : FVec F S32 .f32) (main_arg8 : FVec F S32x64 .f32) (main_arg9 : FVec F S64 .f32) (main_arg10 : FVec F S64x128 .f32) (main_arg11 : FVec F S128 .f32) (main_arg12 : FVec F S16384 .f32) (main_arg13 : FVec F S16384 .f32) (main_arg14 : FVec F S256 .f32) (main_arg15 : FVec F S256 .f32) (main_arg16 : FVec F S128 .f32) (main_arg17 : FVec F S128 .f32) (main_arg18 : FVec F S128x256 .f32) (main_arg19 : FVec F S256 .f32) (main_arg20 : FVec F S256x128 .f32) (main_arg21 : FVec F S128 .f32) (main_arg22 : FVec F S128x4 .f32) (main_arg23 : FVec F S4 .f32) : IVec S_ 1 :=
  let main_v0 : FVec F S8x16384x64 .f32 := Host.absf main_arg0
  let main_cst : FVec F S_ .f32 := constant S_ .f32 0x7F800000#32
  let main_v1 : FVec F S8x16384x64 .f32 := broadcastInDim S8x16384x64 ![] bcast_S_S8x16384x64 main_cst
  let main_v2 : IVec S8x16384x64 1 := cmpf .olt main_v0 main_v1
  let main_c : IVec S_ 1 := constantI S_ 1 1#1
  let main_v3 : IVec S_ 1 := (fun x v => Host.reduce IntOp.andi x v reducesTo_S8x16384x64_S_d0_1_2 h_S_) main_v2 main_c
  let main_v4 : FVec F S262144 .f32 := Host.absf main_arg3
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S64x32 .f32 := Host.absf main_arg4
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S8x16384x64 : Shape := ⟨3, ![8, 16384, 64]⟩
abbrev S262144 : Shape := ⟨1, ![262144]⟩
abbrev S64x32 : Shape := ⟨2, ![64, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S16384 : Shape := ⟨1, ![16384]⟩
abbrev S256 : Shape := ⟨1, ![256]⟩
abbrev S128x256 : Shape := ⟨2, ![128, 256]⟩
abbrev S256x128 : Shape := ⟨2, ![256, 128]⟩
abbrev S128x4 : Shape := ⟨2, ![128, 4]⟩
abbrev S4 : Shape := ⟨1, ![4]⟩
abbrev S8x64 : Shape := ⟨2, ![8, 64]⟩
abbrev S8x1024x64 : Shape := ⟨3, ![8, 1024, 64]⟩
abbrev S8x32 : Shape := ⟨2, ![8, 32]⟩
abbrev S1x32 : Shape := ⟨2, ![1, 32]⟩
abbrev S_ : Shape := ⟨0, ![]⟩
abbrev S1x64 : Shape := ⟨2, ![1, 64]⟩
abbrev S8x1x64 : Shape := ⟨3, ![8, 1, 64]⟩
abbrev S16384x8x64 : Shape := ⟨3, ![16384, 8, 64]⟩
abbrev S262144x1 : Shape := ⟨2, ![262144, 1]⟩
abbrev S262144x8x64 : Shape := ⟨3, ![262144, 8, 64]⟩
abbrev S262144x1x1 : Shape := ⟨3, ![262144, 1, 1]⟩
abbrev S8x64x16384 : Shape := ⟨3, ![8, 64, 16384]⟩
abbrev S1x64x128 : Shape := ⟨3, ![1, 64, 128]⟩
abbrev S8x64x128 : Shape := ⟨3, ![8, 64, 128]⟩
abbrev S1x128x1 : Shape := ⟨3, ![1, 128, 1]⟩
abbrev S1x128x1024 : Shape := ⟨3, ![1, 128, 1024]⟩
abbrev S1x16384 : Shape := ⟨2, ![1, 16384]⟩
abbrev S8x128 : Shape := ⟨2, ![8, 128]⟩
abbrev S8x64x1024 : Shape := ⟨3, ![8, 64, 1024]⟩
abbrev S1x1024 : Shape := ⟨2, ![1, 1024]⟩
abbrev S8x128x1024 : Shape := ⟨3, ![8, 128, 1024]⟩
abbrev S128x1024 : Shape := ⟨2, ![128, 1024]⟩
abbrev S1x1x1024 : Shape := ⟨3, ![1, 1, 1024]⟩
abbrev S8x256 : Shape := ⟨2, ![8, 256]⟩
abbrev S1x256 : Shape := ⟨2, ![1, 256]⟩
abbrev S1x128 : Shape := ⟨2, ![1, 128]⟩
abbrev S8x4 : Shape := ⟨2, ![8, 4]⟩
abbrev S1x4 : Shape := ⟨2, ![1, 4]⟩
abbrev S8 : Shape := ⟨1, ![8]⟩
abbrev S8x1 : Shape := ⟨2, ![8, 1]⟩

abbrev nBuf : Space → Nat
  | .hbm => 197
  | .vmem => 19
  | .smem => 0
  | _ => 0

abbrev hbmTy0_0 (i : Nat) : BufTy := match i % 128 with
  | 0 => ⟨S8x16384x64, .f32⟩
  | 1 => ⟨S262144, .i32⟩
  | 2 => ⟨S262144, .i32⟩
  | 3 => ⟨S262144, .f32⟩
  | 4 => ⟨S64x32, .f32⟩
  | 5 => ⟨S32, .f32⟩
  | 6 => ⟨S32x32, .f32⟩
  | 7 => ⟨S32, .f32⟩
  | 8 => ⟨S32x64, .f32⟩
  | 9 => ⟨S64, .f32⟩
  | 10 => ⟨S64x128, .f32⟩
  | 11 => ⟨S128, .f32⟩
  | 12 => ⟨S16384, .f32⟩
  | 13 => ⟨S16384, .f32⟩
  | 14 => ⟨S256, .f32⟩
  | 15 => ⟨S256, .f32⟩
  | 16 => ⟨S128, .f32⟩
  | 17 => ⟨S128, .f32⟩
  | 18 => ⟨S128x256, .f32⟩
  | 19 => ⟨S256, .f32⟩
  | 20 => ⟨S256x128, .f32⟩
  | 21 => ⟨S128, .f32⟩
  | 22 => ⟨S128x4, .f32⟩
  | 23 => ⟨S4, .f32⟩
  | 24 => ⟨S8x64, .f32⟩
  | 25 => ⟨S8x32, .f32⟩
  | 26 => ⟨S1x32, .f32⟩
  | 27 => ⟨S8x32, .f32⟩
  | 28 => ⟨S8x32, .f32⟩
  | 29 => ⟨S_, .f32⟩
  | 30 => ⟨S8x32, .f32⟩
  | 31 => ⟨S8x32, .f32⟩
  | 32 => ⟨S8x32, .f32⟩
  | 33 => ⟨S1x32, .f32⟩
  | 34 => ⟨S8x32, .f32⟩
  | 35 => ⟨S8x32, .f32⟩
  | 36 => ⟨S_, .f32⟩
  | 37 => ⟨S8x32, .f32⟩
  | 38 => ⟨S8x32, .f32⟩
  | 39 => ⟨S8x64, .f32⟩
  | 40 => ⟨S1x64, .f32⟩
  | 41 => ⟨S8x64, .f32⟩
  | 42 => ⟨S8x64, .f32⟩
  | 43 => ⟨S8x64, .f32⟩
  | 44 => ⟨S8x64, .f32⟩
  | 45 => ⟨S_, .f32⟩
  | 46 => ⟨S8x64, .f32⟩
  | 47 => ⟨S8x64, .f32⟩
  | 48 => ⟨S_, .f32⟩
  | 49 => ⟨S8x64, .f32⟩
  | 50 => ⟨S8x64, .f32⟩
  | 51 => ⟨S8x16384x64, .f32⟩
  | 52 => ⟨S16384x8x64, .f32⟩
  | 53 => ⟨S_, .i32⟩
  | 54 => ⟨S262144, .i32⟩
  | 55 => ⟨S262144, .i1⟩
  | 56 => ⟨S_, .i32⟩
  | 57 => ⟨S262144, .i32⟩
  | 58 => ⟨S262144, .i32⟩
  | 59 => ⟨S262144, .i32⟩
  | 60 => ⟨S262144x1, .i32⟩
  | 61 => ⟨S262144x8x64, .f32⟩
  | 62 => ⟨S262144x1x1, .f32⟩
  | 63 => ⟨S262144x8x64, .f32⟩
  | 64 => ⟨S262144x8x64, .f32⟩
  | 65 => ⟨S_, .f32⟩
  | 66 => ⟨S16384x8x64, .f32⟩
  | 67 => ⟨S262144x1, .i32⟩
  | 68 => ⟨S16384x8x64, .f32⟩
  | 69 => ⟨S8x64x16384, .f32⟩
  | 70 => ⟨S1x64x128, .f32⟩
  | 71 => ⟨S8x64x128, .f32⟩
  | 72 => ⟨S1x128x1, .f32⟩
  | 73 => ⟨S1x128x1024, .f32⟩
  | 74 => ⟨S1x16384, .f32⟩
  | 75 => ⟨S1x16384, .f32⟩
  | 76 => ⟨S8x128, .f32⟩
  | 77 => ⟨S8x256, .f32⟩
  | 78 => ⟨S1x256, .f32⟩
  | 79 => ⟨S8x256, .f32⟩
  | 80 => ⟨S8x256, .f32⟩
  | 81 => ⟨S_, .f32⟩
  | 82 => ⟨S8x256, .f32⟩
  | 83 => ⟨S8x256, .f32⟩
  | 84 => ⟨S_, .f32⟩
  | 85 => ⟨S256, .f32⟩
  | 86 => ⟨S1x256, .f32⟩
  | 87 => ⟨S_, .f32⟩
  | 88 => ⟨S1x256, .f32⟩
  | 89 => ⟨S1x256, .f32⟩
  | 90 => ⟨S_, .i32⟩
  | 91 => ⟨S_, .f32⟩
  | 92 => ⟨S256, .f32⟩
  | 93 => ⟨S1x256, .f32⟩
  | 94 => ⟨S_, .f32⟩
  | 95 => ⟨S1x256, .f32⟩
  | 96 => ⟨S1x256, .f32⟩
  | 97 => ⟨S8x256, .f32⟩
  | 98 => ⟨S8x256, .f32⟩
  | 99 => ⟨S8x256, .f32⟩
  | 100 => ⟨S_, .f32⟩
  | 101 => ⟨S_, .f32⟩
  | 102 => ⟨S_, .f32⟩
  | 103 => ⟨S_, .f32⟩
  | 104 => ⟨S256, .f32⟩
  | 105 => ⟨S1x256, .f32⟩
  | 106 => ⟨S1x256, .f32⟩
  | 107 => ⟨S1x256, .f32⟩
  | 108 => ⟨S_, .f32⟩
  | 109 => ⟨S_, .i1⟩
  | 110 => ⟨S_, .f32⟩
  | 111 => ⟨S_, .f32⟩
  | 112 => ⟨S1x256, .f32⟩
  | 113 => ⟨S1x256, .f32⟩
  | 114 => ⟨S8x256, .f32⟩
  | 115 => ⟨S8x256, .f32⟩
  | 116 => ⟨S_, .f32⟩
  | 117 => ⟨S1x256, .f32⟩
  | 118 => ⟨S1x256, .f32⟩
  | 119 => ⟨S1x256, .f32⟩
  | 120 => ⟨S8x256, .f32⟩
  | 121 => ⟨S8x256, .f32⟩
  | 122 => ⟨S1x256, .f32⟩
  | 123 => ⟨S8x256, .f32⟩
  | 124 => ⟨S8x256, .f32⟩
  | 125 => ⟨S1x256, .f32⟩
  | 126 => ⟨S8x256, .f32⟩
  | 127 => ⟨S8x256, .f32⟩
  | _ => ⟨S8x16384x64, .f32⟩

abbrev hbmTy0_1 (i : Nat) : BufTy := match i % 128 with
  | 0 => ⟨S8x128, .f32⟩
  | 1 => ⟨S1x128, .f32⟩
  | 2 => ⟨S8x128, .f32⟩
  | 3 => ⟨S8x128, .f32⟩
  | 4 => ⟨S_, .f32⟩
  | 5 => ⟨S8x128, .f32⟩
  | 6 => ⟨S8x128, .f32⟩
  | 7 => ⟨S_, .f32⟩
  | 8 => ⟨S128, .f32⟩
  | 9 => ⟨S1x128, .f32⟩
  | 10 => ⟨S_, .f32⟩
  | 11 => ⟨S1x128, .f32⟩
  | 12 => ⟨S1x128, .f32⟩
  | 13 => ⟨S_, .i32⟩
  | 14 => ⟨S_, .f32⟩
  | 15 => ⟨S128, .f32⟩
  | 16 => ⟨S1x128, .f32⟩
  | 17 => ⟨S_, .f32⟩
  | 18 => ⟨S1x128, .f32⟩
  | 19 => ⟨S1x128, .f32⟩
  | 20 => ⟨S8x128, .f32⟩
  | 21 => ⟨S8x128, .f32⟩
  | 22 => ⟨S8x128, .f32⟩
  | 23 => ⟨S_, .f32⟩
  | 24 => ⟨S_, .f32⟩
  | 25 => ⟨S_, .f32⟩
  | 26 => ⟨S_, .f32⟩
  | 27 => ⟨S128, .f32⟩
  | 28 => ⟨S1x128, .f32⟩
  | 29 => ⟨S1x128, .f32⟩
  | 30 => ⟨S1x128, .f32⟩
  | 31 => ⟨S_, .f32⟩
  | 32 => ⟨S_, .i1⟩
  | 33 => ⟨S_, .f32⟩
  | 34 => ⟨S_, .f32⟩
  | 35 => ⟨S1x128, .f32⟩
  | 36 => ⟨S1x128, .f32⟩
  | 37 => ⟨S8x128, .f32⟩
  | 38 => ⟨S8x128, .f32⟩
  | 39 => ⟨S_, .f32⟩
  | 40 => ⟨S1x128, .f32⟩
  | 41 => ⟨S1x128, .f32⟩
  | 42 => ⟨S1x128, .f32⟩
  | 43 => ⟨S8x128, .f32⟩
  | 44 => ⟨S8x128, .f32⟩
  | 45 => ⟨S1x128, .f32⟩
  | 46 => ⟨S8x128, .f32⟩
  | 47 => ⟨S8x128, .f32⟩
  | 48 => ⟨S1x128, .f32⟩
  | 49 => ⟨S8x128, .f32⟩
  | 50 => ⟨S8x128, .f32⟩
  | 51 => ⟨S8x4, .f32⟩
  | 52 => ⟨S1x4, .f32⟩
  | 53 => ⟨S8x4, .f32⟩
  | 54 => ⟨S8x4, .f32⟩
  | 55 => ⟨S_, .f32⟩
  | 56 => ⟨S8, .f32⟩
  | 57 => ⟨S_, .f32⟩
  | 58 => ⟨S8, .f32⟩
  | 59 => ⟨S8, .f32⟩
  | 60 => ⟨S8x1, .f32⟩
  | 61 => ⟨S8x4, .f32⟩
  | 62 => ⟨S8x4, .f32⟩
  | 63 => ⟨S8x4, .f32⟩
  | 64 => ⟨S_, .f32⟩
  | 65 => ⟨S8, .f32⟩
  | 66 => ⟨S8x1, .f32⟩
  | 67 => ⟨S8x4, .f32⟩
  | 68 => ⟨S8x4, .f32⟩
  | _ => ⟨S8x16384x64, .f32⟩

abbrev hbmTy (i : Nat) : BufTy := match i / 128 with
  | 0 => hbmTy0_0 i
  | 1 => hbmTy0_1 i
  | _ => ⟨S8x16384x64, .f32⟩

abbrev bufTy : (tb : Table) → Fin (tcTables nBuf tb) → BufTy
  | .hbm, ⟨i, _⟩ => hbmTy i
  | .local _ .vmem, ⟨0, _⟩ => ⟨S8x1024x64, .f32⟩
  | .local _ .vmem, ⟨1, _⟩ => ⟨S8x1024x64, .f32⟩
  | .local _ .vmem, ⟨2, _⟩ => ⟨S8x64, .f32⟩
  | .local _ .vmem, ⟨3, _⟩ => ⟨S8x64, .f32⟩
  | .local _ .vmem, ⟨4, _⟩ => ⟨S8x1024x64, .f32⟩
  | .local _ .vmem, ⟨5, _⟩ => ⟨S8x1024x64, .f32⟩
  | .local _ .vmem, ⟨6, _⟩ => ⟨S8x64, .f32⟩
  | .local _ .vmem, ⟨7, _⟩ => ⟨S8x1024x64, .f32⟩
  | .local _ .vmem, ⟨8, _⟩ => ⟨S8x1024x64, .f32⟩
  | .local _ .vmem, ⟨9, _⟩ => ⟨S8x64x1024, .f32⟩
  | .local _ .vmem, ⟨10, _⟩ => ⟨S8x64x1024, .f32⟩
  | .local _ .vmem, ⟨11, _⟩ => ⟨S8x64x128, .f32⟩
  | .local _ .vmem, ⟨12, _⟩ => ⟨S1x128x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S8x128, .f32⟩
  | .local _ .vmem, ⟨18, _⟩ => ⟨S8x128, .f32⟩
  | _, _ => ⟨S8x16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_call0_cst : Ref sig .tc := ⟨.hbm, 29, rfl⟩
abbrev main_call0_v0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_call1_cst : Ref sig .tc := ⟨.hbm, 36, rfl⟩
abbrev main_call1_v0 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst : Ref sig .tc := ⟨.hbm, 45, rfl⟩
abbrev main_v17 : Ref sig .tc := ⟨.hbm, 46, rfl⟩
abbrev main_v18 : Ref sig .tc := ⟨.hbm, 47, rfl⟩
abbrev main_cst_0 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_c : Ref sig .tc := ⟨.hbm, 53, rfl⟩
abbrev main_v23 : Ref sig .tc := ⟨.hbm, 54, rfl⟩
abbrev main_v24 : Ref sig .tc := ⟨.hbm, 55, rfl⟩
abbrev main_c_1 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_2 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_call2_cst : Ref sig .tc := ⟨.hbm, 81, rfl⟩
abbrev main_call2_v0 : Ref sig .tc := ⟨.hbm, 82, rfl⟩
abbrev main_v48 : Ref sig .tc := ⟨.hbm, 83, rfl⟩
abbrev main_cst_3 : Ref sig .tc := ⟨.hbm, 84, rfl⟩
abbrev main_v49 : Ref sig .tc := ⟨.hbm, 85, rfl⟩
abbrev main_v50 : Ref sig .tc := ⟨.hbm, 86, rfl⟩
abbrev main_cst_4 : Ref sig .tc := ⟨.hbm, 87, rfl⟩
abbrev main_v51 : Ref sig .tc := ⟨.hbm, 88, rfl⟩
abbrev main_v52 : Ref sig .tc := ⟨.hbm, 89, rfl⟩
abbrev main_c_5 : Ref sig .tc := ⟨.hbm, 90, rfl⟩
abbrev main_call3_cst : Ref sig .tc := ⟨.hbm, 91, rfl⟩
abbrev main_call3_v0 : Ref sig .tc := ⟨.hbm, 92, rfl⟩
abbrev main_call3_v1 : Ref sig .tc := ⟨.hbm, 93, rfl⟩
abbrev main_call3_cst_0 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_call3_v5 : Ref sig .tc := ⟨.hbm, 98, rfl⟩
abbrev main_call3_v6 : Ref sig .tc := ⟨.hbm, 99, rfl⟩
abbrev main_call3_v7 : Ref sig .tc := ⟨.hbm, 100, rfl⟩
abbrev main_call3_cst_1 : Ref sig .tc := ⟨.hbm, 101, rfl⟩
abbrev main_call3_v8 : Ref sig .tc := ⟨.hbm, 102, rfl⟩
abbrev main_call3_cst_2 : Ref sig .tc := ⟨.hbm, 103, rfl⟩
abbrev main_call3_v9 : Ref sig .tc := ⟨.hbm, 104, rfl⟩
abbrev main_call3_v10 : Ref sig .tc := ⟨.hbm, 105, rfl⟩
abbrev main_call3_v11 : Ref sig .tc := ⟨.hbm, 106, rfl⟩
abbrev main_call3_v12 : Ref sig .tc := ⟨.hbm, 107, rfl⟩
abbrev main_call3_cst_3 : Ref sig .tc := ⟨.hbm, 108, rfl⟩
abbrev main_call3_v13 : Ref sig .tc := ⟨.hbm, 109, rfl⟩
abbrev main_call3_cst_4 : Ref sig .tc := ⟨.hbm, 110, rfl⟩
abbrev main_call3_call0_v0 : Ref sig .tc := ⟨.hbm, 111, rfl⟩
abbrev main_call3_call0_v1 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_cst_6 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_call4_cst : Ref sig .tc := ⟨.hbm, 132, rfl⟩
abbrev main_call4_v0 : Ref sig .tc := ⟨.hbm, 133, rfl⟩
abbrev main_v71 : Ref sig .tc := ⟨.hbm, 134, rfl⟩
abbrev main_cst_7 : Ref sig .tc := ⟨.hbm, 135, rfl⟩
abbrev main_v72 : Ref sig .tc := ⟨.hbm, 136, rfl⟩
abbrev main_v73 : Ref sig .tc := ⟨.hbm, 137, rfl⟩
abbrev main_cst_8 : Ref sig .tc := ⟨.hbm, 138, rfl⟩
abbrev main_v74 : Ref sig .tc := ⟨.hbm, 139, rfl⟩
abbrev main_v75 : Ref sig .tc := ⟨.hbm, 140, rfl⟩
abbrev main_c_9 : Ref sig .tc := ⟨.hbm, 141, rfl⟩
abbrev main_call5_cst : Ref sig .tc := ⟨.hbm, 142, rfl⟩
abbrev main_call5_v0 : Ref sig .tc := ⟨.hbm, 143, rfl⟩
abbrev main_call5_v1 : Ref sig .tc := ⟨.hbm, 144, rfl⟩
abbrev main_call5_cst_0 : Ref sig .tc := ⟨.hbm, 145, rfl⟩
abbrev main_call5_v2 : Ref sig .tc := ⟨.hbm, 146, rfl⟩
abbrev main_call5_v3 : Ref sig .tc := ⟨.hbm, 147, rfl⟩
abbrev main_call5_v4 : Ref sig .tc := ⟨.hbm, 148, rfl⟩
abbrev main_call5_v5 : Ref sig .tc := ⟨.hbm, 149, rfl⟩
abbrev main_call5_v6 : Ref sig .tc := ⟨.hbm, 150, rfl⟩
abbrev main_call5_v7 : Ref sig .tc := ⟨.hbm, 151, rfl⟩
abbrev main_call5_cst_1 : Ref sig .tc := ⟨.hbm, 152, rfl⟩
abbrev main_call5_v8 : Ref sig .tc := ⟨.hbm, 153, rfl⟩
abbrev main_call5_cst_2 : Ref sig .tc := ⟨.hbm, 154, rfl⟩
abbrev main_call5_v9 : Ref sig .tc := ⟨.hbm, 155, rfl⟩
abbrev main_call5_v10 : Ref sig .tc := ⟨.hbm, 156, rfl⟩
abbrev main_call5_v11 : Ref sig .tc := ⟨.hbm, 157, rfl⟩
abbrev main_call5_v12 : Ref sig .tc := ⟨.hbm, 158, rfl⟩
abbrev main_call5_cst_3 : Ref sig .tc := ⟨.hbm, 159, rfl⟩
abbrev main_call5_v13 : Ref sig .tc := ⟨.hbm, 160, rfl⟩
abbrev main_call5_cst_4 : Ref sig .tc := ⟨.hbm, 161, rfl⟩
abbrev main_call5_call0_v0 : Ref sig .tc := ⟨.hbm, 162, rfl⟩
abbrev main_call5_call0_v1 : Ref sig .tc := ⟨.hbm, 163, rfl⟩
abbrev main_v76 : Ref sig .tc := ⟨.hbm, 164, rfl⟩
abbrev main_v77 : Ref sig .tc := ⟨.hbm, 165, rfl⟩
abbrev main_v78 : Ref sig .tc := ⟨.hbm, 166, rfl⟩
abbrev main_cst_10 : Ref sig .tc := ⟨.hbm, 167, rfl⟩
abbrev main_v79 : Ref sig .tc := ⟨.hbm, 168, rfl⟩
abbrev main_v80 : Ref sig .tc := ⟨.hbm, 169, rfl⟩
abbrev main_v81 : Ref sig .tc := ⟨.hbm, 170, rfl⟩
abbrev main_v82 : Ref sig .tc := ⟨.hbm, 171, rfl⟩
abbrev main_v83 : Ref sig .tc := ⟨.hbm, 172, rfl⟩
abbrev main_v84 : Ref sig .tc := ⟨.hbm, 173, rfl⟩
abbrev main_v85 : Ref sig .tc := ⟨.hbm, 174, rfl⟩
abbrev main_v86 : Ref sig .tc := ⟨.hbm, 175, rfl⟩
abbrev main_v87 : Ref sig .tc := ⟨.hbm, 176, rfl⟩
abbrev main_v88 : Ref sig .tc := ⟨.hbm, 177, rfl⟩
abbrev main_v89 : Ref sig .tc := ⟨.hbm, 178, rfl⟩
abbrev main_v90 : Ref sig .tc := ⟨.hbm, 179, rfl⟩
abbrev main_v91 : Ref sig .tc := ⟨.hbm, 180, rfl⟩
abbrev main_v92 : Ref sig .tc := ⟨.hbm, 181, rfl⟩
abbrev main_v93 : Ref sig .tc := ⟨.hbm, 182, rfl⟩
abbrev main_cst_11 : Ref sig .tc := ⟨.hbm, 183, rfl⟩
abbrev main_v94 : Ref sig .tc := ⟨.hbm, 184, rfl⟩
abbrev main_cst_12 : Ref sig .tc := ⟨.hbm, 185, rfl⟩
abbrev main_v95 : Ref sig .tc := ⟨.hbm, 186, rfl⟩
abbrev main_v96 : Ref sig .tc := ⟨.hbm, 187, rfl⟩
abbrev main_v97 : Ref sig .tc := ⟨.hbm, 188, rfl⟩
abbrev main_v98 : Ref sig .tc := ⟨.hbm, 189, rfl⟩
abbrev main_v99 : Ref sig .tc := ⟨.hbm, 190, rfl⟩
abbrev main_v100 : Ref sig .tc := ⟨.hbm, 191, rfl⟩
abbrev main_cst_13 : Ref sig .tc := ⟨.hbm, 192, rfl⟩
abbrev main_v101 : Ref sig .tc := ⟨.hbm, 193, rfl⟩
abbrev main_v102 : Ref sig .tc := ⟨.hbm, 194, rfl⟩
abbrev main_v103 : Ref sig .tc := ⟨.hbm, 195, rfl⟩
abbrev main_v104 : Ref sig .tc := ⟨.hbm, 196, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg3_1 : Ref sig .tc := ⟨.vmem, 14, rfl⟩
abbrev cc2_stg4_0 : Ref sig .tc := ⟨.vmem, 15, rfl⟩
abbrev cc2_stg4_1 : Ref sig .tc := ⟨.vmem, 16, rfl⟩
abbrev cc2_stg5_0 : Ref sig .tc := ⟨.vmem, 17, rfl⟩
abbrev cc2_scratch0 : Ref sig .tc := ⟨.vmem, 18, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem3_0 : DmaSem sig := 12
abbrev cc2_sem3_1 : DmaSem sig := 13
abbrev cc2_sem4_0 : DmaSem sig := 14
abbrev cc2_sem4_1 : DmaSem sig := 15
abbrev cc2_sem5_0 : DmaSem sig := 16

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v10 : BitVec 1 := Scalar.cmpi .eq arg0 c15_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8x1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def k2_cond2 (i : grid2.Coords) : BitVec 1 :=
  let arg0 : BitVec 32 := BitVec.ofNat 32 (i 0).val
  let c15_i32 : BitVec 32 := 15#32
  let v55 : BitVec 1 := Scalar.cmpi .eq arg0 c15_i32
  let v56 : BitVec 32 := Scalar.extui v55
  let c0_i32_27 : BitVec 32 := 0#32
  let v57 : BitVec 1 := Scalar.cmpi .ne v56 c0_i32_27
  v57

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S8x64x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S8x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S8x1024x64_S8x1024x64_0_0_0 : ∀ a, (![0, 0, 0] : Fin 3 → Nat) a + S8x1024x64.size a ≤ S8x1024x64.size a
  h_S8x1024x64 : 0 < S8x1024x64.numel
  reduces_S8x1024x64_S8x64 : S8x1024x64.Reduces [1] S8x64
  bcast_S32_S1x32_1 : S32.BroadcastsInDim S1x32 (![1] : Fin 1 → Fin S1x32.rank)
  bcast_S1x32_S8x32_0_1 : S1x32.BroadcastsInDim S8x32 (![0, 1] : Fin 2 → Fin S8x32.rank)
  bcast_S_S8x32 : S_.BroadcastsInDim S8x32 (![] : Fin 0 → Fin S8x32.rank)
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  bcast_S_S8x64 : S_.BroadcastsInDim S8x64 (![] : Fin 0 → Fin S8x64.rank)
  shapeCasts_S8x64_S8x1x64 : S8x64.ShapeCasts S8x1x64
  broadcasts_S8x1x64_S8x1024x64 : S8x1x64.Broadcasts S8x1024x64
  transposes_S8x16384x64_S16384x8x64_1_0_2 : S8x16384x64.Transposes [1, 0, 2] S16384x8x64
  bcast_S_S262144 : S_.BroadcastsInDim S262144 (![] : Fin 0 → Fin S262144.rank)
  bcast_S262144_S262144x1_0 : S262144.BroadcastsInDim S262144x1 (![0] : Fin 1 → Fin S262144x1.rank)
  bcast_S262144_S262144x1x1_0 : S262144.BroadcastsInDim S262144x1x1 (![0] : Fin 1 → Fin S262144x1x1.rank)
  bcast_S262144x1x1_S262144x8x64_0_1_2 : S262144x1x1.BroadcastsInDim S262144x8x64 (![0, 1, 2] : Fin 3 → Fin S262144x8x64.rank)
  bcast_S_S16384x8x64 : S_.BroadcastsInDim S16384x8x64 (![] : Fin 0 → Fin S16384x8x64.rank)
  transposes_S16384x8x64_S8x64x16384_1_2_0 : S16384x8x64.Transposes [1, 2, 0] S8x64x16384
  bcast_S64x128_S1x64x128_1_2 : S64x128.BroadcastsInDim S1x64x128 (![1, 2] : Fin 2 → Fin S1x64x128.rank)
  bcast_S1x64x128_S8x64x128_0_1_2 : S1x64x128.BroadcastsInDim S8x64x128 (![0, 1, 2] : Fin 3 → Fin S8x64x128.rank)
  shapeCasts_S128_S1x128x1 : S128.ShapeCasts S1x128x1
  bcast_S1x128x1_S1x128x1024_0_1_2 : S1x128x1.BroadcastsInDim S1x128x1024 (![0, 1, 2] : Fin 3 → Fin S1x128x1024.rank)
  shapeCasts_S16384_S1x16384 : S16384.ShapeCasts S1x16384
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x64x1024_S8x64x1024_0_0_0 : ∀ a, (![0, 0, 0] : Fin 3 → Nat) a + S8x64x1024.size a ≤ S8x64x1024.size a
  h_S8x64x1024 : 0 < S8x64x1024.numel
  shapeCasts_S8x64x1024_S8x64x1024 : S8x64x1024.ShapeCasts S8x64x1024
  bitsLt_bf16_f32 : FTy.bits .bf16 < FTy.bits .f32
  inb_S8x64x128_S8x64x128_0_0_0 : ∀ a, (![0, 0, 0] : Fin 3 → Nat) a + S8x64x128.size a ≤ S8x64x128.size a
  h_S8x64x128 : 0 < S8x64x128.numel
  shapeCasts_S8x64x128_S8x64x128 : S8x64x128.ShapeCasts S8x64x128
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S1x128x1024 : S1x128x1024.ShapeCasts S1x128x1024
  broadcasts_S1x128x1024_S8x128x1024 : S1x128x1024.Broadcasts S8x128x1024
  reduces_S8x128x1024_S128x1024 : S8x128x1024.Reduces [0] S128x1024
  shapeCasts_S128x1024_S1x128x1024 : S128x1024.ShapeCasts S1x128x1024
  reduces_S1x128x1024_S1x1024 : S1x128x1024.Reduces [1] S1x1024
  shapeCasts_S1x1024_S1x1x1024 : S1x1024.ShapeCasts S1x1x1024
  broadcasts_S1x1x1024_S8x128x1024 : S1x1x1024.Broadcasts S8x128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S8x128x1024_S8x128 : S8x128x1024.Reduces [2] S8x128
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  bcast_S_S8x256 : S_.BroadcastsInDim S8x256 (![] : Fin 0 → Fin S8x256.rank)
  reducesTo_S8x256_S256_d0 : S8x256.ReducesTo [0] S256
  h_S_ : 0 < S_.numel
  bcast_S_S1x256 : S_.BroadcastsInDim S1x256 (![] : Fin 0 → Fin S1x256.rank)
  shapeCasts_S256_S1x256 : S256.ShapeCasts S1x256
  bcast_S128_S1x128_1 : S128.BroadcastsInDim S1x128 (![1] : Fin 1 → Fin S1x128.rank)
  bcast_S1x128_S8x128_0_1 : S1x128.BroadcastsInDim S8x128 (![0, 1] : Fin 2 → Fin S8x128.rank)
  bcast_S_S8x128 : S_.BroadcastsInDim S8x128 (![] : Fin 0 → Fin S8x128.rank)
  reducesTo_S8x128_S128_d0 : S8x128.ReducesTo [0] S128
  bcast_S_S1x128 : S_.BroadcastsInDim S1x128 (![] : Fin 0 → Fin S1x128.rank)
  shapeCasts_S128_S1x128 : S128.ShapeCasts S1x128
  bcast_S4_S1x4_1 : S4.BroadcastsInDim S1x4 (![1] : Fin 1 → Fin S1x4.rank)
  bcast_S1x4_S8x4_0_1 : S1x4.BroadcastsInDim S8x4 (![0, 1] : Fin 2 → Fin S8x4.rank)
  reducesTo_S8x4_S8_d1 : S8x4.ReducesTo [1] S8
  bcast_S_S8 : S_.BroadcastsInDim S8 (![] : Fin 0 → Fin S8.rank)
  bcast_S8_S8x1_0 : S8.BroadcastsInDim S8x1 (![0] : Fin 1 → Fin S8x1.rank)
  bcast_S8x1_S8x4_0_1 : S8x1.BroadcastsInDim S8x4 (![0, 1] : Fin 2 → Fin S8x4.rank)
  dot_S8x64_S64x32_S8x32_1_0_0_1_n_n_wf : DotDims.WF S8x64 S64x32 S8x32 [1] [0] [0] [1] [] []
  dot_S8x32_S32x32_S8x32_1_0_0_1_n_n_wf : DotDims.WF S8x32 S32x32 S8x32 [1] [0] [0] [1] [] []
  dot_S8x32_S32x64_S8x64_1_0_0_1_n_n_wf : DotDims.WF S8x32 S32x64 S8x64 [1] [0] [0] [1] [] []
  gather_S16384x8x64_S262144x1_S262144x8x64_12_0_n_n_0_1_1864_wf : GatherDims.WF S16384x8x64 S262144x1 S262144x8x64 [1, 2] [0] [] [0] [] 1 ![1, 8, 64]
  scatter_S16384x8x64_S262144x1_S262144x8x64_12_0_0_1_wf : ScatterDims.WF S16384x8x64 S262144x1 S262144x8x64 [1, 2] [0] [0] 1
  dot_S8x64x128_S8x64x1024_S8x128x1024_1_1_2_2_0_0_wf : DotDims.WF S8x64x128 S8x64x1024 S8x128x1024 [1] [1] [2] [2] [0] [0]
  dot_S8x128_S128x256_S8x256_1_0_0_1_n_n_wf : DotDims.WF S8x128 S128x256 S8x256 [1] [0] [0] [1] [] []
  dot_S8x256_S256x128_S8x128_1_0_0_1_n_n_wf : DotDims.WF S8x256 S256x128 S8x128 [1] [0] [0] [1] [] []
  dot_S8x128_S128x4_S8x4_1_0_0_1_n_n_wf : DotDims.WF S8x128 S128x4 S8x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x64.size a ≤ S8x16384x64.size a
  hwx0_0 : ∀ i : grid0.Coords, EltTy.bits .f32 = 32 ∨ (Rect.block (s := S8x16384x64) S8x1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x64.size a ≤ S8x64.size a
  hwx0_1 : ∀ i : grid0.Coords, EltTy.bits .f32 = 32 ∨ (Rect.block (s := S8x64) S8x64.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x1024x64.size a ≤ S8x16384x64.size a
  hwx1_0 : ∀ i : grid1.Coords, EltTy.bits .f32 = 32 ∨ (Rect.block (s := S8x16384x64) S8x1024x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x64.size a ≤ S8x64.size a
  hwx1_1 : ∀ i : grid1.Coords, EltTy.bits .f32 = 32 ∨ (Rect.block (s := S8x64) S8x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x1024x64.size a ≤ S8x16384x64.size a
  hwx1_2 : ∀ i : grid1.Coords, EltTy.bits .f32 = 32 ∨ (Rect.block (s := S8x16384x64) S8x1024x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x64x1024.size a ≤ S8x64x16384.size a
  hwx2_0 : ∀ i : grid2.Coords, EltTy.bits .f32 = 32 ∨ (Rect.block (s := S8x64x16384) S8x64x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8x64x128.size a ≤ S8x64x128.size a
  hwx2_1 : ∀ i : grid2.Coords, EltTy.bits .f32 = 32 ∨ (Rect.block (s := S8x64x128) S8x64x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128x1024.size a ≤ S1x128x1024.size a
  hwx2_2 : ∀ i : grid2.Coords, EltTy.bits .f32 = 32 ∨ (Rect.block (s := S1x128x1024) S1x128x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x16384.size a
  hwx2_3 : ∀ i : grid2.Coords, EltTy.bits .f32 = 32 ∨ (Rect.block (s := S1x16384) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x16384.size a
  hwx2_4 : ∀ i : grid2.Coords, EltTy.bits .f32 = 32 ∨ (Rect.block (s := S1x16384) S1x1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S8x128.size a ≤ S8x128.size a
  hwx2_5 : ∀ i : grid2.Coords, EltTy.bits .f32 = 32 ∨ (Rect.block (s := S8x128) S8x128.size (cc2_transform_5 i) (hinb2_5 i)).WholeWords (EltTy.packing .f32)

variable [Facts₀]

def dot_S8x64_S64x32_S8x32_1_0_0_1_n_n : DotDims S8x64 S64x32 S8x32 where
  lhsContracting := [1]
  rhsContracting := [0]
  lhsNonContracting := [0]
  rhsNonContracting := [1]
  lhsBatch := []
  rhsBatch := []
  wf := dot_S8x64_S64x32_S8x32_1_0_0_1_n_n_wf
def dot_S8x32_S32x32_S8x32_1_0_0_1_n_n : DotDims S8x32 S32x32 S8x32 where
  lhsContracting := [1]
  rhsContracting := [0]
  lhsNonContracting := [0]
  rhsNonContracting := [1]
  lhsBatch := []
  rhsBatch := []
  wf := dot_S8x32_S32x32_S8x32_1_0_0_1_n_n_wf
def dot_S8x32_S32x64_S8x64_1_0_0_1_n_n : DotDims S8x32 S32x64 S8x64 where
  lhsContracting := [1]
  rhsContracting := [0]
  lhsNonContracting := [0]
  rhsNonContracting := [1]
  lhsBatch := []
  rhsBatch := []
  wf := dot_S8x32_S32x64_S8x64_1_0_0_1_n_n_wf
def gather_S16384x8x64_S262144x1_S262144x8x64_12_0_n_n_0_1_1864 : GatherDims S16384x8x64 S262144x1 S262144x8x64 where
  offsetDims := [1, 2]
  collapsedSliceDims := [0]
  operandBatchingDims := []
  startIndicesBatchingDims := []
  startIndexMap := [0]
  indexVectorDim := 1
  sliceSizes := ![1, 8, 64]
  wf := gather_S16384x8x64_S262144x1_S262144x8x64_12_0_n_n_0_1_1864_wf
def scatter_S16384x8x64_S262144x1_S262144x8x64_12_0_0_1 : ScatterDims S16384x8x64 S262144x1 S262144x8x64 where
  updateWindowDims := [1, 2]
  insertedWindowDims := [0]
  scatterDimsToOperandDims := [0]
  indexVectorDim := 1
  wf := scatter_S16384x8x64_S262144x1_S262144x8x64_12_0_0_1_wf
def dot_S8x64x128_S8x64x1024_S8x128x1024_1_1_2_2_0_0 : DotDims S8x64x128 S8x64x1024 S8x128x1024 where
  lhsContracting := [1]
  rhsContracting := [1]
  lhsNonContracting := [2]
  rhsNonContracting := [2]
  lhsBatch := [0]
  rhsBatch := [0]
  wf := dot_S8x64x128_S8x64x1024_S8x128x1024_1_1_2_2_0_0_wf
def dot_S8x128_S128x256_S8x256_1_0_0_1_n_n : DotDims S8x128 S128x256 S8x256 where
  lhsContracting := [1]
  rhsContracting := [0]
  lhsNonContracting := [0]
  rhsNonContracting := [1]
  lhsBatch := []
  rhsBatch := []
  wf := dot_S8x128_S128x256_S8x256_1_0_0_1_n_n_wf
def dot_S8x256_S256x128_S8x128_1_0_0_1_n_n : DotDims S8x256 S256x128 S8x128 where
  lhsContracting := [1]
  rhsContracting := [0]
  lhsNonContracting := [0]
  rhsNonContracting := [1]
  lhsBatch := []
  rhsBatch := []
  wf := dot_S8x256_S256x128_S8x128_1_0_0_1_n_n_wf
def dot_S8x128_S128x4_S8x4_1_0_0_1_n_n : DotDims S8x128 S128x4 S8x4 where
  lhsContracting := [1]
  rhsContracting := [0]
  lhsNonContracting := [0]
  rhsNonContracting := [1]
  lhsBatch := []
  rhsBatch := []
  wf := dot_S8x128_S128x4_S8x4_1_0_0_1_n_n_wf

abbrev win0_0 : Pipeline.Window sig grid0 :=
  Pipeline.Window.ofSpec (Memref.whole main_arg0) S8x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x64.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S8x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S8x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S8x1024x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v36) S8x64x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S8x64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x128x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v42) S1x1024.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v43) S8x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S8x16384x64 : Shape := ⟨3, ![8, 16384, 64]⟩
abbrev S262144 : Shape := ⟨1, ![262144]⟩
abbrev S64x32 : Shape := ⟨2, ![64, 32]⟩
abbrev S32 : Shape := ⟨1, ![32]⟩
abbrev S32x32 : Shape := ⟨2, ![32, 32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S16384 : Shape := ⟨1, ![16384]⟩
abbrev S256 : Shape := ⟨1, ![256]⟩
abbrev S128x256 : Shape := ⟨2, ![128, 256]⟩
abbrev S256x128 : Shape := ⟨2, ![256, 128]⟩
abbrev S128x4 : Shape := ⟨2, ![128, 4]⟩
abbrev S4 : Shape := ⟨1, ![4]⟩
abbrev S_ : Shape := ⟨0, ![]⟩
abbrev S8x64 : Shape := ⟨2, ![8, 64]⟩
abbrev S8x32 : Shape := ⟨2, ![8, 32]⟩
abbrev S1x32 : Shape := ⟨2, ![1, 32]⟩
abbrev S1x64 : Shape := ⟨2, ![1, 64]⟩
abbrev S8x1x64 : Shape := ⟨3, ![8, 1, 64]⟩
abbrev S16384x8x64 : Shape := ⟨3, ![16384, 8, 64]⟩
abbrev S262144x1 : Shape := ⟨2, ![262144, 1]⟩
abbrev S262144x8x64 : Shape := ⟨3, ![262144, 8, 64]⟩
abbrev S262144x1x1 : Shape := ⟨3, ![262144, 1, 1]⟩
abbrev S128x16384x8 : Shape := ⟨3, ![128, 16384, 8]⟩
abbrev S8x16384x128 : Shape := ⟨3, ![8, 16384, 128]⟩
abbrev S1x1x128 : Shape := ⟨3, ![1, 1, 128]⟩
abbrev S1x16384x1 : Shape := ⟨3, ![1, 16384, 1]⟩
abbrev S8x128 : Shape := ⟨2, ![8, 128]⟩
abbrev S8x256 : Shape := ⟨2, ![8, 256]⟩
abbrev S1x256 : Shape := ⟨2, ![1, 256]⟩
abbrev S1x128 : Shape := ⟨2, ![1, 128]⟩
abbrev S8x4 : Shape := ⟨2, ![8, 4]⟩
abbrev S1x4 : Shape := ⟨2, ![1, 4]⟩
abbrev S8 : Shape := ⟨1, ![8]⟩
abbrev S8x1 : Shape := ⟨2, ![8, 1]⟩

abbrev nBuf : Space → Nat
  | .hbm => 247
  | .vmem => 0
  | .smem => 0
  | _ => 0

abbrev hbmTy0_0 (i : Nat) : BufTy := match i % 128 with
  | 0 => ⟨S8x16384x64, .f32⟩
  | 1 => ⟨S262144, .i32⟩
  | 2 => ⟨S262144, .i32⟩
  | 3 => ⟨S262144, .f32⟩
  | 4 => ⟨S64x32, .f32⟩
  | 5 => ⟨S32, .f32⟩
  | 6 => ⟨S32x32, .f32⟩
  | 7 => ⟨S32, .f32⟩
  | 8 => ⟨S32x64, .f32⟩
  | 9 => ⟨S64, .f32⟩
  | 10 => ⟨S64x128, .f32⟩
  | 11 => ⟨S128, .f32⟩
  | 12 => ⟨S16384, .f32⟩
  | 13 => ⟨S16384, .f32⟩
  | 14 => ⟨S256, .f32⟩
  | 15 => ⟨S256, .f32⟩
  | 16 => ⟨S128, .f32⟩
  | 17 => ⟨S128, .f32⟩
  | 18 => ⟨S128x256, .f32⟩
  | 19 => ⟨S256, .f32⟩
  | 20 => ⟨S256x128, .f32⟩
  | 21 => ⟨S128, .f32⟩
  | 22 => ⟨S128x4, .f32⟩
  | 23 => ⟨S4, .f32⟩
  | 24 => ⟨S_, .f32⟩
  | 25 => ⟨S8x64, .f32⟩
  | 26 => ⟨S8x32, .f32⟩
  | 27 => ⟨S1x32, .f32⟩
  | 28 => ⟨S8x32, .f32⟩
  | 29 => ⟨S8x32, .f32⟩
  | 30 => ⟨S_, .f32⟩
  | 31 => ⟨S8x32, .f32⟩
  | 32 => ⟨S8x32, .f32⟩
  | 33 => ⟨S8x32, .f32⟩
  | 34 => ⟨S1x32, .f32⟩
  | 35 => ⟨S8x32, .f32⟩
  | 36 => ⟨S8x32, .f32⟩
  | 37 => ⟨S_, .f32⟩
  | 38 => ⟨S8x32, .f32⟩
  | 39 => ⟨S8x32, .f32⟩
  | 40 => ⟨S8x64, .f32⟩
  | 41 => ⟨S1x64, .f32⟩
  | 42 => ⟨S8x64, .f32⟩
  | 43 => ⟨S8x64, .f32⟩
  | 44 => ⟨S8x64, .f32⟩
  | 45 => ⟨S8x64, .f32⟩
  | 46 => ⟨S_, .f32⟩
  | 47 => ⟨S8x64, .f32⟩
  | 48 => ⟨S8x64, .f32⟩
  | 49 => ⟨S_, .f32⟩
  | 50 => ⟨S8x64, .f32⟩
  | 51 => ⟨S8x64, .f32⟩
  | 52 => ⟨S8x1x64, .f32⟩
  | 53 => ⟨S8x16384x64, .f32⟩
  | 54 => ⟨S8x16384x64, .f32⟩
  | 55 => ⟨S8x16384x64, .f32⟩
  | 56 => ⟨S16384x8x64, .f32⟩
  | 57 => ⟨S_, .i32⟩
  | 58 => ⟨S262144, .i32⟩
  | 59 => ⟨S262144, .i1⟩
  | 60 => ⟨S_, .i32⟩
  | 61 => ⟨S262144, .i32⟩
  | 62 => ⟨S262144, .i32⟩
  | 63 => ⟨S262144, .i32⟩
  | 64 => ⟨S262144x1, .i32⟩
  | 65 => ⟨S262144x8x64, .f32⟩
  | 66 => ⟨S262144x1x1, .f32⟩
  | 67 => ⟨S262144x8x64, .f32⟩
  | 68 => ⟨S262144x8x64, .f32⟩
  | 69 => ⟨S_, .f32⟩
  | 70 => ⟨S16384x8x64, .f32⟩
  | 71 => ⟨S262144x1, .i32⟩
  | 72 => ⟨S16384x8x64, .f32⟩
  | 73 => ⟨S128x16384x8, .f32⟩
  | 74 => ⟨S8x16384x128, .f32⟩
  | 75 => ⟨S1x1x128, .f32⟩
  | 76 => ⟨S8x16384x128, .f32⟩
  | 77 => ⟨S8x16384x128, .f32⟩
  | 78 => ⟨S_, .f32⟩
  | 79 => ⟨S8x16384x128, .f32⟩
  | 80 => ⟨S8x16384x128, .f32⟩
  | 81 => ⟨S_, .f32⟩
  | 82 => ⟨S16384, .f32⟩
  | 83 => ⟨S1x16384x1, .f32⟩
  | 84 => ⟨S_, .f32⟩
  | 85 => ⟨S1x16384x1, .f32⟩
  | 86 => ⟨S1x16384x1, .f32⟩
  | 87 => ⟨S_, .i32⟩
  | 88 => ⟨S_, .f32⟩
  | 89 => ⟨S16384, .f32⟩
  | 90 => ⟨S1x16384x1, .f32⟩
  | 91 => ⟨S_, .f32⟩
  | 92 => ⟨S1x16384x1, .f32⟩
  | 93 => ⟨S1x16384x1, .f32⟩
  | 94 => ⟨S8x16384x128, .f32⟩
  | 95 => ⟨S8x16384x128, .f32⟩
  | 96 => ⟨S8x16384x128, .f32⟩
  | 97 => ⟨S_, .f32⟩
  | 98 => ⟨S_, .f32⟩
  | 99 => ⟨S_, .f32⟩
  | 100 => ⟨S_, .f32⟩
  | 101 => ⟨S16384, .f32⟩
  | 102 => ⟨S1x16384x1, .f32⟩
  | 103 => ⟨S1x16384x1, .f32⟩
  | 104 => ⟨S1x16384x1, .f32⟩
  | 105 => ⟨S_, .f32⟩
  | 106 => ⟨S_, .i1⟩
  | 107 => ⟨S_, .f32⟩
  | 108 => ⟨S_, .f32⟩
  | 109 => ⟨S1x16384x1, .f32⟩
  | 110 => ⟨S1x16384x1, .f32⟩
  | 111 => ⟨S8x16384x128, .f32⟩
  | 112 => ⟨S8x16384x128, .f32⟩
  | 113 => ⟨S_, .f32⟩
  | 114 => ⟨S1x16384x1, .f32⟩
  | 115 => ⟨S1x16384x1, .f32⟩
  | 116 => ⟨S1x16384x1, .f32⟩
  | 117 => ⟨S8x16384x128, .f32⟩
  | 118 => ⟨S8x16384x128, .f32⟩
  | 119 => ⟨S1x16384x1, .f32⟩
  | 120 => ⟨S8x16384x128, .f32⟩
  | 121 => ⟨S8x16384x128, .f32⟩
  | 122 => ⟨S1x16384x1, .f32⟩
  | 123 => ⟨S8x16384x128, .f32⟩
  | 124 => ⟨S8x16384x128, .f32⟩
  | 125 => ⟨S_, .f32⟩
  | 126 => ⟨S8x128, .f32⟩
  | 127 => ⟨S8x256, .f32⟩
  | _ => ⟨S8x16384x64, .f32⟩

abbrev hbmTy0_1 (i : Nat) : BufTy := match i % 128 with
  | 0 => ⟨S1x256, .f32⟩
  | 1 => ⟨S8x256, .f32⟩
  | 2 => ⟨S8x256, .f32⟩
  | 3 => ⟨S_, .f32⟩
  | 4 => ⟨S8x256, .f32⟩
  | 5 => ⟨S8x256, .f32⟩
  | 6 => ⟨S_, .f32⟩
  | 7 => ⟨S256, .f32⟩
  | 8 => ⟨S1x256, .f32⟩
  | 9 => ⟨S_, .f32⟩
  | 10 => ⟨S1x256, .f32⟩
  | 11 => ⟨S1x256, .f32⟩
  | 12 => ⟨S_, .i32⟩
  | 13 => ⟨S_, .f32⟩
  | 14 => ⟨S256, .f32⟩
  | 15 => ⟨S1x256, .f32⟩
  | 16 => ⟨S_, .f32⟩
  | 17 => ⟨S1x256, .f32⟩
  | 18 => ⟨S1x256, .f32⟩
  | 19 => ⟨S8x256, .f32⟩
  | 20 => ⟨S8x256, .f32⟩
  | 21 => ⟨S8x256, .f32⟩
  | 22 => ⟨S_, .f32⟩
  | 23 => ⟨S_, .f32⟩
  | 24 => ⟨S_, .f32⟩
  | 25 => ⟨S_, .f32⟩
  | 26 => ⟨S256, .f32⟩
  | 27 => ⟨S1x256, .f32⟩
  | 28 => ⟨S1x256, .f32⟩
  | 29 => ⟨S1x256, .f32⟩
  | 30 => ⟨S_, .f32⟩
  | 31 => ⟨S_, .i1⟩
  | 32 => ⟨S_, .f32⟩
  | 33 => ⟨S_, .f32⟩
  | 34 => ⟨S1x256, .f32⟩
  | 35 => ⟨S1x256, .f32⟩
  | 36 => ⟨S8x256, .f32⟩
  | 37 => ⟨S8x256, .f32⟩
  | 38 => ⟨S_, .f32⟩
  | 39 => ⟨S1x256, .f32⟩
  | 40 => ⟨S1x256, .f32⟩
  | 41 => ⟨S1x256, .f32⟩
  | 42 => ⟨S8x256, .f32⟩
  | 43 => ⟨S8x256, .f32⟩
  | 44 => ⟨S1x256, .f32⟩
  | 45 => ⟨S8x256, .f32⟩
  | 46 => ⟨S8x256, .f32⟩
  | 47 => ⟨S1x256, .f32⟩
  | 48 => ⟨S8x256, .f32⟩
  | 49 => ⟨S8x256, .f32⟩
  | 50 => ⟨S8x128, .f32⟩
  | 51 => ⟨S1x128, .f32⟩
  | 52 => ⟨S8x128, .f32⟩
  | 53 => ⟨S8x128, .f32⟩
  | 54 => ⟨S_, .f32⟩
  | 55 => ⟨S8x128, .f32⟩
  | 56 => ⟨S8x128, .f32⟩
  | 57 => ⟨S_, .f32⟩
  | 58 => ⟨S128, .f32⟩
  | 59 => ⟨S1x128, .f32⟩
  | 60 => ⟨S_, .f32⟩
  | 61 => ⟨S1x128, .f32⟩
  | 62 => ⟨S1x128, .f32⟩
  | 63 => ⟨S_, .i32⟩
  | 64 => ⟨S_, .f32⟩
  | 65 => ⟨S128, .f32⟩
  | 66 => ⟨S1x128, .f32⟩
  | 67 => ⟨S_, .f32⟩
  | 68 => ⟨S1x128, .f32⟩
  | 69 => ⟨S1x128, .f32⟩
  | 70 => ⟨S8x128, .f32⟩
  | 71 => ⟨S8x128, .f32⟩
  | 72 => ⟨S8x128, .f32⟩
  | 73 => ⟨S_, .f32⟩
  | 74 => ⟨S_, .f32⟩
  | 75 => ⟨S_, .f32⟩
  | 76 => ⟨S_, .f32⟩
  | 77 => ⟨S128, .f32⟩
  | 78 => ⟨S1x128, .f32⟩
  | 79 => ⟨S1x128, .f32⟩
  | 80 => ⟨S1x128, .f32⟩
  | 81 => ⟨S_, .f32⟩
  | 82 => ⟨S_, .i1⟩
  | 83 => ⟨S_, .f32⟩
  | 84 => ⟨S_, .f32⟩
  | 85 => ⟨S1x128, .f32⟩
  | 86 => ⟨S1x128, .f32⟩
  | 87 => ⟨S8x128, .f32⟩
  | 88 => ⟨S8x128, .f32⟩
  | 89 => ⟨S_, .f32⟩
  | 90 => ⟨S1x128, .f32⟩
  | 91 => ⟨S1x128, .f32⟩
  | 92 => ⟨S1x128, .f32⟩
  | 93 => ⟨S8x128, .f32⟩
  | 94 => ⟨S8x128, .f32⟩
  | 95 => ⟨S1x128, .f32⟩
  | 96 => ⟨S8x128, .f32⟩
  | 97 => ⟨S8x128, .f32⟩
  | 98 => ⟨S1x128, .f32⟩
  | 99 => ⟨S8x128, .f32⟩
  | 100 => ⟨S8x128, .f32⟩
  | 101 => ⟨S8x4, .f32⟩
  | 102 => ⟨S1x4, .f32⟩
  | 103 => ⟨S8x4, .f32⟩
  | 104 => ⟨S8x4, .f32⟩
  | 105 => ⟨S_, .f32⟩
  | 106 => ⟨S8, .f32⟩
  | 107 => ⟨S_, .f32⟩
  | 108 => ⟨S8, .f32⟩
  | 109 => ⟨S8, .f32⟩
  | 110 => ⟨S8x1, .f32⟩
  | 111 => ⟨S8x4, .f32⟩
  | 112 => ⟨S8x4, .f32⟩
  | 113 => ⟨S8x4, .f32⟩
  | 114 => ⟨S_, .f32⟩
  | 115 => ⟨S8, .f32⟩
  | 116 => ⟨S8x1, .f32⟩
  | 117 => ⟨S8x4, .f32⟩
  | 118 => ⟨S8x4, .f32⟩
  | _ => ⟨S8x16384x64, .f32⟩

abbrev hbmTy (i : Nat) : BufTy := match i / 128 with
  | 0 => hbmTy0_0 i
  | 1 => hbmTy0_1 i
  | _ => ⟨S8x16384x64, .f32⟩

abbrev bufTy : (tb : Table) → Fin (tcTables nBuf tb) → BufTy
  | .hbm, ⟨i, _⟩ => hbmTy i
  | _, _ => ⟨S8x16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_call0_cst : Ref sig .tc := ⟨.hbm, 30, rfl⟩
abbrev main_call0_v0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_call1_cst : Ref sig .tc := ⟨.hbm, 37, rfl⟩
abbrev main_call1_v0 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_0 : Ref sig .tc := ⟨.hbm, 46, rfl⟩
abbrev main_v17 : Ref sig .tc := ⟨.hbm, 47, rfl⟩
abbrev main_v18 : Ref sig .tc := ⟨.hbm, 48, rfl⟩
abbrev main_cst_1 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_c : Ref sig .tc := ⟨.hbm, 57, rfl⟩
abbrev main_v26 : Ref sig .tc := ⟨.hbm, 58, rfl⟩
abbrev main_v27 : Ref sig .tc := ⟨.hbm, 59, rfl⟩
abbrev main_c_2 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_cst_3 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_call2_cst : Ref sig .tc := ⟨.hbm, 78, rfl⟩
abbrev main_call2_v0 : Ref sig .tc := ⟨.hbm, 79, rfl⟩
abbrev main_v44 : Ref sig .tc := ⟨.hbm, 80, rfl⟩
abbrev main_cst_4 : Ref sig .tc := ⟨.hbm, 81, rfl⟩
abbrev main_v45 : Ref sig .tc := ⟨.hbm, 82, rfl⟩
abbrev main_v46 : Ref sig .tc := ⟨.hbm, 83, rfl⟩
abbrev main_cst_5 : Ref sig .tc := ⟨.hbm, 84, rfl⟩
abbrev main_v47 : Ref sig .tc := ⟨.hbm, 85, rfl⟩
abbrev main_v48 : Ref sig .tc := ⟨.hbm, 86, rfl⟩
abbrev main_c_6 : Ref sig .tc := ⟨.hbm, 87, rfl⟩
abbrev main_call3_cst : Ref sig .tc := ⟨.hbm, 88, rfl⟩
abbrev main_call3_v0 : Ref sig .tc := ⟨.hbm, 89, rfl⟩
abbrev main_call3_v1 : Ref sig .tc := ⟨.hbm, 90, rfl⟩
abbrev main_call3_cst_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_v6 : Ref sig .tc := ⟨.hbm, 96, rfl⟩
abbrev main_call3_v7 : Ref sig .tc := ⟨.hbm, 97, rfl⟩
abbrev main_call3_cst_1 : Ref sig .tc := ⟨.hbm, 98, rfl⟩
abbrev main_call3_v8 : Ref sig .tc := ⟨.hbm, 99, rfl⟩
abbrev main_call3_cst_2 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_v12 : Ref sig .tc := ⟨.hbm, 104, rfl⟩
abbrev main_call3_cst_3 : Ref sig .tc := ⟨.hbm, 105, rfl⟩
abbrev main_call3_v13 : Ref sig .tc := ⟨.hbm, 106, rfl⟩
abbrev main_call3_cst_4 : Ref sig .tc := ⟨.hbm, 107, rfl⟩
abbrev main_call3_call0_v0 : Ref sig .tc := ⟨.hbm, 108, rfl⟩
abbrev main_call3_call0_v1 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_cst_7 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_cst_8 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_call4_cst : Ref sig .tc := ⟨.hbm, 131, rfl⟩
abbrev main_call4_v0 : Ref sig .tc := ⟨.hbm, 132, rfl⟩
abbrev main_v68 : Ref sig .tc := ⟨.hbm, 133, rfl⟩
abbrev main_cst_9 : Ref sig .tc := ⟨.hbm, 134, rfl⟩
abbrev main_v69 : Ref sig .tc := ⟨.hbm, 135, rfl⟩
abbrev main_v70 : Ref sig .tc := ⟨.hbm, 136, rfl⟩
abbrev main_cst_10 : Ref sig .tc := ⟨.hbm, 137, rfl⟩
abbrev main_v71 : Ref sig .tc := ⟨.hbm, 138, rfl⟩
abbrev main_v72 : Ref sig .tc := ⟨.hbm, 139, rfl⟩
abbrev main_c_11 : Ref sig .tc := ⟨.hbm, 140, rfl⟩
abbrev main_call5_cst : Ref sig .tc := ⟨.hbm, 141, rfl⟩
abbrev main_call5_v0 : Ref sig .tc := ⟨.hbm, 142, rfl⟩
abbrev main_call5_v1 : Ref sig .tc := ⟨.hbm, 143, rfl⟩
abbrev main_call5_cst_0 : Ref sig .tc := ⟨.hbm, 144, rfl⟩
abbrev main_call5_v2 : Ref sig .tc := ⟨.hbm, 145, rfl⟩
abbrev main_call5_v3 : Ref sig .tc := ⟨.hbm, 146, rfl⟩
abbrev main_call5_v4 : Ref sig .tc := ⟨.hbm, 147, rfl⟩
abbrev main_call5_v5 : Ref sig .tc := ⟨.hbm, 148, rfl⟩
abbrev main_call5_v6 : Ref sig .tc := ⟨.hbm, 149, rfl⟩
abbrev main_call5_v7 : Ref sig .tc := ⟨.hbm, 150, rfl⟩
abbrev main_call5_cst_1 : Ref sig .tc := ⟨.hbm, 151, rfl⟩
abbrev main_call5_v8 : Ref sig .tc := ⟨.hbm, 152, rfl⟩
abbrev main_call5_cst_2 : Ref sig .tc := ⟨.hbm, 153, rfl⟩
abbrev main_call5_v9 : Ref sig .tc := ⟨.hbm, 154, rfl⟩
abbrev main_call5_v10 : Ref sig .tc := ⟨.hbm, 155, rfl⟩
abbrev main_call5_v11 : Ref sig .tc := ⟨.hbm, 156, rfl⟩
abbrev main_call5_v12 : Ref sig .tc := ⟨.hbm, 157, rfl⟩
abbrev main_call5_cst_3 : Ref sig .tc := ⟨.hbm, 158, rfl⟩
abbrev main_call5_v13 : Ref sig .tc := ⟨.hbm, 159, rfl⟩
abbrev main_call5_cst_4 : Ref sig .tc := ⟨.hbm, 160, rfl⟩
abbrev main_call5_call0_v0 : Ref sig .tc := ⟨.hbm, 161, rfl⟩
abbrev main_call5_call0_v1 : Ref sig .tc := ⟨.hbm, 162, rfl⟩
abbrev main_v73 : Ref sig .tc := ⟨.hbm, 163, rfl⟩
abbrev main_v74 : Ref sig .tc := ⟨.hbm, 164, rfl⟩
abbrev main_v75 : Ref sig .tc := ⟨.hbm, 165, rfl⟩
abbrev main_cst_12 : Ref sig .tc := ⟨.hbm, 166, rfl⟩
abbrev main_v76 : Ref sig .tc := ⟨.hbm, 167, rfl⟩
abbrev main_v77 : Ref sig .tc := ⟨.hbm, 168, rfl⟩
abbrev main_v78 : Ref sig .tc := ⟨.hbm, 169, rfl⟩
abbrev main_v79 : Ref sig .tc := ⟨.hbm, 170, rfl⟩
abbrev main_v80 : Ref sig .tc := ⟨.hbm, 171, rfl⟩
abbrev main_v81 : Ref sig .tc := ⟨.hbm, 172, rfl⟩
abbrev main_v82 : Ref sig .tc := ⟨.hbm, 173, rfl⟩
abbrev main_v83 : Ref sig .tc := ⟨.hbm, 174, rfl⟩
abbrev main_v84 : Ref sig .tc := ⟨.hbm, 175, rfl⟩
abbrev main_v85 : Ref sig .tc := ⟨.hbm, 176, rfl⟩
abbrev main_v86 : Ref sig .tc := ⟨.hbm, 177, rfl⟩
abbrev main_v87 : Ref sig .tc := ⟨.hbm, 178, rfl⟩
abbrev main_v88 : Ref sig .tc := ⟨.hbm, 179, rfl⟩
abbrev main_v89 : Ref sig .tc := ⟨.hbm, 180, rfl⟩
abbrev main_v90 : Ref sig .tc := ⟨.hbm, 181, rfl⟩
abbrev main_call6_cst : Ref sig .tc := ⟨.hbm, 182, rfl⟩
abbrev main_call6_v0 : Ref sig .tc := ⟨.hbm, 183, rfl⟩
abbrev main_v91 : Ref sig .tc := ⟨.hbm, 184, rfl⟩
abbrev main_cst_13 : Ref sig .tc := ⟨.hbm, 185, rfl⟩
abbrev main_v92 : Ref sig .tc := ⟨.hbm, 186, rfl⟩
abbrev main_v93 : Ref sig .tc := ⟨.hbm, 187, rfl⟩
abbrev main_cst_14 : Ref sig .tc := ⟨.hbm, 188, rfl⟩
abbrev main_v94 : Ref sig .tc := ⟨.hbm, 189, rfl⟩
abbrev main_v95 : Ref sig .tc := ⟨.hbm, 190, rfl⟩
abbrev main_c_15 : Ref sig .tc := ⟨.hbm, 191, rfl⟩
abbrev main_call7_cst : Ref sig .tc := ⟨.hbm, 192, rfl⟩
abbrev main_call7_v0 : Ref sig .tc := ⟨.hbm, 193, rfl⟩
abbrev main_call7_v1 : Ref sig .tc := ⟨.hbm, 194, rfl⟩
abbrev main_call7_cst_0 : Ref sig .tc := ⟨.hbm, 195, rfl⟩
abbrev main_call7_v2 : Ref sig .tc := ⟨.hbm, 196, rfl⟩
abbrev main_call7_v3 : Ref sig .tc := ⟨.hbm, 197, rfl⟩
abbrev main_call7_v4 : Ref sig .tc := ⟨.hbm, 198, rfl⟩
abbrev main_call7_v5 : Ref sig .tc := ⟨.hbm, 199, rfl⟩
abbrev main_call7_v6 : Ref sig .tc := ⟨.hbm, 200, rfl⟩
abbrev main_call7_v7 : Ref sig .tc := ⟨.hbm, 201, rfl⟩
abbrev main_call7_cst_1 : Ref sig .tc := ⟨.hbm, 202, rfl⟩
abbrev main_call7_v8 : Ref sig .tc := ⟨.hbm, 203, rfl⟩
abbrev main_call7_cst_2 : Ref sig .tc := ⟨.hbm, 204, rfl⟩
abbrev main_call7_v9 : Ref sig .tc := ⟨.hbm, 205, rfl⟩
abbrev main_call7_v10 : Ref sig .tc := ⟨.hbm, 206, rfl⟩
abbrev main_call7_v11 : Ref sig .tc := ⟨.hbm, 207, rfl⟩
abbrev main_call7_v12 : Ref sig .tc := ⟨.hbm, 208, rfl⟩
abbrev main_call7_cst_3 : Ref sig .tc := ⟨.hbm, 209, rfl⟩
abbrev main_call7_v13 : Ref sig .tc := ⟨.hbm, 210, rfl⟩
abbrev main_call7_cst_4 : Ref sig .tc := ⟨.hbm, 211, rfl⟩
abbrev main_call7_call0_v0 : Ref sig .tc := ⟨.hbm, 212, rfl⟩
abbrev main_call7_call0_v1 : Ref sig .tc := ⟨.hbm, 213, rfl⟩
abbrev main_v96 : Ref sig .tc := ⟨.hbm, 214, rfl⟩
abbrev main_v97 : Ref sig .tc := ⟨.hbm, 215, rfl⟩
abbrev main_v98 : Ref sig .tc := ⟨.hbm, 216, rfl⟩
abbrev main_cst_16 : Ref sig .tc := ⟨.hbm, 217, rfl⟩
abbrev main_v99 : Ref sig .tc := ⟨.hbm, 218, rfl⟩
abbrev main_v100 : Ref sig .tc := ⟨.hbm, 219, rfl⟩
abbrev main_v101 : Ref sig .tc := ⟨.hbm, 220, rfl⟩
abbrev main_v102 : Ref sig .tc := ⟨.hbm, 221, rfl⟩
abbrev main_v103 : Ref sig .tc := ⟨.hbm, 222, rfl⟩
abbrev main_v104 : Ref sig .tc := ⟨.hbm, 223, rfl⟩
abbrev main_v105 : Ref sig .tc := ⟨.hbm, 224, rfl⟩
abbrev main_v106 : Ref sig .tc := ⟨.hbm, 225, rfl⟩
abbrev main_v107 : Ref sig .tc := ⟨.hbm, 226, rfl⟩
abbrev main_v108 : Ref sig .tc := ⟨.hbm, 227, rfl⟩
abbrev main_v109 : Ref sig .tc := ⟨.hbm, 228, rfl⟩
abbrev main_v110 : Ref sig .tc := ⟨.hbm, 229, rfl⟩
abbrev main_v111 : Ref sig .tc := ⟨.hbm, 230, rfl⟩
abbrev main_v112 : Ref sig .tc := ⟨.hbm, 231, rfl⟩
abbrev main_v113 : Ref sig .tc := ⟨.hbm, 232, rfl⟩
abbrev main_cst_17 : Ref sig .tc := ⟨.hbm, 233, rfl⟩
abbrev main_v114 : Ref sig .tc := ⟨.hbm, 234, rfl⟩
abbrev main_cst_18 : Ref sig .tc := ⟨.hbm, 235, rfl⟩
abbrev main_v115 : Ref sig .tc := ⟨.hbm, 236, rfl⟩
abbrev main_v116 : Ref sig .tc := ⟨.hbm, 237, rfl⟩
abbrev main_v117 : Ref sig .tc := ⟨.hbm, 238, rfl⟩
abbrev main_v118 : Ref sig .tc := ⟨.hbm, 239, rfl⟩
abbrev main_v119 : Ref sig .tc := ⟨.hbm, 240, rfl⟩
abbrev main_v120 : Ref sig .tc := ⟨.hbm, 241, rfl⟩
abbrev main_cst_19 : Ref sig .tc := ⟨.hbm, 242, rfl⟩
abbrev main_v121 : Ref sig .tc := ⟨.hbm, 243, rfl⟩
abbrev main_v122 : Ref sig .tc := ⟨.hbm, 244, rfl⟩
abbrev main_v123 : Ref sig .tc := ⟨.hbm, 245, rfl⟩
abbrev main_v124 : Ref sig .tc := ⟨.hbm, 246, rfl⟩

abbrev nD : Nat := 1
abbrev τ : Topo := Topo.v7x

variable {F : FTy → Type} [FloatOps F]

class Facts₀ : Prop where
  reducesTo_S8x16384x64_S8x64_d1 : S8x16384x64.ReducesTo [1] S8x64
  h_S_ : 0 < S_.numel
  bcast_S32_S1x32_1 : S32.BroadcastsInDim S1x32 (![1] : Fin 1 → Fin S1x32.rank)
  bcast_S1x32_S8x32_0_1 : S1x32.BroadcastsInDim S8x32 (![0, 1] : Fin 2 → Fin S8x32.rank)
  bcast_S_S8x32 : S_.BroadcastsInDim S8x32 (![] : Fin 0 → Fin S8x32.rank)
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  bcast_S_S8x64 : S_.BroadcastsInDim S8x64 (![] : Fin 0 → Fin S8x64.rank)
  bcast_S8x64_S8x1x64_0_2 : S8x64.BroadcastsInDim S8x1x64 (![0, 2] : Fin 2 → Fin S8x1x64.rank)
  bcast_S8x1x64_S8x16384x64_0_1_2 : S8x1x64.BroadcastsInDim S8x16384x64 (![0, 1, 2] : Fin 3 → Fin S8x16384x64.rank)
  transposes_S8x16384x64_S16384x8x64_1_0_2 : S8x16384x64.Transposes [1, 0, 2] S16384x8x64
  bcast_S_S262144 : S_.BroadcastsInDim S262144 (![] : Fin 0 → Fin S262144.rank)
  bcast_S262144_S262144x1_0 : S262144.BroadcastsInDim S262144x1 (![0] : Fin 1 → Fin S262144x1.rank)
  bcast_S262144_S262144x1x1_0 : S262144.BroadcastsInDim S262144x1x1 (![0] : Fin 1 → Fin S262144x1x1.rank)
  bcast_S262144x1x1_S262144x8x64_0_1_2 : S262144x1x1.BroadcastsInDim S262144x8x64 (![0, 1, 2] : Fin 3 → Fin S262144x8x64.rank)
  bcast_S_S16384x8x64 : S_.BroadcastsInDim S16384x8x64 (![] : Fin 0 → Fin S16384x8x64.rank)
  transposes_S128x16384x8_S8x16384x128_2_1_0 : S128x16384x8.Transposes [2, 1, 0] S8x16384x128
  bcast_S128_S1x1x128_2 : S128.BroadcastsInDim S1x1x128 (![2] : Fin 1 → Fin S1x1x128.rank)
  bcast_S1x1x128_S8x16384x128_0_1_2 : S1x1x128.BroadcastsInDim S8x16384x128 (![0, 1, 2] : Fin 3 → Fin S8x16384x128.rank)
  bcast_S_S8x16384x128 : S_.BroadcastsInDim S8x16384x128 (![] : Fin 0 → Fin S8x16384x128.rank)
  reducesTo_S8x16384x128_S16384_d0_2 : S8x16384x128.ReducesTo [0, 2] S16384
  bcast_S16384_S1x16384x1_1 : S16384.BroadcastsInDim S1x16384x1 (![1] : Fin 1 → Fin S1x16384x1.rank)
  bcast_S_S1x16384x1 : S_.BroadcastsInDim S1x16384x1 (![] : Fin 0 → Fin S1x16384x1.rank)
  bcast_S1x16384x1_S8x16384x128_0_1_2 : S1x16384x1.BroadcastsInDim S8x16384x128 (![0, 1, 2] : Fin 3 → Fin S8x16384x128.rank)
  shapeCasts_S16384_S1x16384x1 : S16384.ShapeCasts S1x16384x1
  reducesTo_S8x16384x128_S8x128_d1 : S8x16384x128.ReducesTo [1] S8x128
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  bcast_S_S8x256 : S_.BroadcastsInDim S8x256 (![] : Fin 0 → Fin S8x256.rank)
  reducesTo_S8x256_S256_d0 : S8x256.ReducesTo [0] S256
  bcast_S_S1x256 : S_.BroadcastsInDim S1x256 (![] : Fin 0 → Fin S1x256.rank)
  shapeCasts_S256_S1x256 : S256.ShapeCasts S1x256
  bcast_S128_S1x128_1 : S128.BroadcastsInDim S1x128 (![1] : Fin 1 → Fin S1x128.rank)
  bcast_S1x128_S8x128_0_1 : S1x128.BroadcastsInDim S8x128 (![0, 1] : Fin 2 → Fin S8x128.rank)
  bcast_S_S8x128 : S_.BroadcastsInDim S8x128 (![] : Fin 0 → Fin S8x128.rank)
  reducesTo_S8x128_S128_d0 : S8x128.ReducesTo [0] S128
  bcast_S_S1x128 : S_.BroadcastsInDim S1x128 (![] : Fin 0 → Fin S1x128.rank)
  shapeCasts_S128_S1x128 : S128.ShapeCasts S1x128
  bcast_S4_S1x4_1 : S4.BroadcastsInDim S1x4 (![1] : Fin 1 → Fin S1x4.rank)
  bcast_S1x4_S8x4_0_1 : S1x4.BroadcastsInDim S8x4 (![0, 1] : Fin 2 → Fin S8x4.rank)
  reducesTo_S8x4_S8_d1 : S8x4.ReducesTo [1] S8
  bcast_S_S8 : S_.BroadcastsInDim S8 (![] : Fin 0 → Fin S8.rank)
  bcast_S8_S8x1_0 : S8.BroadcastsInDim S8x1 (![0] : Fin 1 → Fin S8x1.rank)
  bcast_S8x1_S8x4_0_1 : S8x1.BroadcastsInDim S8x4 (![0, 1] : Fin 2 → Fin S8x4.rank)
  dot_S8x64_S64x32_S8x32_1_0_0_1_n_n_wf : DotDims.WF S8x64 S64x32 S8x32 [1] [0] [0] [1] [] []
  dot_S8x32_S32x32_S8x32_1_0_0_1_n_n_wf : DotDims.WF S8x32 S32x32 S8x32 [1] [0] [0] [1] [] []
  dot_S8x32_S32x64_S8x64_1_0_0_1_n_n_wf : DotDims.WF S8x32 S32x64 S8x64 [1] [0] [0] [1] [] []
  gather_S16384x8x64_S262144x1_S262144x8x64_12_0_n_n_0_1_1864_wf : GatherDims.WF S16384x8x64 S262144x1 S262144x8x64 [1, 2] [0] [] [0] [] 1 ![1, 8, 64]
  scatter_S16384x8x64_S262144x1_S262144x8x64_12_0_0_1_wf : ScatterDims.WF S16384x8x64 S262144x1 S262144x8x64 [1, 2] [0] [0] 1
  dot_S64x128_S16384x8x64_S128x16384x8_0_2_1_01_n_n_wf : DotDims.WF S64x128 S16384x8x64 S128x16384x8 [0] [2] [1] [0, 1] [] []
  dot_S8x128_S128x256_S8x256_1_0_0_1_n_n_wf : DotDims.WF S8x128 S128x256 S8x256 [1] [0] [0] [1] [] []
  dot_S8x256_S256x128_S8x128_1_0_0_1_n_n_wf : DotDims.WF S8x256 S256x128 S8x128 [1] [0] [0] [1] [] []
  dot_S8x128_S128x4_S8x4_1_0_0_1_n_n_wf : DotDims.WF S8x128 S128x4 S8x4 [1] [0] [0] [1] [] []

variable [Facts₀]

def dot_S8x64_S64x32_S8x32_1_0_0_1_n_n : DotDims S8x64 S64x32 S8x32 where
  lhsContracting := [1]
  rhsContracting := [0]
  lhsNonContracting := [0]
  rhsNonContracting := [1]
  lhsBatch := []
  rhsBatch := []
  wf := dot_S8x64_S64x32_S8x32_1_0_0_1_n_n_wf
def dot_S8x32_S32x32_S8x32_1_0_0_1_n_n : DotDims S8x32 S32x32 S8x32 where
  lhsContracting := [1]
  rhsContracting := [0]
  lhsNonContracting := [0]
  rhsNonContracting := [1]
  lhsBatch := []
  rhsBatch := []
  wf := dot_S8x32_S32x32_S8x32_1_0_0_1_n_n_wf
def dot_S8x32_S32x64_S8x64_1_0_0_1_n_n : DotDims S8x32 S32x64 S8x64 where
  lhsContracting := [1]
  rhsContracting := [0]
  lhsNonContracting := [0]
  rhsNonContracting := [1]
  lhsBatch := []
  rhsBatch := []
  wf := dot_S8x32_S32x64_S8x64_1_0_0_1_n_n_wf
def gather_S16384x8x64_S262144x1_S262144x8x64_12_0_n_n_0_1_1864 : GatherDims S16384x8x64 S262144x1 S262144x8x64 where
  offsetDims := [1, 2]
  collapsedSliceDims := [0]
  operandBatchingDims := []
  startIndicesBatchingDims := []
  startIndexMap := [0]
  indexVectorDim := 1
  sliceSizes := ![1, 8, 64]
  wf := gather_S16384x8x64_S262144x1_S262144x8x64_12_0_n_n_0_1_1864_wf
def scatter_S16384x8x64_S262144x1_S262144x8x64_12_0_0_1 : ScatterDims S16384x8x64 S262144x1 S262144x8x64 where
  updateWindowDims := [1, 2]
  insertedWindowDims := [0]
  scatterDimsToOperandDims := [0]
  indexVectorDim := 1
  wf := scatter_S16384x8x64_S262144x1_S262144x8x64_12_0_0_1_wf
def dot_S64x128_S16384x8x64_S128x16384x8_0_2_1_01_n_n : DotDims S64x128 S16384x8x64 S128x16384x8 where
  lhsContracting := [0]
  rhsContracting := [2]
  lhsNonContracting := [1]
  rhsNonContracting := [0, 1]
  lhsBatch := []
  rhsBatch := []
  wf := dot_S64x128_S16384x8x64_S128x16384x8_0_2_1_01_n_n_wf
def dot_S8x128_S128x256_S8x256_1_0_0_1_n_n : DotDims S8x128 S128x256 S8x256 where
  lhsContracting := [1]
  rhsContracting := [0]
  lhsNonContracting := [0]
  rhsNonContracting := [1]
  lhsBatch := []
  rhsBatch := []
  wf := dot_S8x128_S128x256_S8x256_1_0_0_1_n_n_wf
def dot_S8x256_S256x128_S8x128_1_0_0_1_n_n : DotDims S8x256 S256x128 S8x128 where
  lhsContracting := [1]
  rhsContracting := [0]
  lhsNonContracting := [0]
  rhsNonContracting := [1]
  lhsBatch := []
  rhsBatch := []
  wf := dot_S8x256_S256x128_S8x128_1_0_0_1_n_n_wf
def dot_S8x128_S128x4_S8x4_1_0_0_1_n_n : DotDims S8x128 S128x4 S8x4 where
  lhsContracting := [1]
  rhsContracting := [0]
  lhsNonContracting := [0]
  rhsNonContracting := [1]
  lhsBatch := []
  rhsBatch := []
  wf := dot_S8x128_S128x4_S8x4_1_0_0_1_n_n_wf

class Facts : Prop extends Facts₀ where

variable [Facts]
-- ==== Proof.K.Acc.lean ====
import proofs.«422996_j60266981097886_3_alg».proof.Proof.Gen.Kernel.Skeleton

noncomputable section

namespace Cert.Kernel.Hand

open Idealize.ShloMosaic Idealize.SL.Sem Cert.Kernel Cert.Kernel.Gen

variable {F : FTy → Type} [FloatOps F]

def acc0Of (blk : Fin 16 → Vec F S8x1024x64 .f32) : (n : ℕ) → n < 16 → FVec F S8x64 .f32
  | 0, h => k0_pay2 (blk ⟨0, h⟩) (k0_pay1 (F := F))
  | n + 1, h => k0_pay2 (blk ⟨n + 1, h⟩) (acc0Of blk n (Nat.lt_of_succ_lt h))

def acc2Of (xb : Fin 16 → Vec F S8x64x1024 .f32) (wb : Fin 16 → Vec F S8x64x128 .f32) (bb : Fin 16 → Vec F S1x128x1024 .f32)
    (gb betab : Fin 16 → Vec F S1x1024 .f32) : (n : ℕ) → n < 16 → FVec F S8x128 .f32
  | 0, h => k2_pay1 (k2_pay3 (xb ⟨0, h⟩) (wb ⟨0, h⟩) (bb ⟨0, h⟩)) (k2_pay4 (xb ⟨0, h⟩) (wb ⟨0, h⟩) (bb ⟨0, h⟩))
      (k2_pay5 (xb ⟨0, h⟩) (wb ⟨0, h⟩) (bb ⟨0, h⟩)) (gb ⟨0, h⟩) (betab ⟨0, h⟩) (k2_pay2 (F := F))
  | n + 1, h => k2_pay1 (k2_pay3 (xb ⟨n + 1, h⟩) (wb ⟨n + 1, h⟩) (bb ⟨n + 1, h⟩)) (k2_pay4 (xb ⟨n + 1, h⟩) (wb ⟨n + 1, h⟩) (bb ⟨n + 1, h⟩))
      (k2_pay5 (xb ⟨n + 1, h⟩) (wb ⟨n + 1, h⟩) (bb ⟨n + 1, h⟩)) (gb ⟨n + 1, h⟩) (betab ⟨n + 1, h⟩)
      (acc2Of xb wb bb gb betab n (Nat.lt_of_succ_lt h))

end Cert.Kernel.Hand

end
-- ==== Proof.K.Reg0.lean ====
import proofs.«422996_j60266981097886_3_alg».proof.Proof.Gen.Kernel.Launch
import proofs.«422996_j60266981097886_3_alg».proof.Proof.Gen.Kernel.Skeleton
import proofs.«422996_j60266981097886_3_alg».proof.Proof.Gen.Kernel.Points
import proofs.«422996_j60266981097886_3_alg».proof.Proof.K.Acc
import Idealize.ShloMosaic.Lib.Pipeline.FrameBody
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev cond0_0 (i : grid0.Coords) : Prop :=
  (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

abbrev cond0_1 (i : grid0.Coords) : Prop := k0_cond2 i = 1#1
theorem hcond0_1 : ∀ t : Fin cfg0.N, cond0_1 (grid0.coords t) ↔ t.val = 15 :=
  (by decide +kernel : ∀ t : Fin grid0.N, cond0_1 (grid0.coords t) ↔ t.val = 15)

theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel

abbrev ms0_0 (t : Fin cfg0.N) : Memref sig .tc .vmem S8x1024x64 .f32 := win0_0.stage (cfg0.slots t 0)
abbrev ms0_1 (t : Fin cfg0.N) : Memref sig .tc .vmem S8x64 .f32 := win0_1.stage (cfg0.slots t 1)
abbrev scM0_0 : Memref sig .tc .vmem S8x64 .f32 := Memref.whole cc0_scratch0

abbrev others0 (c : Dev nD) : sProp 𝕄 :=
  Pipeline.scopedRestBut (Ix := Unit) (Name := ℕ) (U := UR sig nD τ) (Lvl := ℕ) (Val := Elt F) spec0 c [cc0_scratch0]

-- The running maximum's buffer split off from what the region never touches.
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA; rw [Pipeline.scopedRest_split_of_list spec0 c [cc0_scratch0] (by decide) (by decide)]
  simp only [scM0_0, owns_whole]; try rfl

theorem hz0_2 : (![0, 0] : Fin 2 → Nat) = fun _ => 0 := funext fun a => by fin_cases a <;> rfl
theorem hz0_3 : (![0, 0, 0] : Fin 3 → Nat) = fun _ => 0 := funext fun a => by fin_cases a <;> rfl

-- A buffer whose newest store went through the whole-buffer rectangle reads as that store's payload.
theorem read_writes_whole {Val : EltTy → Type} [∀ e, Nonempty (Val e)] {S : Shape} {e : EltTy} {sg : RefSig} {κ : Kind} {sp : Space}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ fun y => ⟨_, .head _, View.mem_set_unit_zero h inb y⟩).trans
    (View.canon_cons_unit_zero h inb w L)

section Run

variable (c : Dev nD) (i : grid0.Coords) {arg1 : Memref sig .tc .vmem S8x1024x64 .f32} (harg1 : arg1.IsWhole)
  {arg2 arg3 : Memref sig .tc .vmem S8x64 .f32} (harg2 : arg2.IsWhole) (harg3 : arg3.IsWhole)
  (x0 : Vec F S8x1024x64 .f32) (xi1 xs0 : Vec F S8x64 .f32)

-- The body's triple on whole buffers: the block at x0 throughout, the output's buffer from xi1 to y1, the scratch from xs0 to ys.
def Run0 (y1 ys : Vec F S8x64 .f32) : Prop :=
  ∀ K : PUnit → sProp 𝕄,
    iprop(owns (c : Thread nD τ) arg1 fullShare x0 ∗ owns (c : Thread nD τ) arg2 fullShare xi1 ∗ owns (c : Thread nD τ) arg3 fullShare xs0
        ∗ (iprop(owns (c : Thread nD τ) arg1 fullShare x0 ∗ owns (c : Thread nD τ) arg2 fullShare y1 ∗ owns (c : Thread nD τ) arg3 fullShare ys) -∗ K ⟨⟩))
      ⊢ wp frame (wpE (defs₀ (F := F)) Variants.none c none) Set.univ (cc0__se_pool_kernel i arg1 harg1 arg2 harg2 arg3 harg3) K

-- The three ways through the body: reset and update at the first point, update alone at a middle point, update and copy at the last.
theorem run0 :
    (cond0_0 i → ¬cond0_1 i → Run0 c i harg1 harg2 harg3 x0 xi1 xs0 xi1 (k0_pay2 x0 (k0_pay1 (F := F))))
      ∧ (¬cond0_0 i → ¬cond0_1 i → Run0 c i harg1 harg2 harg3 x0 xi1 xs0 xi1 (k0_pay2 x0 xs0))
      ∧ (¬cond0_0 i → cond0_1 i → Run0 c i harg1 harg2 harg3 x0 xi1 xs0 (k0_pay2 x0 xs0) (k0_pay2 x0 xs0)) := by
  refine ⟨?_, ?_, ?_⟩ <;> (
    intro hc0 hc1 K
    simp only [cc0__se_pool_kernel_eq_skeleton]; unfold cc0__se_pool_kernel_skel owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; swap; · iexact H1
      ipureintro
      first
      | exact harg2.read_unread _
      | refine (read_writes_whole (S := S8x64) _ _ hz0_2 _ _ _).trans ?_
        sl_unfold_words
        simp only [View.readCov_unit_zero (S := S8x64) _ hz0_2, View.readAt_eq_ld, harg1.read_unread, harg3.read_unread,
          View.ld_unit_zero (S := S8x64) hz0_2, View.ld_unit_zero (S := S8x1024x64) hz0_3]
    iexists _; isplitr; swap; · iexact HS0
    ipureintro
    refine (read_writes_whole (S := S8x64) _ _ hz0_2 _ _ _).trans ?_
    sl_unfold_words
    simp only [View.readCov_unit_zero (S := S8x64) _ hz0_2, View.readAt_eq_ld, harg1.read_unread, harg3.read_unread,
      View.ld_unit_zero (S := S8x64) hz0_2, View.ld_unit_zero (S := S8x1024x64) hz0_3])

end Run

section Region

variable (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

theorem lt16_0 {n : ℕ} (h : n < cfg0.N) : n < 16 := Nat.lt_of_lt_of_eq h N_0

-- The running maximum after point n.
abbrev accAt0 (n : ℕ) (h : n < 16) : Vec F S8x64 .f32 :=
  acc0Of (fun t : Fin 16 => (iblk0 V c 0 t : Vec F S8x1024x64 .f32)) n h

theorem accAt0_zero (hn : 0 < cfg0.N) : accAt0 V c 0 (lt16_0 hn) = k0_pay2 (iblk0 V c 0 ⟨0, hn⟩) (k0_pay1 (F := F)) := rfl
theorem accAt0_succ (n : ℕ) (hn : n + 1 < cfg0.N) :
    accAt0 V c (n + 1) (lt16_0 hn) = k0_pay2 (iblk0 V c 0 ⟨n + 1, hn⟩) (accAt0 V c n (lt16_0 (Nat.lt_of_succ_lt hn))) := rfl

-- Before the first point the scratch holds anything; before point n + 1 the running maximum after point n.
def PhiS0 : (n : ℕ) → n ≤ cfg0.N → sProp 𝕄
  | 0, _ => Pipeline.ΦA spec0 c
  | n + 1, hn => iprop(iprop(owns (c : Thread nD τ) scM0_0 fullShare (accAt0 V c n (lt16_0 hn)) ∗ others0 c) ∗ (∃ r, prngReg c r))

theorem PhiS0_succ (n : ℕ) (hn : n + 1 ≤ cfg0.N) :
    PhiS0 V c (n + 1) hn
      = iprop(iprop(owns (c : Thread nD τ) scM0_0 fullShare (accAt0 V c n (lt16_0 hn)) ∗ others0 c) ∗ (∃ r, prngReg c r)) := rfl

def dat0 : Dat τ (Elt F) Unit ℕ (UR sig nD τ) ℕ cfg0 c where
  A w := V c (Pipeline.arrRef spec0 w)
  after w t := match w with
    | ⟨0, _⟩ => iblk0 V c 0 t
    | ⟨1, _⟩ => accAt0 V c 15 (by decide)
  Φ t := PhiS0 V c t.val (Nat.le_of_lt_succ t.isLt)
  q _ := fullShare
  owed _ := 0

theorem dat0_A (w : Fin cfg0.W) : (dat0 V c).A w = V c (Pipeline.arrRef spec0 w) := rfl
theorem dat0_q (w : Fin cfg0.W) : (dat0 V c).q w = fullShare := rfl
theorem dat0_owed (t : Fin (cfg0.N + 1)) : (dat0 V c).owed t = 0 := rfl

theorem after0_0 (t : Fin cfg0.N) : (dat0 V c).after 0 t = iblk0 V c 0 t := rfl
theorem after0_1 (t : Fin cfg0.N) : (dat0 V c).after 1 t = accAt0 V c 15 (by decide) := rfl

theorem before0_0 (t : Fin cfg0.N) (d) : (dat0 V c).before 0 t d = iblk0 V c 0 t :=
  ((dat0 V c).before_fetched 0 t (fetch0_0 t) d).trans (by unfold Dat.fetched Dat.blockOf iblk0; rw [dat0_A]; try rfl)

-- The body at any point: the scratch goes from the running maximum before the point (anything, at the first) to the one after; the output's buffer is written at the last point only.
theorem sound_body0 (t : Fin cfg0.N) :
    iprop((dat0 V c).Φ t.castSucc ∗ (dat0 V c).owesAt () t.castSucc
        ∗ (∃ d, owns (c : Thread nD τ) (ms0_0 t) fullShare ((dat0 V c).before 0 t d))
        ∗ (∃ d, owns (c : Thread nD τ) (ms0_1 t) fullShare ((dat0 V c).before 1 t d)))
      ⊢ wp frame (wpE (defs₀ (F := F)) Variants.none c none) Set.univ (bodyAt0 t) fun _ =>
        iprop((dat0 V c).Φ t.succ ∗ (dat0 V c).owesAt () t.succ ∗ (dat0 V c).leavesExact 0 t ∗ (dat0 V c).leavesExact 1 t) := by
  unfold bodyAt0
  simp only [before0_0]
  rw [show (dat0 V c).owesAt () t.succ = (dat0 V c).owesAt () t.castSucc from rfl]
  rw [show (dat0 V c).leavesExact 0 t = owns (c : Thread nD τ) (ms0_0 t) fullShare ((dat0 V c).after 0 t) from by
    unfold Dat.leavesExact; rw [liveAt0_0 t], after0_0]
  obtain ⟨n, hn⟩ := t
  cases n with
  | zero =>
    have hc0 : cond0_0 (grid0.coords ⟨0, hn⟩) := (hcond0_0 ⟨0, hn⟩).mpr rfl
    have hc1 : ¬cond0_1 (grid0.coords ⟨0, hn⟩) := fun h => absurd ((hcond0_1 ⟨0, hn⟩).mp h) (show ¬((0 : ℕ) = 15) from by decide)
    rw [Dat.leavesExact_idle (dat0 V c) 1 ⟨0, hn⟩ (idleAt0_1 ⟨0, hn⟩ hc1) (noFlush0_1 ⟨0, hn⟩ hc1)]
    rw [show (dat0 V c).Φ (Fin.castSucc ⟨0, hn⟩) = Pipeline.ΦA spec0 c from rfl, PhiA0_eq,
      show (dat0 V c).Φ (Fin.succ ⟨0, hn⟩) = PhiS0 V c (0 + 1) hn from rfl, PhiS0_succ, accAt0_zero]
    iintro ⟨⟨⟨⟨%ds, HS0⟩, Hr⟩, Hg⟩, Ho, ⟨%d0, H0⟩, ⟨%d1, H1⟩⟩
    iapply ((run0 c _ _ _ _ _ _ ds).1 hc0 hc1 _)
    isplitl [H0]; · iexact H0
    isplitl [H1]; · iexact H1
    isplitl [HS0]; · iexact HS0
    iintro ⟨H0, H1, HS0⟩
    iframe HS0 Hr Hg Ho H0
    iexists _; iexact H1
  | succ n =>
    have hc0 : ¬cond0_0 (grid0.coords ⟨n + 1, hn⟩) := fun h => absurd ((hcond0_0 ⟨n + 1, hn⟩).mp h) (Nat.succ_ne_zero n)
    rw [show (dat0 V c).Φ (Fin.castSucc ⟨n + 1, hn⟩) = PhiS0 V c (n + 1) (Nat.le_of_lt hn) from rfl, PhiS0_succ,
      show (dat0 V c).Φ (Fin.succ ⟨n + 1, hn⟩) = PhiS0 V c (n + 1 + 1) hn from rfl, PhiS0_succ]
    by_cases h1 : n + 1 = 15
    · have hc1 : cond0_1 (grid0.coords ⟨n + 1, hn⟩) := (hcond0_1 ⟨n + 1, hn⟩).mpr h1
      have e : accAt0 V c 15 (by decide) = accAt0 V c (n + 1) (lt16_0 hn) := by
        obtain rfl : n = 14 := by omega
        rfl
      rw [show (dat0 V c).leavesExact 1 ⟨n + 1, hn⟩ = owns (c : Thread nD τ) (ms0_1 ⟨n + 1, hn⟩) fullShare ((dat0 V c).after 1 ⟨n + 1, hn⟩) from by
        unfold Dat.leavesExact; rw [liveAt0_1 ⟨n + 1, hn⟩ hc1], after0_1, e, accAt0_succ]
      iintro ⟨⟨⟨HS0, Hr⟩, Hg⟩, Ho, ⟨%d0, H0⟩, ⟨%d1, H1⟩⟩
      iapply ((run0 c _ _ _ _ _ _ _).2.2 hc0 hc1 _)
      isplitl [H0]; · iexact H0
      isplitl [H1]; · iexact H1
      isplitl [HS0]; · iexact HS0
      iintro ⟨H0, H1, HS0⟩
      iframe HS0 Hr Hg Ho H0
      iexact H1
    · have hc1 : ¬cond0_1 (grid0.coords ⟨n + 1, hn⟩) := fun h => h1 ((hcond0_1 ⟨n + 1, hn⟩).mp h)
      rw [Dat.leavesExact_idle (dat0 V c) 1 ⟨n + 1, hn⟩ (idleAt0_1 ⟨n + 1, hn⟩ hc1) (noFlush0_1 ⟨n + 1, hn⟩ hc1), accAt0_succ]
      iintro ⟨⟨⟨HS0, Hr⟩, Hg⟩, Ho, ⟨%d0, H0⟩, ⟨%d1, H1⟩⟩
      iapply ((run0 c _ _ _ _ _ _ _).2.1 hc0 hc1 _)
      isplitl [H0]; · iexact H0
      isplitl [H1]; · iexact H1
      isplitl [HS0]; · iexact HS0
      iintro ⟨H0, H1, HS0⟩
      iframe HS0 Hr Hg Ho H0
      iexists _; iexact H1

theorem body0 : BodyObligation (dat0 (F := F) V c) (defs₀ (F := F)) Variants.none () Set.univ := fun t => by
  rw [bigSep_W0, bigSep_W0]
  exact sound_body0 V c t

theorem hin0 : Pipeline.ΦA spec0 c ⊢ (dat0 V c).Φ 0 := .rfl

-- After the last point what the scratch holds is forgotten.
theorem hout0 : (dat0 V c).Φ (Fin.last cfg0.N) ⊢ Pipeline.ΦA spec0 c := by
  rw [show (dat0 V c).Φ (Fin.last cfg0.N) = PhiS0 V c (15 + 1) (by decide) from rfl, PhiS0_succ, PhiA0_eq]
  iintro ⟨⟨HS0, Hr⟩, Hg⟩
  iframe Hr Hg
  iexists _; iexact HS0

theorem idx0_1 : ∀ a, win0_1.index t0_15 a = 0 ∧ win0_1.xsize (grid0.coords t0_15) a = main_v0.ty.shape.size a := by decide +kernel

-- The output's one block is the whole array.
theorem flushed0_eq (t : Fin cfg0.N) (hf : (cfg0.win 1).flush t = true) :
    (dat0 V c).flushed 1 t = ((cfg0.win 1).blk t).view.read (Elt F) (accAt0 V c 15 (by decide) : Buf (Elt F) ((c : Thread nD τ).loc main_v0)) := by
  obtain rfl : t = t0_15 := Fin.ext (show t.val = 15 by have := (flush0_1 t).mp hf; have := lt16_0 t.isLt; omega)
  have hz' : (fun a => win0_1.index t0_15 a * main_v0.ty.shape.size a) = fun _ => 0 := funext fun a => by rw [(idx0_1 a).1, Nat.zero_mul]
  exact (Memref.read_access_unit_zero (Elt F) main_v0 hz' (fun a => by rw [congrFun hz' a]; simp) _).symm

-- So the output array ends at the running maximum after the last point.
theorem out0_val :
    (dat0 V c).arrAt 1 cfg0.N = acc0Of (fun t : Fin 16 => (iblk0 V c 0 t : Vec F S8x1024x64 .f32)) 15 (by decide) :=
  (dat0 V c).arrAt_eq_of_cover 1 _ (flushed0_eq V c) fun i =>
    ⟨t0_15, (flush0_1 t0_15).mpr rfl, by
      show i ∈ ((View.whole main_v0).slice (win0_1.rect t0_15)).set
      rw [View.set_slice_whole, Rect.mem_set_unit]
      intro a
      show win0_1.index t0_15 a * win0_1.size a ≤ (i a : Nat) ∧ (i a : Nat) < win0_1.index t0_15 a * win0_1.size a + win0_1.xsize (grid0.coords t0_15) a
      rw [(idx0_1 a).1, (idx0_1 a).2, Nat.zero_mul, Nat.zero_add]
      exact ⟨Nat.zero_le _, (i a).isLt⟩⟩

end Region

end Cert.Kernel.Hand

end
-- ==== Proof.Stages.lean ====
/- GENERATED by 'bun scratch/gen_stages.js' (run in the unit directory; input proof/ReferenceIdeal.lean, no other argument): a table of the
   reference program's host operations laid out as pure functions, one application per printed operation, cut into stages.
   The stages: node-axis maximum, squeeze-and-excitation gate, gate-and-residual, sparse aggregation, graph convolution with
   activation, batch normalisation over (batch, channel) per node, node-axis maximum, and the layers of the classifier head.
   A value flowing through the same operations in two programs is then one function applied to it. -/
import proofs.«422996_j60266981097886_3_alg».proof.ReferenceIdeal
import proofs.«422996_j60266981097886_3_alg».proof.Proof.Gen.ReferenceIdeal

noncomputable section

namespace Cert.Stages

open Idealize.ShloMosaic Idealize.SL.Sem
open Cert.ReferenceIdeal Cert.ReferenceIdeal.Gen

variable {F : FTy → Type} [FloatOps F]

/-- The maximum over the node axis: p b f = max over n of x b n f (a fold of max from -∞). -/
def pool0 (x : (⟨S8x16384x64, .f32⟩ : BufTy).Contents (Elt F)) :
    (⟨S8x64, .f32⟩ : BufTy).Contents (Elt F) :=
  (((fun x v => Host.reduce FloatOps.maximumf x v reducesTo_S8x16384x64_S8x64_d1 h_S_)) x (constant (F := F) S_ .f32 0xFF800000#32))

/-- The squeeze-and-excitation gate: two dense layers with max(·, 0) and a third followed by the logistic function 1 / (1 + exp (-z)). -/
def seGate (p : (⟨S8x64, .f32⟩ : BufTy).Contents (Elt F)) (W1 : (⟨S64x32, .f32⟩ : BufTy).Contents (Elt F)) (b1 : (⟨S32, .f32⟩ : BufTy).Contents (Elt F)) (W2 : (⟨S32x32, .f32⟩ : BufTy).Contents (Elt F)) (b2 : (⟨S32, .f32⟩ : BufTy).Contents (Elt F)) (Wop : (⟨S32x64, .f32⟩ : BufTy).Contents (Elt F)) (bop : (⟨S64, .f32⟩ : BufTy).Contents (Elt F)) :
    (⟨S8x64, .f32⟩ : BufTy).Contents (Elt F) :=
  ((Host.divf) ((broadcastInDim S8x64 ![] bcast_S_S8x64) (constant (F := F) S_ .f32 0x3F800000#32)) ((addf) ((broadcastInDim S8x64 ![] bcast_S_S8x64) (constant (F := F) S_ .f32 0x3F800000#32)) ((Host.exp) ((Host.negf) ((addf) (((fun l r => Host.dotGeneral dot_S8x32_S32x64_S8x64_1_0_0_1_n_n none l r)) (maximumf ((addf) (((fun l r => Host.dotGeneral dot_S8x32_S32x32_S8x32_1_0_0_1_n_n none l r)) (maximumf ((addf) (((fun l r => Host.dotGeneral dot_S8x64_S64x32_S8x32_1_0_0_1_n_n none l r)) p W1) ((broadcastInDim S8x32 ![0, 1] bcast_S1x32_S8x32_0_1) ((broadcastInDim S1x32 ![1] bcast_S32_S1x32_1) b1))) ((broadcastInDim S8x32 ![] bcast_S_S8x32) (constant (F := F) S_ .f32 0x00000000#32))) W2) ((broadcastInDim S8x32 ![0, 1] bcast_S1x32_S8x32_0_1) ((broadcastInDim S1x32 ![1] bcast_S32_S1x32_1) b2))) ((broadcastInDim S8x32 ![] bcast_S_S8x32) (constant (F := F) S_ .f32 0x00000000#32))) Wop) ((broadcastInDim S8x64 ![0, 1] bcast_S1x64_S8x64_0_1) ((broadcastInDim S1x64 ![1] bcast_S64_S1x64_1) bop)))))))

/-- Gate and residual: h b n f = x b n f * a b f + x b n f. -/
def gateRes (x : (⟨S8x16384x64, .f32⟩ : BufTy).Contents (Elt F)) (a : (⟨S8x64, .f32⟩ : BufTy).Contents (Elt F)) :
    (⟨S8x16384x64, .f32⟩ : BufTy).Contents (Elt F) :=
  ((addf) ((mulf) x ((broadcastInDim S8x16384x64 ![0, 1, 2] bcast_S8x1x64_S8x16384x64_0_1_2) ((broadcastInDim S8x1x64 ![0, 2] bcast_S8x64_S8x1x64_0_2) a))) x)

/-- The sparse aggregation: rows of h (node-major) gathered at src (negative indices wrapped), scaled by the edge weights, and summed into the rows dst of a zero array. -/
def aggOf (h : (⟨S8x16384x64, .f32⟩ : BufTy).Contents (Elt F)) (src : (⟨S262144, .i32⟩ : BufTy).Contents (Elt F)) (dst : (⟨S262144, .i32⟩ : BufTy).Contents (Elt F)) (ew : (⟨S262144, .f32⟩ : BufTy).Contents (Elt F)) :
    (⟨S16384x8x64, .f32⟩ : BufTy).Contents (Elt F) :=
  (((fun x i u => Host.scatterAdd scatter_S16384x8x64_S262144x1_S262144x8x64_12_0_0_1 x i u)) ((broadcastInDim S16384x8x64 ![] bcast_S_S16384x8x64) (constant (F := F) S_ .f32 0x00000000#32)) ((broadcastInDim S262144x1 ![0] bcast_S262144_S262144x1_0) dst) ((mulf) (((fun x i => Host.gather gather_S16384x8x64_S262144x1_S262144x8x64_12_0_n_n_0_1_1864 x i)) (((transpose S16384x8x64 [1, 0, 2] · transposes_S8x16384x64_S16384x8x64_1_0_2)) h) ((broadcastInDim S262144x1 ![0] bcast_S262144_S262144x1_0) ((select) ((cmpi .slt) src ((broadcastInDim S262144 ![] bcast_S_S262144) (constantI S_ 32 0#32))) ((addi) src ((broadcastInDim S262144 ![] bcast_S_S262144) (constantI S_ 32 16384#32))) src))) ((broadcastInDim S262144x8x64 ![0, 1, 2] bcast_S262144x1x1_S262144x8x64_0_1_2) ((broadcastInDim S262144x1x1 ![0] bcast_S262144_S262144x1x1_0) ew))))

/-- The graph-convolution activation H b n k = max (∑ f, Wg f k * agg n b f + bg k, 0). -/
def gcnAct (agg : (⟨S16384x8x64, .f32⟩ : BufTy).Contents (Elt F)) (Wg : (⟨S64x128, .f32⟩ : BufTy).Contents (Elt F)) (bg : (⟨S128, .f32⟩ : BufTy).Contents (Elt F)) :
    (⟨S8x16384x128, .f32⟩ : BufTy).Contents (Elt F) :=
  (maximumf ((addf) (((transpose S8x16384x128 [2, 1, 0] · transposes_S128x16384x8_S8x16384x128_2_1_0)) (((fun l r => Host.dotGeneral dot_S64x128_S16384x8x64_S128x16384x8_0_2_1_01_n_n none l r)) Wg agg)) ((broadcastInDim S8x16384x128 ![0, 1, 2] bcast_S1x1x128_S8x16384x128_0_1_2) ((broadcastInDim S1x1x128 ![2] bcast_S128_S1x1x128_2) bg))) ((broadcastInDim S8x16384x128 ![] bcast_S_S8x16384x128) (constant (F := F) S_ .f32 0x00000000#32)))

/-- The per-node mean over batch and channel: (∑ b k, H b n k) / 1024. -/
def bnMean (H : (⟨S8x16384x128, .f32⟩ : BufTy).Contents (Elt F)) :
    (⟨S1x16384x1, .f32⟩ : BufTy).Contents (Elt F) :=
  ((Host.divf) ((broadcastInDim S1x16384x1 ![1] bcast_S16384_S1x16384x1_1) (((fun x v => Host.reduceAdd x v reducesTo_S8x16384x128_S16384_d0_2 h_S_)) H (constant (F := F) S_ .f32 0x00000000#32))) ((broadcastInDim S1x16384x1 ![] bcast_S_S1x16384x1) (constant (F := F) S_ .f32 0x44800000#32)))

/-- The per-node variance over batch and channel, (∑ b k, (H b n k - mean n)²) / (1024 - 0), selected over a not-a-number filler by the test 1024 - 0 > 0. -/
def bnVar (H : (⟨S8x16384x128, .f32⟩ : BufTy).Contents (Elt F)) :
    (⟨S1x16384x1, .f32⟩ : BufTy).Contents (Elt F) :=
  ((fun p a b => select (broadcastInDim S1x16384x1 ![] bcast_S_S1x16384x1 p) a b) ((cmpf .ogt) (subf (constant (F := F) S_ .f32 0x44800000#32) ((sitofp .f32) (constantI S_ 32 0#32))) (constant (F := F) S_ .f32 0x00000000#32)) (Host.divf ((broadcastInDim S1x16384x1 ![1] bcast_S16384_S1x16384x1_1) ((fun x v => Host.reduceAdd x v reducesTo_S8x16384x128_S16384_d0_2 h_S_) (mulf (subf H ((broadcastInDim S8x16384x128 ![0, 1, 2] bcast_S1x16384x1_S8x16384x128_0_1_2) (Host.divf ((broadcastInDim S1x16384x1 ![1] bcast_S16384_S1x16384x1_1) ((fun x v => Host.reduceAdd x v reducesTo_S8x16384x128_S16384_d0_2 h_S_) H (constant (F := F) S_ .f32 0x00000000#32))) ((broadcastInDim S1x16384x1 ![] bcast_S_S1x16384x1) (constant (F := F) S_ .f32 0x44800000#32))))) (subf H ((broadcastInDim S8x16384x128 ![0, 1, 2] bcast_S1x16384x1_S8x16384x128_0_1_2) (Host.divf ((broadcastInDim S1x16384x1 ![1] bcast_S16384_S1x16384x1_1) ((fun x v => Host.reduceAdd x v reducesTo_S8x16384x128_S16384_d0_2 h_S_) H (constant (F := F) S_ .f32 0x00000000#32))) ((broadcastInDim S1x16384x1 ![] bcast_S_S1x16384x1) (constant (F := F) S_ .f32 0x44800000#32)))))) (constant (F := F) S_ .f32 0x00000000#32))) ((broadcastInDim S1x16384x1 ![] bcast_S_S1x16384x1) (subf (constant (F := F) S_ .f32 0x44800000#32) ((sitofp .f32) (constantI S_ 32 0#32))))) ((broadcastInDim S1x16384x1 ![] bcast_S_S1x16384x1) (id (constant (F := F) S_ .f32 0x7FC00000#32))))

/-- Normalisation with given statistics: ((H - mean) * rsqrt (var + ε)) * g1 + beta1, the statistics and parameters per node. -/
def bnNorm (H : (⟨S8x16384x128, .f32⟩ : BufTy).Contents (Elt F)) (mean : (⟨S1x16384x1, .f32⟩ : BufTy).Contents (Elt F)) (var : (⟨S1x16384x1, .f32⟩ : BufTy).Contents (Elt F)) (g1 : (⟨S16384, .f32⟩ : BufTy).Contents (Elt F)) (beta1 : (⟨S16384, .f32⟩ : BufTy).Contents (Elt F)) :
    (⟨S8x16384x128, .f32⟩ : BufTy).Contents (Elt F) :=
  ((addf) ((mulf) ((mulf) ((subf) H ((broadcastInDim S8x16384x128 ![0, 1, 2] bcast_S1x16384x1_S8x16384x128_0_1_2) mean)) ((broadcastInDim S8x16384x128 ![0, 1, 2] bcast_S1x16384x1_S8x16384x128_0_1_2) ((Host.rsqrt) ((addf) var ((broadcastInDim S1x16384x1 ![] bcast_S_S1x16384x1) (constant (F := F) S_ .f32 0x3A83126F#32)))))) ((broadcastInDim S8x16384x128 ![0, 1, 2] bcast_S1x16384x1_S8x16384x128_0_1_2) ((fun x => shapeCast _ x shapeCasts_S16384_S1x16384x1) g1))) ((broadcastInDim S8x16384x128 ![0, 1, 2] bcast_S1x16384x1_S8x16384x128_0_1_2) ((fun x => shapeCast _ x shapeCasts_S16384_S1x16384x1) beta1)))

/-- The maximum over the node axis of an [8, 16384, 128] array. -/
def poolN (Y : (⟨S8x16384x128, .f32⟩ : BufTy).Contents (Elt F)) :
    (⟨S8x128, .f32⟩ : BufTy).Contents (Elt F) :=
  (((fun x v => Host.reduce FloatOps.maximumf x v reducesTo_S8x16384x128_S8x128_d1 h_S_)) Y (constant (F := F) S_ .f32 0xFF800000#32))

/-- First dense layer of the head: max (pooled ⬝ Wf1 + bf1, 0). -/
def fc1 (pooled : (⟨S8x128, .f32⟩ : BufTy).Contents (Elt F)) (Wf1 : (⟨S128x256, .f32⟩ : BufTy).Contents (Elt F)) (bf1 : (⟨S256, .f32⟩ : BufTy).Contents (Elt F)) :
    (⟨S8x256, .f32⟩ : BufTy).Contents (Elt F) :=
  (maximumf ((addf) (((fun l r => Host.dotGeneral dot_S8x128_S128x256_S8x256_1_0_0_1_n_n none l r)) pooled Wf1) ((broadcastInDim S8x256 ![0, 1] bcast_S1x256_S8x256_0_1) ((broadcastInDim S1x256 ![1] bcast_S256_S1x256_1) bf1))) ((broadcastInDim S8x256 ![] bcast_S_S8x256) (constant (F := F) S_ .f32 0x00000000#32)))

/-- Batch normalisation over the batch axis of an [8, 256] array (mean and variance over the 8 rows, ε added, scale g2, shift beta2). -/
def bnB256 (Z : (⟨S8x256, .f32⟩ : BufTy).Contents (Elt F)) (g2 : (⟨S256, .f32⟩ : BufTy).Contents (Elt F)) (beta2 : (⟨S256, .f32⟩ : BufTy).Contents (Elt F)) :
    (⟨S8x256, .f32⟩ : BufTy).Contents (Elt F) :=
  ((addf) ((mulf) ((mulf) ((subf) Z ((broadcastInDim S8x256 ![0, 1] bcast_S1x256_S8x256_0_1) ((Host.divf) ((broadcastInDim S1x256 ![1] bcast_S256_S1x256_1) (((fun x v => Host.reduceAdd x v reducesTo_S8x256_S256_d0 h_S_)) Z (constant (F := F) S_ .f32 0x00000000#32))) ((broadcastInDim S1x256 ![] bcast_S_S1x256) (constant (F := F) S_ .f32 0x41000000#32))))) ((broadcastInDim S8x256 ![0, 1] bcast_S1x256_S8x256_0_1) ((Host.rsqrt) ((addf) ((fun p a b => select (broadcastInDim S1x256 ![] bcast_S_S1x256 p) a b) ((cmpf .ogt) (subf (constant (F := F) S_ .f32 0x41000000#32) ((sitofp .f32) (constantI S_ 32 0#32))) (constant (F := F) S_ .f32 0x00000000#32)) (Host.divf ((broadcastInDim S1x256 ![1] bcast_S256_S1x256_1) ((fun x v => Host.reduceAdd x v reducesTo_S8x256_S256_d0 h_S_) (mulf (subf Z ((broadcastInDim S8x256 ![0, 1] bcast_S1x256_S8x256_0_1) (Host.divf ((broadcastInDim S1x256 ![1] bcast_S256_S1x256_1) ((fun x v => Host.reduceAdd x v reducesTo_S8x256_S256_d0 h_S_) Z (constant (F := F) S_ .f32 0x00000000#32))) ((broadcastInDim S1x256 ![] bcast_S_S1x256) (constant (F := F) S_ .f32 0x41000000#32))))) (subf Z ((broadcastInDim S8x256 ![0, 1] bcast_S1x256_S8x256_0_1) (Host.divf ((broadcastInDim S1x256 ![1] bcast_S256_S1x256_1) ((fun x v => Host.reduceAdd x v reducesTo_S8x256_S256_d0 h_S_) Z (constant (F := F) S_ .f32 0x00000000#32))) ((broadcastInDim S1x256 ![] bcast_S_S1x256) (constant (F := F) S_ .f32 0x41000000#32)))))) (constant (F := F) S_ .f32 0x00000000#32))) ((broadcastInDim S1x256 ![] bcast_S_S1x256) (subf (constant (F := F) S_ .f32 0x41000000#32) ((sitofp .f32) (constantI S_ 32 0#32))))) ((broadcastInDim S1x256 ![] bcast_S_S1x256) (id (constant (F := F) S_ .f32 0x7FC00000#32)))) ((broadcastInDim S1x256 ![] bcast_S_S1x256) (constant (F := F) S_ .f32 0x3A83126F#32)))))) ((broadcastInDim S8x256 ![0, 1] bcast_S1x256_S8x256_0_1) ((fun x => shapeCast _ x shapeCasts_S256_S1x256) g2))) ((broadcastInDim S8x256 ![0, 1] bcast_S1x256_S8x256_0_1) ((fun x => shapeCast _ x shapeCasts_S256_S1x256) beta2)))

/-- Second dense layer of the head: max (Z ⬝ Wf2 + bf2, 0). -/
def fc2 (Z : (⟨S8x256, .f32⟩ : BufTy).Contents (Elt F)) (Wf2 : (⟨S256x128, .f32⟩ : BufTy).Contents (Elt F)) (bf2 : (⟨S128, .f32⟩ : BufTy).Contents (Elt F)) :
    (⟨S8x128, .f32⟩ : BufTy).Contents (Elt F) :=
  (maximumf ((addf) (((fun l r => Host.dotGeneral dot_S8x256_S256x128_S8x128_1_0_0_1_n_n none l r)) Z Wf2) ((broadcastInDim S8x128 ![0, 1] bcast_S1x128_S8x128_0_1) ((broadcastInDim S1x128 ![1] bcast_S128_S1x128_1) bf2))) ((broadcastInDim S8x128 ![] bcast_S_S8x128) (constant (F := F) S_ .f32 0x00000000#32)))

/-- Batch normalisation over the batch axis of an [8, 128] array. -/
def bnB128 (Z : (⟨S8x128, .f32⟩ : BufTy).Contents (Elt F)) (g3 : (⟨S128, .f32⟩ : BufTy).Contents (Elt F)) (beta3 : (⟨S128, .f32⟩ : BufTy).Contents (Elt F)) :
    (⟨S8x128, .f32⟩ : BufTy).Contents (Elt F) :=
  ((addf) ((mulf) ((mulf) ((subf) Z ((broadcastInDim S8x128 ![0, 1] bcast_S1x128_S8x128_0_1) ((Host.divf) ((broadcastInDim S1x128 ![1] bcast_S128_S1x128_1) (((fun x v => Host.reduceAdd x v reducesTo_S8x128_S128_d0 h_S_)) Z (constant (F := F) S_ .f32 0x00000000#32))) ((broadcastInDim S1x128 ![] bcast_S_S1x128) (constant (F := F) S_ .f32 0x41000000#32))))) ((broadcastInDim S8x128 ![0, 1] bcast_S1x128_S8x128_0_1) ((Host.rsqrt) ((addf) ((fun p a b => select (broadcastInDim S1x128 ![] bcast_S_S1x128 p) a b) ((cmpf .ogt) (subf (constant (F := F) S_ .f32 0x41000000#32) ((sitofp .f32) (constantI S_ 32 0#32))) (constant (F := F) S_ .f32 0x00000000#32)) (Host.divf ((broadcastInDim S1x128 ![1] bcast_S128_S1x128_1) ((fun x v => Host.reduceAdd x v reducesTo_S8x128_S128_d0 h_S_) (mulf (subf Z ((broadcastInDim S8x128 ![0, 1] bcast_S1x128_S8x128_0_1) (Host.divf ((broadcastInDim S1x128 ![1] bcast_S128_S1x128_1) ((fun x v => Host.reduceAdd x v reducesTo_S8x128_S128_d0 h_S_) Z (constant (F := F) S_ .f32 0x00000000#32))) ((broadcastInDim S1x128 ![] bcast_S_S1x128) (constant (F := F) S_ .f32 0x41000000#32))))) (subf Z ((broadcastInDim S8x128 ![0, 1] bcast_S1x128_S8x128_0_1) (Host.divf ((broadcastInDim S1x128 ![1] bcast_S128_S1x128_1) ((fun x v => Host.reduceAdd x v reducesTo_S8x128_S128_d0 h_S_) Z (constant (F := F) S_ .f32 0x00000000#32))) ((broadcastInDim S1x128 ![] bcast_S_S1x128) (constant (F := F) S_ .f32 0x41000000#32)))))) (constant (F := F) S_ .f32 0x00000000#32))) ((broadcastInDim S1x128 ![] bcast_S_S1x128) (subf (constant (F := F) S_ .f32 0x41000000#32) ((sitofp .f32) (constantI S_ 32 0#32))))) ((broadcastInDim S1x128 ![] bcast_S_S1x128) (id (constant (F := F) S_ .f32 0x7FC00000#32)))) ((broadcastInDim S1x128 ![] bcast_S_S1x128) (constant (F := F) S_ .f32 0x3A83126F#32)))))) ((broadcastInDim S8x128 ![0, 1] bcast_S1x128_S8x128_0_1) ((fun x => shapeCast _ x shapeCasts_S128_S1x128) g3))) ((broadcastInDim S8x128 ![0, 1] bcast_S1x128_S8x128_0_1) ((fun x => shapeCast _ x shapeCasts_S128_S1x128) beta3)))

/-- The output layer Z ⬝ Wo + bo. -/
def logits (Z : (⟨S8x128, .f32⟩ : BufTy).Contents (Elt F)) (Wo : (⟨S128x4, .f32⟩ : BufTy).Contents (Elt F)) (bo : (⟨S4, .f32⟩ : BufTy).Contents (Elt F)) :
    (⟨S8x4, .f32⟩ : BufTy).Contents (Elt F) :=
  ((addf) (((fun l r => Host.dotGeneral dot_S8x128_S128x4_S8x4_1_0_0_1_n_n none l r)) Z Wo) ((broadcastInDim S8x4 ![0, 1] bcast_S1x4_S8x4_0_1) ((broadcastInDim S1x4 ![1] bcast_S4_S1x4_1) bo)))

/-- Softmax over the last axis: exp (L - max L) / ∑ exp (L - max L), row by row. -/
def softmax4 (L : (⟨S8x4, .f32⟩ : BufTy).Contents (Elt F)) :
    (⟨S8x4, .f32⟩ : BufTy).Contents (Elt F) :=
  ((Host.divf) ((Host.exp) ((subf) L ((broadcastInDim S8x4 ![0, 1] bcast_S8x1_S8x4_0_1) ((broadcastInDim S8x1 ![0] bcast_S8_S8x1_0) ((maximumf) ((broadcastInDim S8 ![] bcast_S_S8) (constant (F := F) S_ .f32 0xFF800000#32)) (((fun x v => Host.reduce FloatOps.maximumf x v reducesTo_S8x4_S8_d1 h_S_)) L (constant (F := F) S_ .f32 0xFF800000#32))))))) ((broadcastInDim S8x4 ![0, 1] bcast_S8x1_S8x4_0_1) ((broadcastInDim S8x1 ![0] bcast_S8_S8x1_0) (((fun x v => Host.reduceAdd x v reducesTo_S8x4_S8_d1 h_S_)) ((Host.exp) ((subf) L ((broadcastInDim S8x4 ![0, 1] bcast_S8x1_S8x4_0_1) ((broadcastInDim S8x1 ![0] bcast_S8_S8x1_0) ((maximumf) ((broadcastInDim S8 ![] bcast_S_S8) (constant (F := F) S_ .f32 0xFF800000#32)) (((fun x v => Host.reduce FloatOps.maximumf x v reducesTo_S8x4_S8_d1 h_S_)) L (constant (F := F) S_ .f32 0xFF800000#32))))))) (constant (F := F) S_ .f32 0x00000000#32)))))

/-- Batch normalisation per node with the statistics of the array itself. -/
def bnOut (H : (⟨S8x16384x128, .f32⟩ : BufTy).Contents (Elt F)) (g1 beta1 : (⟨S16384, .f32⟩ : BufTy).Contents (Elt F)) : (⟨S8x16384x128, .f32⟩ : BufTy).Contents (Elt F) :=
  bnNorm H (bnMean H) (bnVar H) g1 beta1

/-- Convolution, normalisation and node-axis maximum of an aggregated array. -/
def bnPool (agg : (⟨S16384x8x64, .f32⟩ : BufTy).Contents (Elt F)) (Wg : (⟨S64x128, .f32⟩ : BufTy).Contents (Elt F)) (bg : (⟨S128, .f32⟩ : BufTy).Contents (Elt F)) (g1 beta1 : (⟨S16384, .f32⟩ : BufTy).Contents (Elt F)) : (⟨S8x128, .f32⟩ : BufTy).Contents (Elt F) :=
  poolN (bnOut (gcnAct agg Wg bg) g1 beta1)

/-- The classifier head as the composition of its layers. -/
def head (pooled : (⟨S8x128, .f32⟩ : BufTy).Contents (Elt F)) (g2 beta2 : (⟨S256, .f32⟩ : BufTy).Contents (Elt F)) (g3 beta3 : (⟨S128, .f32⟩ : BufTy).Contents (Elt F)) (Wf1 : (⟨S128x256, .f32⟩ : BufTy).Contents (Elt F)) (bf1 : (⟨S256, .f32⟩ : BufTy).Contents (Elt F)) (Wf2 : (⟨S256x128, .f32⟩ : BufTy).Contents (Elt F)) (bf2 : (⟨S128, .f32⟩ : BufTy).Contents (Elt F)) (Wo : (⟨S128x4, .f32⟩ : BufTy).Contents (Elt F)) (bo : (⟨S4, .f32⟩ : BufTy).Contents (Elt F)) : (⟨S8x4, .f32⟩ : BufTy).Contents (Elt F) :=
  softmax4 (logits (bnB128 (fc2 (bnB256 (fc1 pooled Wf1 bf1) g2 beta2) Wf2 bf2) g3 beta3) Wo bo)

end Cert.Stages

end
-- ==== Proof.K.Reg1.lean ====
import proofs.«422996_j60266981097886_3_alg».proof.Proof.Gen.Kernel.Launch
import proofs.«422996_j60266981097886_3_alg».proof.Proof.Gen.Kernel.Skeleton
import proofs.«422996_j60266981097886_3_alg».proof.Proof.Gen.Kernel.Points
import proofs.«422996_j60266981097886_3_alg».proof.Proof.Stages
import Idealize.ShloMosaic.Lib.Pipeline.FrameBody
import Idealize.ShloMosaic.Lib.Pipeline.Value
import Idealize.ShloMosaic.Lib.ValueIdx
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

/-- The block of window w's array at grid point t, the array read as the region finds it. -/
def blk1 (w : Fin cfg1.W) (t : Fin cfg1.N) :=
  ((cfg1.win w).blk t).view.read (Elt F) (V c (Pipeline.arrRef spec1 w))

theorem zeros3 : (![0, 0, 0] : Fin 3 → Nat) = fun _ => 0 := by decide
theorem zeros2 : (![0, 0] : Fin 2 → Nat) = fun _ => 0 := by decide

/-- The body keeps its two inputs x and a and leaves their payload in the output, whatever the three held besides. -/
theorem kernel1_sound {i arg1 harg1 arg2 harg2 arg3 harg3 x a} {P Q : sProp 𝕄} {D E : Type} {X1 X3 : D → _} {X2 : E → _}
    (h1 : ∀ d, X1 d = x) (h2 : ∀ d, X2 d = a) :
    iprop(P ∗ Q ∗ (∃ d, owns c arg1 fullShare (X1 d)) ∗ (∃ d, owns c arg2 fullShare (X2 d)) ∗ (∃ d, owns c arg3 fullShare (X3 d)))
      ⊢ wp frame (wpE (defs₀ (F := F)) Variants.none c none) Set.univ (cc1__gate_residual_kernel i arg1 harg1 arg2 harg2 arg3 harg3)
          fun _ => iprop(P ∗ Q ∗ owns c arg1 fullShare x ∗ owns c arg2 fullShare a ∗ owns c arg3 fullShare (k1_pay1 x a)) := by
  simp only [h1, h2, cc1__gate_residual_kernel_eq_skeleton]; unfold cc1__gate_residual_kernel_skel owns
  iintro ⟨HP, HQ, ⟨%_, %f1, %hf1, H1⟩, ⟨%_, %f2, %hf2, H2⟩, ⟨%_, %f3, -, H3⟩⟩
  subst hf1; subst hf2
  sl_exec
  sl_step
  iframe HP HQ
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (View.cover_of_tiled _ S8x1024x64.size (by rfl)), View.canon_unit_zero zeros3,
    View.readAt_eq_ld, View.readAt_eq_ld, View.ld_unit_zero zeros3, View.ld_unit_zero zeros2]

/-- At point t the output's block is the payload x * a + x of the two inputs' blocks. -/
def dat1 : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => k1_pay1 (blk1 V c 0 t) (blk1 V c 1 t)
  Φ _ := Pipeline.ΦA spec1 c
  q _ := fullShare
  owed _ := 0

theorem dat1_A (w : Fin cfg1.W) : (dat1 V c).A w = V c (Pipeline.arrRef spec1 w) := rfl
theorem dat1_q (w) : (dat1 V c).q w = fullShare := rfl
theorem dat1_owed (t) : (dat1 V c).owed t = 0 := rfl

/-- The body's triple, at every grid point. -/
theorem body1 : BodyObligation (dat1 (F := F) V c) (defs₀ (F := F)) Variants.none () Set.univ := fun t => by
  rw [bigSep_W1, bigSep_W1]
  show _ ⊢ wp _ _ _ (bodyAt1 t) _
  refine kernel1_sound c ?_ ?_ <;>
    exact fun _ => (dat1 V c).before_in_eq_fetched _ rfl (fun _ => rfl) (fun _ _ _ => rfl) (fun _ => rfl) t _

theorem hin1 : Pipeline.ΦA spec1 c ⊢ (dat1 (F := F) V c).Φ 0 := .rfl
theorem hout1 : (dat1 (F := F) V c).Φ (Fin.last cfg1.N) ⊢ Pipeline.ΦA spec1 c := .rfl

theorem idx1 : ∀ t : Fin cfg1.N,
    win1_1.index t (0 : Fin 2) = 0 ∧ win1_1.index t (1 : Fin 2) = 0
    ∧ win1_2.index t (0 : Fin 3) = 0 ∧ win1_2.index t (1 : Fin 3) = t.val ∧ win1_2.index t (2 : Fin 3) = 0 :=
  (by decide +kernel : ∀ t : Fin grid1.N, _)

/-- The output array ends at x * a + x: point t writes back its block of it, and row r lies in the block of point r / 1024. -/
theorem out1_val : (dat1 V c).arrAt 2 cfg1.N = Cert.Stages.gateRes (V c main_arg0) (V c main_v20) := by
  refine (dat1 V c).arrAt_eq_of_cover 2 _ (fun t _ => funext fun j => ?_) fun (i : S8x16384x64.Idx) => ?_
  · obtain ⟨e3, e4, e5, -, e7⟩ := idx1 t
    let k' : S8x1x64.Idx := ValueIdx.ix3 (j 0) 0 (j 2)
    let k : S8x64.Idx := ValueIdx.ix2 (j 0) (j 2)
    refine congrArg₂ (fun u g => FloatOps.addf (FloatOps.mulf u g) u) rfl ?_
    rw [shapeCast_self, broadcastTo_apply _ _ _ k', shapeCast_apply _ _ k' k, broadcastInDim_apply _ _ _ _ k',
      broadcastInDim_apply _ _ _ k' k]
    · exact congrArg (V c main_v20) (funext fun a => Fin.ext (match a with
        | ⟨0, _⟩ => win1_1.rect_emb_val_of_index_zero t 0 e3 k
        | ⟨1, _⟩ => win1_1.rect_emb_val_of_index_zero t 1 e4 k))
    · intro a; fin_cases a <;> rfl
    · exact fun
        | ⟨0, _⟩ => (win1_2.rect_emb_val_of_index_zero t 0 e5 j).symm
        | ⟨1, _⟩ => rfl
        | ⟨2, _⟩ => (win1_2.rect_emb_val_of_index_zero t 2 e7 j).symm
    · rw [Shape.rowMajor_val_two, Shape.rowMajor_val_three]
      exact congrArg (· * 64 + (j 2).val) (Nat.mul_one _).symm
    · intro a; fin_cases a <;> rfl
  · let t : Fin cfg1.N := ⟨(i 1).val / 1024, Nat.div_lt_of_lt_mul (i 1).isLt⟩
    let y : S8x1024x64.Idx := ValueIdx.ix3 (i 0) ⟨(i 1).val % 1024, Nat.mod_lt _ (by decide)⟩ (i 2)
    obtain ⟨-, -, e5, e6, e7⟩ := idx1 t
    have e : ((cfg1.win 2).blk t).view.emb y = i := funext fun a => Fin.ext (match a with
      | ⟨0, _⟩ => win1_2.rect_emb_val_of_index_zero t 0 e5 y
      | ⟨1, _⟩ => (win1_2.rect_emb_val t y 1).trans (e6 ▸ Nat.div_add_mod' (i 1).val 1024)
      | ⟨2, _⟩ => win1_2.rect_emb_val_of_index_zero t 2 e7 y)
    exact ⟨t, flush1_2 t, e ▸ View.emb_mem_set _ y⟩

end Cert.Kernel.Hand

end
-- ==== Proof.K.Reg2.lean ====
import proofs.«422996_j60266981097886_3_alg».proof.Proof.Gen.Kernel.Launch
import proofs.«422996_j60266981097886_3_alg».proof.Proof.Gen.Kernel.Skeleton
import proofs.«422996_j60266981097886_3_alg».proof.Proof.Gen.Kernel.Points
import proofs.«422996_j60266981097886_3_alg».proof.Proof.K.Acc
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 16 = 0 :=
  (by decide +kernel : ∀ t : Fin grid2.N, cond2_0 (grid2.coords t) ↔ t.val % 16 = 0)

abbrev cond2_1 (i : grid2.Coords) : Prop := k2_cond2 i = 1#1
theorem hcond2_1 : ∀ t : Fin cfg2.N, cond2_1 (grid2.coords t) ↔ t.val % 16 = 15 :=
  (by decide +kernel : ∀ t : Fin grid2.N, cond2_1 (grid2.coords t) ↔ t.val % 16 = 15)

theorem off2_5 : ∀ t : Fin cfg2.N, ¬cond2_1 (grid2.coords t) → cfg2.idle 5 (grid2.coords t) = true ∧ (cfg2.win 5).flush t = false := by decide +kernel
theorem liveAt2_5 : ∀ t : Fin cfg2.N, cond2_1 (grid2.coords t) → cfg2.idle 5 (grid2.coords t) = false := by decide +kernel

abbrev step2 (x0 : Vec F S8x64x1024 .f32) (x1 : Vec F S8x64x128 .f32) (x2 : Vec F S1x128x1024 .f32) (x3 x4 : Vec F S1x1024 .f32)
    (acc : Vec F S8x128 .f32) : Vec F S8x128 .f32 :=
  k2_pay1 (k2_pay3 x0 x1 x2) (k2_pay4 x0 x1 x2) (k2_pay5 x0 x1 x2) x3 x4 acc

theorem zero2_r2 : (![0, 0] : Fin 2 → Nat) = fun _ => 0 := funext fun a => by fin_cases a <;> rfl
theorem zero2_r3 : (![0, 0, 0] : Fin 3 → Nat) = fun _ => 0 := funext fun a => by fin_cases a <;> rfl

-- Reading is a bijection on a whole view, so owning it at x fixes its contents.
theorem owns_unread {sp : Space} {S : Shape} {e : EltTy} (c : Dev nD) (m : Memref sig .tc sp S e) (h : m.IsWhole) (x : S.Idx → Elt F e) :
    (owns (c : Thread nD τ) m fullShare x : sProp 𝕄) = (m.view.loc (c : Thread nD τ) ↦[m.view.set]{fullShare} h.unread x) := by
  unfold owns
  refine BI.equiv_iff.mp ⟨(?_ : (_ : sProp 𝕄) ⊢ _), (?_ : (_ : sProp 𝕄) ⊢ _)⟩
  · iintro ⟨%f, %hf, H⟩; obtain rfl := h.eq_unread hf; iexact H
  · iintro H; iexists _; isplitr; · ipureintro; exact h.read_unread _
    iexact H

section Run
variable (c : Dev nD) (i : grid2.Coords) (arg1 : Memref sig .tc .vmem S8x64x1024 .f32) (harg1 : arg1.IsWhole) (arg2 : Memref sig .tc .vmem S8x64x128 .f32) (harg2 : arg2.IsWhole) (arg3 : Memref sig .tc .vmem S1x128x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128 .f32) (harg6 : arg6.IsWhole) (arg7 : Memref sig .tc .vmem S8x128 .f32) (harg7 : arg7.IsWhole)
  (x0 : Vec F S8x64x1024 .f32) (x1 : Vec F S8x64x128 .f32) (x2 : Vec F S1x128x1024 .f32) (x3 x4 : Vec F S1x1024 .f32)

-- The body's specification: the inputs are unchanged; Q6 and Q7 describe the output block and the running maximum afterwards.
def Run2 (xi5 xs0 : Vec F S8x128 .f32) (Q6 Q7 : sProp 𝕄) : Prop :=
  ∀ (E : Set ℕ) (K : PUnit → sProp 𝕄),
    iprop((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ Q6 ∗ Q7) -∗ K ⟨⟩))
      ⊢ wp frame (wpE (defs₀ (F := F)) Variants.none c none) E (cc2__gcn_bn_pool_kernel i arg1 harg1 arg2 harg2 arg3 harg3 arg4 harg4 arg5 harg5 arg6 harg6 arg7 harg7) K

set_option maxHeartbeats 1000000 in
-- At the first point the fill with -∞ is read back by the update: one step from -∞.
theorem run2_A (hc0 : cond2_0 i) (hc1 : ¬cond2_1 i) (xi5 xs0 : Vec F S8x128 .f32) :
    Run2 c i arg1 harg1 arg2 harg2 arg3 harg3 arg4 harg4 arg5 harg5 arg6 harg6 arg7 harg7 x0 x1 x2 x3 x4 xi5 xs0 (owns (c : Thread nD τ) arg6 fullShare xi5) (owns (c : Thread nD τ) arg7 fullShare (step2 x0 x1 x2 x3 x4 (k2_pay2 (F := F)))) := fun E K => by
  simp only [cc2__gcn_bn_pool_kernel_eq_skeleton]; unfold cc2__gcn_bn_pool_kernel_skel
  simp only [k2_part1_eq_skeleton]
  rw [owns_unread c _ harg1, owns_unread c _ harg2, owns_unread c _ harg3, owns_unread c _ harg4, owns_unread c _ harg5, owns_unread c _ harg6, owns_unread c _ harg7 xs0]
  iintro ⟨⟨H0, H1, H2, H3, H4, H5, HS0⟩, Hk⟩
  sl_exec (disch := first | exact hc0 | exact hc1)
  sl_step
  iapply Hk
  ihave HS := (owns_intro _ arg7 fullShare _) $$ HS0
  rw [View.read_writes_eq_canon _ _ _ (View.cover_of_tiledL _ S8x128.size (by sl_kernel_rfl))]
  sl_unfold_words
  rw [View.canon_cons_unit_zero (S := S8x128) zero2_r2]
  simp only [View.readAt_eq_ld, Memref.IsWhole.read_unread, View.readCov_unit_zero (S := S8x128) _ zero2_r2,
    View.ld_unit_zero (S := S1x1024) zero2_r2, View.ld_unit_zero (S := S8x64x1024) zero2_r3,
    View.ld_unit_zero (S := S8x64x128) zero2_r3, View.ld_unit_zero (S := S1x128x1024) zero2_r3]
  sl_close

set_option maxHeartbeats 1000000 in
-- Between the ends: one step from the maximum so far.
theorem run2_B (hc0 : ¬cond2_0 i) (hc1 : ¬cond2_1 i) (xi5 xs0 : Vec F S8x128 .f32) :
    Run2 c i arg1 harg1 arg2 harg2 arg3 harg3 arg4 harg4 arg5 harg5 arg6 harg6 arg7 harg7 x0 x1 x2 x3 x4 xi5 xs0 (owns (c : Thread nD τ) arg6 fullShare xi5) (owns (c : Thread nD τ) arg7 fullShare (step2 x0 x1 x2 x3 x4 xs0)) := fun E K => by
  simp only [cc2__gcn_bn_pool_kernel_eq_skeleton]; unfold cc2__gcn_bn_pool_kernel_skel
  simp only [k2_part1_eq_skeleton]
  rw [owns_unread c _ harg1, owns_unread c _ harg2, owns_unread c _ harg3, owns_unread c _ harg4, owns_unread c _ harg5, owns_unread c _ harg6, owns_unread c _ harg7 xs0]
  iintro ⟨⟨H0, H1, H2, H3, H4, H5, HS0⟩, Hk⟩
  sl_exec (disch := first | exact hc0 | exact hc1)
  sl_step
  iapply Hk
  ihave HS := (owns_intro _ arg7 fullShare _) $$ HS0
  rw [View.read_writes_eq_canon _ _ _ (View.cover_of_tiledL _ S8x128.size (by sl_kernel_rfl))]
  sl_unfold_words
  rw [View.canon_unit_zero zero2_r2]
  simp only [View.readAt_eq_ld, Memref.IsWhole.read_unread,
    View.ld_unit_zero (S := S8x128) zero2_r2, View.ld_unit_zero (S := S1x1024) zero2_r2, View.ld_unit_zero (S := S8x64x1024) zero2_r3,
    View.ld_unit_zero (S := S8x64x128) zero2_r3, View.ld_unit_zero (S := S1x128x1024) zero2_r3]
  sl_close

set_option maxHeartbeats 1000000 in
-- At the last point: the same step, and the result is also the output block.
theorem run2_C (hc0 : ¬cond2_0 i) (hc1 : cond2_1 i) (xi5 xs0 : Vec F S8x128 .f32) :
    Run2 c i arg1 harg1 arg2 harg2 arg3 harg3 arg4 harg4 arg5 harg5 arg6 harg6 arg7 harg7 x0 x1 x2 x3 x4 xi5 xs0 (owns (c : Thread nD τ) arg6 fullShare (step2 x0 x1 x2 x3 x4 xs0)) (owns (c : Thread nD τ) arg7 fullShare (step2 x0 x1 x2 x3 x4 xs0)) := fun E K => by
  simp only [cc2__gcn_bn_pool_kernel_eq_skeleton]; unfold cc2__gcn_bn_pool_kernel_skel
  simp only [k2_part1_eq_skeleton]
  rw [owns_unread c _ harg1, owns_unread c _ harg2, owns_unread c _ harg3, owns_unread c _ harg4, owns_unread c _ harg5, owns_unread c _ harg6 xi5, owns_unread c _ harg7 xs0]
  iintro ⟨⟨H0, H1, H2, H3, H4, H5, HS0⟩, Hk⟩
  sl_exec (disch := first | exact hc0 | exact hc1)
  sl_step
  iapply Hk
  ihave HS := (owns_intro _ arg7 fullShare _) $$ HS0
  ihave HO := (owns_intro _ arg6 fullShare _) $$ H5
  rw [View.read_writes_eq_canon _ _ _ (View.cover_of_tiledL _ S8x128.size (by sl_kernel_rfl)),
    View.read_writes_eq_canon _ _ _ (View.cover_of_tiledL _ S8x128.size (by sl_kernel_rfl))]
  sl_unfold_words
  simp only [View.canon_unit_zero (S := S8x128) zero2_r2, View.readCov_unit_zero (S := S8x128) _ zero2_r2, View.readAt_eq_ld, Memref.IsWhole.read_unread,
    View.ld_unit_zero (S := S8x128) zero2_r2, View.ld_unit_zero (S := S1x1024) zero2_r2, View.ld_unit_zero (S := S8x64x1024) zero2_r3,
    View.ld_unit_zero (S := S8x64x128) zero2_r3, View.ld_unit_zero (S := S1x128x1024) zero2_r3]
  sl_close

end Run

section Region
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev ms2_0 (t : Fin cfg2.N) : Memref sig .tc .vmem S8x64x1024 .f32 := win2_0.stage (cfg2.slots t 0)
abbrev ms2_1 (t : Fin cfg2.N) : Memref sig .tc .vmem S8x64x128 .f32 := win2_1.stage (cfg2.slots t 1)
abbrev ms2_2 (t : Fin cfg2.N) : Memref sig .tc .vmem S1x128x1024 .f32 := win2_2.stage (cfg2.slots t 2)
abbrev ms2_3 (t : Fin cfg2.N) : Memref sig .tc .vmem S1x1024 .f32 := win2_3.stage (cfg2.slots t 3)
abbrev ms2_4 (t : Fin cfg2.N) : Memref sig .tc .vmem S1x1024 .f32 := win2_4.stage (cfg2.slots t 4)
abbrev ms2_5 (t : Fin cfg2.N) : Memref sig .tc .vmem S8x128 .f32 := win2_5.stage (cfg2.slots t 5)

abbrev scM2_0 : Memref sig .tc .vmem S8x128 .f32 := Memref.whole cc2_scratch0

abbrev pt2 (k : Fin 16) : Fin cfg2.N := Fin.cast N_2.symm k

def sAt2 (c : Dev nD) (n : ℕ) (hn : n < 16) : Vec F S8x128 .f32 :=
  acc2Of (fun k => iblk2 V c 0 (pt2 k)) (fun k => iblk2 V c 1 (pt2 k)) (fun k => iblk2 V c 2 (pt2 k))
    (fun k => iblk2 V c 3 (pt2 k)) (fun k => iblk2 V c 4 (pt2 k)) n hn

theorem sAt2_first (c : Dev nD) (t : Fin cfg2.N) (hz : t.val = 0) :
    sAt2 V c t.val (lt_of_lt_of_eq t.isLt N_2) = step2 (iblk2 V c 0 t) (iblk2 V c 1 t) (iblk2 V c 2 t) (iblk2 V c 3 t) (iblk2 V c 4 t) (k2_pay2 (F := F)) := by
  obtain ⟨n, hn⟩ := t
  cases n with
  | zero => rfl
  | succ n => exact absurd hz (Nat.succ_ne_zero n)

theorem sAt2_later (c : Dev nD) (t : Fin cfg2.N) (hz : t.val ≠ 0) :
    sAt2 V c t.val (lt_of_lt_of_eq t.isLt N_2)
      = step2 (iblk2 V c 0 t) (iblk2 V c 1 t) (iblk2 V c 2 t) (iblk2 V c 3 t) (iblk2 V c 4 t) (sAt2 V c (t.val - 1) (lt_of_le_of_lt (Nat.sub_le _ _) (lt_of_lt_of_eq t.isLt N_2))) := by
  obtain ⟨n, hn⟩ := t
  cases n with
  | zero => exact absurd rfl hz
  | succ n => rfl

abbrev Oth2 (c : Dev nD) : sProp 𝕄 := Pipeline.scopedRestBut spec2 c [cc2_scratch0]

-- The region's running maximum, split off from the resources it never touches.
theorem PhiA2_eq (c : Dev nD) :
    (Pipeline.ΦA spec2 c : sProp 𝕄)
      = iprop(((∃ d, owns (c : Thread nD τ) scM2_0 fullShare d) ∗ Oth2 c) ∗ (∃ r, prngReg c r)) := by
  unfold Pipeline.ΦA; rw [Pipeline.scopedRest_split_of_list spec2 c [cc2_scratch0] (by decide) (by decide)]
  simp only [scM2_0, owns_whole] <;> rfl

def PhiS2 (c : Dev nD) : (n : ℕ) → n ≤ cfg2.N → sProp 𝕄
  | 0, _ => Pipeline.ΦA spec2 c
  | n + 1, hn => iprop((owns (c : Thread nD τ) scM2_0 fullShare (sAt2 V c n (lt_of_lt_of_eq (Nat.lt_of_succ_le hn) N_2)) ∗ Oth2 c) ∗ (∃ r, prngReg c r))

theorem PhiS2_zero (c : Dev nD) (n : ℕ) (h : n ≤ cfg2.N) (hz : n = 0) : PhiS2 V c n h = Pipeline.ΦA spec2 c := by
  subst hz; rfl

theorem PhiS2_pos (c : Dev nD) (n : ℕ) (h : n ≤ cfg2.N) (hz : n ≠ 0) :
    PhiS2 V c n h = iprop((owns (c : Thread nD τ) scM2_0 fullShare (sAt2 V c (n - 1) (lt_of_lt_of_eq (lt_of_lt_of_le (Nat.sub_lt (Nat.pos_of_ne_zero hz) Nat.one_pos) h) N_2)) ∗ Oth2 c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => sAt2 V c t.val (lt_of_lt_of_eq t.isLt N_2)
  Φ t := PhiS2 V c t.val (Nat.le_of_lt_succ t.isLt)
  q _ := fullShare
  owed _ := 0

theorem dat2_A (c : Dev nD) (w : Fin cfg2.W) : (dat2 V c).A w = V c (Pipeline.arrRef spec2 w) := by dsimp only [dat2]
theorem dat2_q (c : Dev nD) (w : Fin cfg2.W) : (dat2 V c).q w = fullShare := by dsimp only [dat2]
theorem dat2_owed (c : Dev nD) (t : Fin (cfg2.N + 1)) : (dat2 V c).owed t = 0 := by dsimp only [dat2]

theorem after2_5 (c : Dev nD) (t : Fin cfg2.N) : (dat2 V c).after 5 t = sAt2 V c t.val (lt_of_lt_of_eq t.isLt N_2) := by dsimp only [dat2]

-- The inputs' blocks at point t.
theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl

def bodyPre2 (c : Dev nD) (t : Fin cfg2.N) : sProp 𝕄 :=
  iprop(PhiS2 V c t.val (Nat.le_of_lt t.isLt) ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop(((owns (c : Thread nD τ) scM2_0 fullShare (sAt2 V c t.val (lt_of_lt_of_eq t.isLt N_2)) ∗ Oth2 c) ∗ (∃ r, prngReg c r)) ∗ (dat2 V c).owesAt () t.castSucc
    ∗ owns (c : Thread nD τ) (ms2_0 t) fullShare (iblk2 V c 0 t)
    ∗ owns (c : Thread nD τ) (ms2_1 t) fullShare (iblk2 V c 1 t)
    ∗ owns (c : Thread nD τ) (ms2_2 t) fullShare (iblk2 V c 2 t)
    ∗ owns (c : Thread nD τ) (ms2_3 t) fullShare (iblk2 V c 3 t)
    ∗ owns (c : Thread nD τ) (ms2_4 t) fullShare (iblk2 V c 4 t)
    ∗ (dat2 V c).leavesExact 5 t)

set_option maxHeartbeats 4800000 in
-- By cases on the point (first, last, between): the invariant's running maximum advances by one step.
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  have hN : t.val < 16 := lt_of_lt_of_eq t.isLt N_2
  by_cases h0 : cond2_0 (grid2.coords t)
  · have hz : t.val = 0 := by have := (hcond2_0 t).mp h0; omega
    have h1 : ¬cond2_1 (grid2.coords t) := fun h => by have := (hcond2_1 t).mp h; omega
    rw [Dat.leavesExact_idle (dat2 V c) 5 t (off2_5 t h1).1 (off2_5 t h1).2]
    rw [PhiS2_zero V c _ _ hz, PhiA2_eq, sAt2_first V c t hz]
    iintro ⟨⟨⟨⟨%ds, HS0⟩, HO⟩, ⟨%r, Hg⟩⟩, ⟨%Wo, %hWo, Ho⟩, ⟨%d0, H0⟩, ⟨%d1, H1⟩, ⟨%d2, H2⟩, ⟨%d3, H3⟩, ⟨%d4, H4⟩, ⟨%d5, H5⟩⟩
    iapply (run2_A c _ _ _ _ _ _ _ _ _ _ _ _ _ _ _ _ _ _ _ _ h0 h1 _ _ Set.univ _)
    isplitl [H0 H1 H2 H3 H4 H5 HS0]; · sl_close
    iintro ⟨H0, H1, H2, H3, H4, H5, HS⟩
    sl_close
  · have hz : t.val ≠ 0 := fun h => h0 ((hcond2_0 t).mpr (by rw [h]))
    rw [PhiS2_pos V c _ _ hz, sAt2_later V c t hz]
    by_cases h1 : cond2_1 (grid2.coords t)
    · rw [show (dat2 V c).leavesExact 5 t = owns (c : Thread nD τ) (ms2_5 t) fullShare ((dat2 V c).after 5 t) from by
        unfold Dat.leavesExact; rw [liveAt2_5 t h1], after2_5, sAt2_later V c t hz]
      iintro ⟨⟨⟨HS0, HO⟩, ⟨%r, Hg⟩⟩, ⟨%Wo, %hWo, Ho⟩, ⟨%d0, H0⟩, ⟨%d1, H1⟩, ⟨%d2, H2⟩, ⟨%d3, H3⟩, ⟨%d4, H4⟩, ⟨%d5, H5⟩⟩
      iapply (run2_C c _ _ _ _ _ _ _ _ _ _ _ _ _ _ _ _ _ _ _ _ h0 h1 _ _ Set.univ _)
      isplitl [H0 H1 H2 H3 H4 H5 HS0]; · sl_close
      iintro ⟨H0, H1, H2, H3, H4, H5, HS⟩
      sl_close
    · rw [Dat.leavesExact_idle (dat2 V c) 5 t (off2_5 t h1).1 (off2_5 t h1).2]
      iintro ⟨⟨⟨HS0, HO⟩, ⟨%r, Hg⟩⟩, ⟨%Wo, %hWo, Ho⟩, ⟨%d0, H0⟩, ⟨%d1, H1⟩, ⟨%d2, H2⟩, ⟨%d3, H3⟩, ⟨%d4, H4⟩, ⟨%d5, H5⟩⟩
      iapply (run2_B c _ _ _ _ _ _ _ _ _ _ _ _ _ _ _ _ _ _ _ _ h0 h1 _ _ Set.univ _)
      isplitl [H0 H1 H2 H3 H4 H5 HS0]; · sl_close
      iintro ⟨H0, H1, H2, H3, H4, H5, HS⟩
      sl_close

theorem body2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := Entails.refl _

theorem hout2 (c : Dev nD) : (dat2 V c).Φ (Fin.last cfg2.N) ⊢ Pipeline.ΦA spec2 c := by
  have hN : cfg2.N = 16 := N_2
  rw [show (dat2 V c).Φ (Fin.last cfg2.N) = PhiS2 V c (Fin.last cfg2.N).val (Nat.le_of_lt_succ (Fin.last cfg2.N).isLt) from rfl,
    PhiS2_pos V c _ _ (by rw [Fin.val_last]; omega), PhiA2_eq]
  iintro ⟨⟨HS0, HO⟩, ⟨%r, Hg⟩⟩
  sl_close

end Region

end Cert.Kernel.Hand

end
-- ==== Proof.K.Run.lean ====
import proofs.«422996_j60266981097886_3_alg».proof.Proof.Gen.Kernel.Regions
import proofs.«422996_j60266981097886_3_alg».proof.Proof.K.Reg0
import proofs.«422996_j60266981097886_3_alg».proof.Proof.K.Reg1
import proofs.«422996_j60266981097886_3_alg».proof.Proof.K.Reg2
import Idealize.ShloMosaic.Lib.Pipeline.RegionsLoop

set_option maxRecDepth 4096

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

abbrev 𝒱₀ : Variants := Variants.none

abbrev L : GSem nD τ sig → Finset Unit := fun _ => ∅
abbrev lv : GSem nD τ sig → Unit → ℕ := fun _ _ => 0

abbrev R (c : Dev nD) : sProp 𝕄 :=
  iprop((∃ r, prngReg c r) ∗ ∃ W, owes (c : Thread nD τ) (0 : CellTallies nD τ sig Unit) W)

abbrev rd (W : Dev nD → Valuation τ sig (Elt F)) :
    (c : Dev nD) → (b : Ref sig .tc) → Buf (Elt F) ((c : Thread nD τ).loc b) := fun c b => W c b

section Region

variable (pdats : (p : Fin 3) → (c : Dev nD) → Dat τ (Elt F) Unit ℕ (UR sig nD τ) ℕ (cfgs p) c)

theorem owes_in (p : Fin 3) (c : Dev nD) (t : Fin ((cfgs p).N + 1))
    (howed : (pdats p c).owed t = 0) (hrec : (pdats p c).recorded t = Set.univ) :
    (iprop(∃ W, owes (c : Thread nD τ) (0 : CellTallies nD τ sig Unit) W) : sProp 𝕄) ⊢ (pdats p c).owesAt () t := by
  unfold Pipeline.Dat.owesAt Pipeline.owesWithin Pipeline.Dat.bound
  rw [howed, hrec]
  iintro ⟨%W, HO⟩
  iexists W
  isplitr
  · ipureintro; exact fun _ _ => Or.inl trivial
  iexact HO

theorem owes_out (p : Fin 3) (c : Dev nD) (t : Fin ((cfgs p).N + 1)) (howed : (pdats p c).owed t = 0) :
    (pdats p c).owesAt () t ⊢ (iprop(∃ W, owes (c : Thread nD τ) (0 : CellTallies nD τ sig Unit) W) : sProp 𝕄) := by
  unfold Pipeline.Dat.owesAt Pipeline.owesWithin
  rw [howed]
  iintro ⟨%W, -, HO⟩
  iexists W
  iexact HO

set_option backward.isDefEq.respectTransparency.types false in
def region (p : Fin 3) (lf : Pipeline.LaunchFacts (nD := nD) (τ := τ) cfgs p)
    (W W' : Dev nD → Valuation τ sig (Elt F))
    (hA : ∀ c w, (pdats p c).A w = rd W c (Pipeline.arrRef (cfgs p).spec w))
    (hq : ∀ c w, (pdats p c).q w = fullShare)
    (howed : ∀ c t, (pdats p c).owed t = 0)
    (hrec : ∀ c t, (pdats p c).recorded t = Set.univ)
    (hbody : ∀ c, BodyObligation (pdats p c) (defs₀ (F := F)) Variants.none () Set.univ)
    (hin : ∀ c, Pipeline.ΦA (τ := τ) (cfgs p).spec c ⊢ (pdats p c).Φ 0)
    (hout : ∀ c, (pdats p c).Φ (Fin.last (cfgs p).N) ⊢ Pipeline.ΦA (τ := τ) (cfgs p).spec c)
    (hF : ∀ c w, (pdats p c).arrAt w (cfgs p).N = rd W' c (Pipeline.arrRef (cfgs p).spec w))
    (hrest : ∀ c (b : Ref sig .tc), b ∉ Finset.univ.image (Pipeline.arrRef (cfgs p).spec) → rd W' c b = rd W c b) :
    Pipeline.RegionSeg (pcfgs (F := F)) Gen.adm pdats () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c (rd W c)
  hentry c := by
    have hsplit := Pipeline.arrays_of_unscopedBufs (p := p) (pcfgs (F := F)) Gen.adm pdats lf.win lf.arr_whole c
      ((pdats p c).share_full (hq c)) (rd W c) (hA c)
    rw [Pipeline.unscopedBufs_held c (W c)] at hsplit
    iintro ⟨⟨Hbuf, Hreg, Howe⟩, -, -⟩
    ihave Hsp := hsplit $$ Hbuf
    icases Hsp with ⟨Harr, Hrest⟩
    ihave Ho := owes_in pdats p c 0 (howed c 0) (hrec c 0) $$ Howe
    imodintro
    isplitl [Harr]; · iexact Harr
    isplitr
    · unfold Pipeline.prefHeld
      rw [show (Finset.univ : Finset (Fin (pcfgs (F := F) p).pre.K)) = ∅ from rfl, BI.bigSep_empty]
      iempintro
    isplitl [Ho]; · iexact Ho
    isplitl [Hreg]; · iexact Hreg
    iexact Hrest
  hin c := by
    refine BIBase.Entails.trans ?_ (hin c)
    unfold Pipeline.ΦA
    iintro ⟨Hreg, -, Hsc⟩
    isplitl [Hsc]; · iexact Hsc
    iexact Hreg
  hout c := by
    refine (hout c).trans ?_
    unfold Pipeline.ΦA
    rw [Pipeline.ownSems0_none]
    iintro ⟨Hsc, Hreg⟩
    isplitl [Hreg]; · iexact Hreg
    isplitr; · iempintro
    iexact Hsc
  hexit c := by
    have hjoin := Pipeline.unscopedBufs_of_arrays (p := p) (pcfgs (F := F)) Gen.adm (Ix := Unit) (Name := ℕ) (U := UR sig nD τ) (Lvl := ℕ)
      lf.win lf.arr_whole c pdats ((pdats p c).share_full (hq c))
      (rd W c) (rd W' c) ((pdats p c).arrAt · (cfgs p).N) (hF c) (hrest c)
    rw [Pipeline.unscopedBufs_held c (W' c)] at hjoin
    iintro ⟨Harr, Howe, Hreg, Hrest⟩
    ihave Hbuf := hjoin $$ [Harr Hrest]
    · isplitl [Harr]; · iexact Harr
      iexact Hrest
    ihave Ho := owes_out pdats p c (Fin.last _) (howed c _) $$ Howe
    imodintro
    isplitl [Hbuf]; · iexact Hbuf
    isplitl [Hreg]; · iexact Hreg
    iexact Ho

end Region

section Run

variable (m : (ℓ : Loc nD τ sig) → Buf (Elt F) ℓ) (ρ : Dev nD → PrngReg)

abbrev OutAt (r : Ref sig .tc) : Type := (c : Dev nD) → Buf (Elt F) ((c : Thread nD τ).loc r)

def out0 : OutAt (F := F) main_v0 := fun c => (dat0 (rd (Gen.V0 m)) c).arrAt 1 cfg0.N

def outsA : Gen.Outs (F := F) := fun _ =>
  Function.update (β := OutAt (F := F)) (fun r c => m ((c : Thread nD τ).loc r)) main_v0 (out0 m)

def out1 : OutAt (F := F) main_v21 := fun c => (dat1 (rd (Gen.V6 m (outsA m))) c).arrAt 2 cfg1.N

def outsB : Gen.Outs (F := F) := fun J =>
  Function.update (β := OutAt (F := F)) (outsA m J) main_v21 (out1 m)

def out2 : OutAt (F := F) main_v43 := fun c => (dat2 (rd (Gen.V8 m (outsB m))) c).arrAt 5 cfg2.N

def outs : Gen.Outs (F := F) := fun J =>
  Function.update (β := OutAt (F := F)) (outsB m J) main_v43 (out2 m)

theorem outs_v0 (J : ℕ) : outs m J main_v0 = out0 m := by
  unfold outs outsB outsA
  rw [Function.update_of_ne (by decide), Function.update_of_ne (by decide), Function.update_self]
theorem outs_v21 (J : ℕ) : outs m J main_v21 = out1 m := by
  unfold outs outsB
  rw [Function.update_of_ne (by decide), Function.update_self]
theorem outs_v43 (J : ℕ) : outs m J main_v43 = out2 m := by
  unfold outs
  rw [Function.update_self]
theorem outsB_v0 (J : ℕ) : outsB m J main_v0 = out0 m := by
  unfold outsB outsA
  rw [Function.update_of_ne (by decide), Function.update_self]
theorem outsB_v21 (J : ℕ) : outsB m J main_v21 = out1 m := by
  unfold outsB
  rw [Function.update_self]
theorem outsA_v0 (J : ℕ) : outsA m J main_v0 = out0 m := by
  unfold outsA
  rw [Function.update_self]

theorem V6_congr (o o' : Gen.Outs (F := F)) (h : o 1 main_v0 = o' 1 main_v0) : Gen.V6 m o = Gen.V6 m o' := by
  funext c
  unfold Gen.V6 Gen.V5 Gen.V4 Gen.V3 Gen.V2 Gen.V1
  rw [h]

theorem V8_congr (o o' : Gen.Outs (F := F)) (h : o 1 main_v0 = o' 1 main_v0) (h' : o 7 main_v21 = o' 7 main_v21) :
    Gen.V8 m o = Gen.V8 m o' := by
  funext c
  unfold Gen.V8 Gen.V7
  rw [V6_congr m o o' h, h']

theorem outs_1 (c : Dev nD) : outs m 1 main_v0 c = (dat0 (rd (Gen.V0 m)) c).arrAt 1 cfg0.N := by
  rw [outs_v0]; rfl

theorem outs_7 (c : Dev nD) :
    outs m 7 main_v21 c = (dat1 (rd (Gen.V6 m (outs m))) c).arrAt 2 cfg1.N := by
  rw [outs_v21, V6_congr m (outs m) (outsA m) ((outs_v0 m 1).trans (outsA_v0 m 1).symm)]
  rfl

theorem outs_9 (c : Dev nD) :
    outs m 9 main_v43 c = (dat2 (rd (Gen.V8 m (outs m))) c).arrAt 5 cfg2.N := by
  rw [outs_v43, V8_congr m (outs m) (outsB m)
    ((outs_v0 m 1).trans (outsB_v0 m 1).symm)
    ((outs_v21 m 7).trans (outsB_v21 m 7).symm)]
  rfl

theorem V1_at (o : Gen.Outs (F := F)) (c : Dev nD) : Gen.V1 m o c main_v0 = o 1 main_v0 c := by
  unfold Gen.V1; rw [Function.update_self]
theorem V7_at (o : Gen.Outs (F := F)) (c : Dev nD) : Gen.V7 m o c main_v21 = o 7 main_v21 c := by
  unfold Gen.V7; rw [Function.update_self]
theorem V9_at (o : Gen.Outs (F := F)) (c : Dev nD) : Gen.V9 m o c main_v43 = o 9 main_v43 c := by
  unfold Gen.V9; rw [Function.update_self]

theorem exit0 (c : Dev nD) (w : Fin 2) : (dat0 (rd (Gen.V0 m)) c).arrAt w cfg0.N
    = rd (Gen.V1 m (outs m)) c (Pipeline.arrRef spec0 w) := by
  by_cases h : w = 1
  · subst h
    exact (outs_1 m c).symm.trans (V1_at m _ c).symm
  · have hin : (cfg0.win w).isOut = false := by revert w; decide
    have hne : Pipeline.arrRef spec0 w ∉ ([main_v0] : List (Ref sig .tc)) := by revert w; decide
    exact ((dat0 _ c).arrAt_in w hin _).trans ((dat0_A _ c w).trans (Gen.V1_of m _ c _ hne).symm)
theorem rest0 (c : Dev nD) (b : Ref sig .tc) (hb : b ∉ Finset.univ.image (Pipeline.arrRef spec0)) :
    rd (Gen.V1 m (outs m)) c b = rd (Gen.V0 m) c b :=
  Gen.V1_of m _ c b fun hmem => hb (by
    rw [List.mem_singleton.mp hmem]; exact Finset.mem_image.mpr ⟨1, Finset.mem_univ _, rfl⟩)

theorem exit1 (c : Dev nD) (w : Fin 3) : (dat1 (rd (Gen.V6 m (outs m))) c).arrAt w cfg1.N
    = rd (Gen.V7 m (outs m)) c (Pipeline.arrRef spec1 w) := by
  by_cases h : w = 2
  · subst h
    exact (outs_7 m c).symm.trans (V7_at m _ c).symm
  · have hin : (cfg1.win w).isOut = false := by revert w; decide
    have hne : Pipeline.arrRef spec1 w ∉ ([main_v21] : List (Ref sig .tc)) := by revert w; decide
    exact ((dat1 _ c).arrAt_in w hin _).trans ((dat1_A _ c w).trans (Gen.V7_of m _ c _ hne).symm)
theorem rest1 (c : Dev nD) (b : Ref sig .tc) (hb : b ∉ Finset.univ.image (Pipeline.arrRef spec1)) :
    rd (Gen.V7 m (outs m)) c b = rd (Gen.V6 m (outs m)) c b :=
  Gen.V7_of m _ c b fun hmem => hb (by
    rw [List.mem_singleton.mp hmem]; exact Finset.mem_image.mpr ⟨2, Finset.mem_univ _, rfl⟩)

theorem exit2 (c : Dev nD) (w : Fin 6) : (dat2 (rd (Gen.V8 m (outs m))) c).arrAt w cfg2.N
    = rd (Gen.V9 m (outs m)) c (Pipeline.arrRef spec2 w) := by
  by_cases h : w = 5
  · subst h
    exact (outs_9 m c).symm.trans (V9_at m _ c).symm
  · have hin : (cfg2.win w).isOut = false := by revert w; decide
    have hne : Pipeline.arrRef spec2 w ∉ ([main_v43] : List (Ref sig .tc)) := by revert w; decide
    exact ((dat2 _ c).arrAt_in w hin _).trans ((dat2_A _ c w).trans (Gen.V9_of m _ c _ hne).symm)
theorem rest2 (c : Dev nD) (b : Ref sig .tc) (hb : b ∉ Finset.univ.image (Pipeline.arrRef spec2)) :
    rd (Gen.V9 m (outs m)) c b = rd (Gen.V8 m (outs m)) c b :=
  Gen.V9_of m _ c b fun hmem => hb (by
    rw [List.mem_singleton.mp hmem]; exact Finset.mem_image.mpr ⟨5, Finset.mem_univ _, rfl⟩)

def pdats : (p : Fin 3) → (c : Dev nD) → Dat τ (Elt F) Unit ℕ (UR sig nD τ) ℕ (cfgs p) c
  | ⟨0, _⟩ => dat0 (rd (Gen.V0 m))
  | ⟨1, _⟩ => dat1 (rd (Gen.V6 m (outs m)))
  | ⟨2, _⟩ => dat2 (rd (Gen.V8 m (outs m)))

def reg0 : Pipeline.RegionSeg (pcfgs (F := F)) Gen.adm (pdats m) () defs₀ 𝒱₀ L lv 0 :=
  region (pdats m) 0 Gen.launch0 (Gen.V0 m) (Gen.V1 m (outs m))
    (fun c w => dat0_A _ c w) (fun c w => dat0_q _ c w) (fun c t => dat0_owed _ c t) (fun _ _ => rfl)
    (fun c => body0 _ c) (fun c => hin0 _ c) (fun c => hout0 _ c)
    (exit0 m) (rest0 m)
def reg1 : Pipeline.RegionSeg (pcfgs (F := F)) Gen.adm (pdats m) () defs₀ 𝒱₀ L lv 1 :=
  region (pdats m) 1 Gen.launch1 (Gen.V6 m (outs m)) (Gen.V7 m (outs m))
    (fun c w => dat1_A _ c w) (fun c w => dat1_q _ c w) (fun c t => dat1_owed _ c t) (fun _ _ => rfl)
    (fun c => body1 _ c) (fun c => hin1 _ c) (fun c => hout1 _ c)
    (exit1 m) (rest1 m)
def reg2 : Pipeline.RegionSeg (pcfgs (F := F)) Gen.adm (pdats m) () defs₀ 𝒱₀ L lv 2 :=
  region (pdats m) 2 Gen.launch2 (Gen.V8 m (outs m)) (Gen.V9 m (outs m))
    (fun c w => dat2_A _ c w) (fun c w => dat2_q _ c w) (fun c t => dat2_owed _ c t) (fun _ _ => rfl)
    (fun c => body2 _ c) (fun c => hin2 _ c) (fun c => hout2 _ c)
    (exit2 m) (rest2 m)

abbrev u₀ : UR sig nD τ := initOf (Pipeline.cells cfgs Gen.cellOf_inj) (Pipeline.launchToks cfgs Gen.cellOf_inj)

theorem fund : (ownU (u₀) : sProp 𝕄)
    ⊢ |={Set.univ}=> iprop(BI.own ((emb₁ : Emb (UR sig nD τ) 𝕄) u₀) ∗ bigSep Finset.univ fun _ : Dev nD => (BI.emp : sProp 𝕄)) := by
  rw [ownU_emb₁, BI.bigSep_emp_const]
  iintro Hu
  imodintro
  isplitl [Hu]; · iexact Hu
  iempintro

theorem launchR : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  refine Pipeline.initEach L lv fun c => ?_
  iintro ⟨⟨-, Howe, -, Hreg, -⟩, -⟩
  imodintro
  isplitl [Hreg]
  · iexists _; iexact Hreg
  iexists ∅
  iexact Howe

theorem endR (c : Dev nD) : R (F := F) c ⊢ (iprop(∃ W, owes (c : Thread nD τ) (0 : CellTallies nD τ sig Unit) W) : sProp 𝕄) := by
  iintro ⟨-, Howe⟩
  iexact Howe

end Run

end Cert.Kernel.Hand

end
-- ==== Proof.RefRun.lean ====
/- The program's 223 host operations as one list in program order — the 148 statements of @main, each of its 8 calls replaced by
   the called function's operations over that call's buffers (the variance function's own call of the selection function likewise) —,
   that @main is this list run in order, and what the run leaves: every weakly fair execution terminates with the result buffer holding
   the stage functions of Stages.lean composed over the arguments' launch contents, and every argument unchanged. -/
import proofs.«422996_j60266981097886_3_alg».proof.ReferenceIdeal
import proofs.«422996_j60266981097886_3_alg».proof.Proof.Gen.ReferenceIdeal
import proofs.«422996_j60266981097886_3_alg».proof.Proof.Stages
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The program's 223 operations, in order; a called function's operations stand in its call's place, over the call's buffers. -/
abbrev ops : List (HloOp τ sig (Elt F)) :=
  [ nullary main_cst (constant S_ .f32 0xFF800000#32),
    binary main_arg0 main_cst main_v0 ((fun x v => Host.reduce FloatOps.maximumf x v reducesTo_S8x16384x64_S8x64_d1 h_S_) : (⟨S8x16384x64, .f32⟩ : BufTy).Contents (Elt F) → (⟨S_, .f32⟩ : BufTy).Contents (Elt F) → (⟨S8x64, .f32⟩ : BufTy).Contents (Elt F)),
    binary main_v0 main_arg4 main_v1 ((fun l r => Host.dotGeneral dot_S8x64_S64x32_S8x32_1_0_0_1_n_n none l r) : (⟨S8x64, .f32⟩ : BufTy).Contents (Elt F) → (⟨S64x32, .f32⟩ : BufTy).Contents (Elt F) → (⟨S8x32, .f32⟩ : BufTy).Contents (Elt F)),
    unary main_arg5 main_v2 (broadcastInDim S1x32 ![1] bcast_S32_S1x32_1 : (⟨S32, .f32⟩ : BufTy).Contents (Elt F) → (⟨S1x32, .f32⟩ : BufTy).Contents (Elt F)),
    unary main_v2 main_v3 (broadcastInDim S8x32 ![0, 1] bcast_S1x32_S8x32_0_1 : (⟨S1x32, .f32⟩ : BufTy).Contents (Elt F) → (⟨S8x32, .f32⟩ : BufTy).Contents (Elt F)),
    binary main_v1 main_v3 main_v4 (addf : (⟨S8x32, .f32⟩ : BufTy).Contents (Elt F) → (⟨S8x32, .f32⟩ : BufTy).Contents (Elt F) → (⟨S8x32, .f32⟩ : BufTy).Contents (Elt F)),
    TRef.nullary main_call0.cst (constant S_ .f32 0x00000000#32),
    TRef.unary main_call0.cst main_call0.v0 (broadcastInDim S8x32 ![] bcast_S_S8x32),
    TRef.binary (.of main_v4 : TRef sig ⟨S8x32, .f32⟩) main_call0.v0 main_call0.v1 maximumf,
    binary main_v5 main_arg6 main_v6 ((fun l r => Host.dotGeneral dot_S8x32_S32x32_S8x32_1_0_0_1_n_n none l r) : (⟨S8x32, .f32⟩ : BufTy).Contents (Elt F) → (⟨S32x32, .f32⟩ : BufTy).Contents (Elt F) → (⟨S8x32, .f32⟩ : BufTy).Contents (Elt F)),
    unary main_arg7 main_v7 (broadcastInDim S1x32 ![1] bcast_S32_S1x32_1 : (⟨S32, .f32⟩ : BufTy).Contents (Elt F) → (⟨S1x32, .f32⟩ : BufTy).Contents (Elt F)),
    unary main_v7 main_v8 (broadcastInDim S8x32 ![0, 1] bcast_S1x32_S8x32_0_1 : (⟨S1x32, .f32⟩ : BufTy).Contents (Elt F) → (⟨S8x32, .f32⟩ : BufTy).Contents (Elt F)),
    binary main_v6 main_v8 main_v9 (addf : (⟨S8x32, .f32⟩ : BufTy).Contents (Elt F) → (⟨S8x32, .f32⟩ : BufTy).Contents (Elt F) → (⟨S8x32, .f32⟩ : BufTy).Contents (Elt F)),
    TRef.nullary main_call1.cst (constant S_ .f32 0x00000000#32),
    TRef.unary main_call1.cst main_call1.v0 (broadcastInDim S8x32 ![] bcast_S_S8x32),
    TRef.binary (.of main_v9 : TRef sig ⟨S8x32, .f32⟩) main_call1.v0 main_call1.v1 maximumf,
    binary main_v10 main_arg8 main_v11 ((fun l r => Host.dotGeneral dot_S8x32_S32x64_S8x64_1_0_0_1_n_n none l r) : (⟨S8x32, .f32⟩ : BufTy).Contents (Elt F) → (⟨S32x64, .f32⟩ : BufTy).Contents (Elt F) → (⟨S8x64, .f32⟩ : BufTy).Contents (Elt F)),
    unary main_arg9 main_v12 (broadcastInDim S1x64 ![1] bcast_S64_S1x64_1 : (⟨S64, .f32⟩ : BufTy).Contents (Elt F) → (⟨S1x64, .f32⟩ : BufTy).Contents (Elt F)),
    unary main_v12 main_v13 (broadcastInDim S8x64 ![0, 1] bcast_S1x64_S8x64_0_1 : (⟨S1x64, .f32⟩ : BufTy).Contents (Elt F) → (⟨S8x64, .f32⟩ : BufTy).Contents (Elt F)),
    binary main_v11 main_v13 main_v14 (addf : (⟨S8x64, .f32⟩ : BufTy).Contents (Elt F) → (⟨S8x64, .f32⟩ : BufTy).Contents (Elt F) → (⟨S8x64, .f32⟩ : BufTy).Contents (Elt F)),
    unary main_v14 main_v15 (Host.negf : (⟨S8x64, .f32⟩ : BufTy).Contents (Elt F) → (⟨S8x64, .f32⟩ : BufTy).Contents (Elt F)),
    unary main_v15 main_v16 (Host.exp : (⟨S8x64, .f32⟩ : BufTy).Contents (Elt F) → (⟨S8x64, .f32⟩ : BufTy).Contents (Elt F)),
    nullary main_cst_0 (constant S_ .f32 0x3F800000#32),
    unary main_cst_0 main_v17 (broadcastInDim S8x64 ![] bcast_S_S8x64 : (⟨S_, .f32⟩ : BufTy).Contents (Elt F) → (⟨S8x64, .f32⟩ : BufTy).Contents (Elt F)),
    binary main_v17 main_v16 main_v18 (addf : (⟨S8x64, .f32⟩ : BufTy).Contents (Elt F) → (⟨S8x64, .f32⟩ : BufTy).Contents (Elt F) → (⟨S8x64, .f32⟩ : BufTy).Contents (Elt F)),
    nullary main_cst_1 (constant S_ .f32 0x3F800000#32),
    unary main_cst_1 main_v19 (broadcastInDim S8x64 ![] bcast_S_S8x64 : (⟨S_, .f32⟩ : BufTy).Contents (Elt F) → (⟨S8x64, .f32⟩ : BufTy).Contents (Elt F)),
    binary main_v19 main_v18 main_v20 (Host.divf : (⟨S8x64, .f32⟩ : BufTy).Contents (Elt F) → (⟨S8x64, .f32⟩ : BufTy).Contents (Elt F) → (⟨S8x64, .f32⟩ : BufTy).Contents (Elt F)),
    unary main_v20 main_v21 (broadcastInDim S8x1x64 ![0, 2] bcast_S8x64_S8x1x64_0_2 : (⟨S8x64, .f32⟩ : BufTy).Contents (Elt F) → (⟨S8x1x64, .f32⟩ : BufTy).Contents (Elt F)),
    unary main_v21 main_v22 (broadcastInDim S8x16384x64 ![0, 1, 2] bcast_S8x1x64_S8x16384x64_0_1_2 : (⟨S8x1x64, .f32⟩ : BufTy).Contents (Elt F) → (⟨S8x16384x64, .f32⟩ : BufTy).Contents (Elt F)),
    binary main_arg0 main_v22 main_v23 (mulf : (⟨S8x16384x64, .f32⟩ : BufTy).Contents (Elt F) → (⟨S8x16384x64, .f32⟩ : BufTy).Contents (Elt F) → (⟨S8x16384x64, .f32⟩ : BufTy).Contents (Elt F)),
    binary main_v23 main_arg0 main_v24 (addf : (⟨S8x16384x64, .f32⟩ : BufTy).Contents (Elt F) → (⟨S8x16384x64, .f32⟩ : BufTy).Contents (Elt F) → (⟨S8x16384x64, .f32⟩ : BufTy).Contents (Elt F)),
    unary main_v24 main_v25 ((transpose S16384x8x64 [1, 0, 2] · transposes_S8x16384x64_S16384x8x64_1_0_2) : (⟨S8x16384x64, .f32⟩ : BufTy).Contents (Elt F) → (⟨S16384x8x64, .f32⟩ : BufTy).Contents (Elt F)),
    nullary main_c (constantI S_ 32 0#32),
    unary main_c main_v26 (broadcastInDim S262144 ![] bcast_S_S262144 : (⟨S_, .i32⟩ : BufTy).Contents (Elt F) → (⟨S262144, .i32⟩ : BufTy).Contents (Elt F)),
    binary main_arg1 main_v26 main_v27 (cmpi .slt : (⟨S262144, .i32⟩ : BufTy).Contents (Elt F) → (⟨S262144, .i32⟩ : BufTy).Contents (Elt F) → (⟨S262144, .i1⟩ : BufTy).Contents (Elt F)),
    nullary main_c_2 (constantI S_ 32 16384#32),
    unary main_c_2 main_v28 (broadcastInDim S262144 ![] bcast_S_S262144 : (⟨S_, .i32⟩ : BufTy).Contents (Elt F) → (⟨S262144, .i32⟩ : BufTy).Contents (Elt F)),
    binary main_arg1 main_v28 main_v29 (addi : (⟨S262144, .i32⟩ : BufTy).Contents (Elt F) → (⟨S262144, .i32⟩ : BufTy).Contents (Elt F) → (⟨S262144, .i32⟩ : BufTy).Contents (Elt F)),
    ternary main_v27 main_v29 main_arg1 main_v30 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v30 main_v31 (broadcastInDim S262144x1 ![0] bcast_S262144_S262144x1_0 : (⟨S262144, .i32⟩ : BufTy).Contents (Elt F) → (⟨S262144x1, .i32⟩ : BufTy).Contents (Elt F)),
    binary main_v25 main_v31 main_v32 ((fun x i => Host.gather gather_S16384x8x64_S262144x1_S262144x8x64_12_0_n_n_0_1_1864 x i) : (⟨S16384x8x64, .f32⟩ : BufTy).Contents (Elt F) → (⟨S262144x1, .i32⟩ : BufTy).Contents (Elt F) → (⟨S262144x8x64, .f32⟩ : BufTy).Contents (Elt F)),
    unary main_arg3 main_v33 (broadcastInDim S262144x1x1 ![0] bcast_S262144_S262144x1x1_0 : (⟨S262144, .f32⟩ : BufTy).Contents (Elt F) → (⟨S262144x1x1, .f32⟩ : BufTy).Contents (Elt F)),
    unary main_v33 main_v34 (broadcastInDim S262144x8x64 ![0, 1, 2] bcast_S262144x1x1_S262144x8x64_0_1_2 : (⟨S262144x1x1, .f32⟩ : BufTy).Contents (Elt F) → (⟨S262144x8x64, .f32⟩ : BufTy).Contents (Elt F)),
    binary main_v32 main_v34 main_v35 (mulf : (⟨S262144x8x64, .f32⟩ : BufTy).Contents (Elt F) → (⟨S262144x8x64, .f32⟩ : BufTy).Contents (Elt F) → (⟨S262144x8x64, .f32⟩ : BufTy).Contents (Elt F)),
    nullary main_cst_3 (constant S_ .f32 0x00000000#32),
    unary main_cst_3 main_v36 (broadcastInDim S16384x8x64 ![] bcast_S_S16384x8x64 : (⟨S_, .f32⟩ : BufTy).Contents (Elt F) → (⟨S16384x8x64, .f32⟩ : BufTy).Contents (Elt F)),
    unary main_arg2 main_v37 (broadcastInDim S262144x1 ![0] bcast_S262144_S262144x1_0 : (⟨S262144, .i32⟩ : BufTy).Contents (Elt F) → (⟨S262144x1, .i32⟩ : BufTy).Contents (Elt F)),
    ternary main_v36 main_v37 main_v35 main_v38 ((fun x i u => Host.scatterAdd scatter_S16384x8x64_S262144x1_S262144x8x64_12_0_0_1 x i u) : (⟨S16384x8x64, .f32⟩ : BufTy).Contents (Elt F) → (⟨S262144x1, .i32⟩ : BufTy).Contents (Elt F) → (⟨S262144x8x64, .f32⟩ : BufTy).Contents (Elt F) → (⟨S16384x8x64, .f32⟩ : BufTy).Contents (Elt F)),
    binary main_arg10 main_v38 main_v39 ((fun l r => Host.dotGeneral dot_S64x128_S16384x8x64_S128x16384x8_0_2_1_01_n_n none l r) : (⟨S64x128, .f32⟩ : BufTy).Contents (Elt F) → (⟨S16384x8x64, .f32⟩ : BufTy).Contents (Elt F) → (⟨S128x16384x8, .f32⟩ : BufTy).Contents (Elt F)),
    unary main_v39 main_v40 ((transpose S8x16384x128 [2, 1, 0] · transposes_S128x16384x8_S8x16384x128_2_1_0) : (⟨S128x16384x8, .f32⟩ : BufTy).Contents (Elt F) → (⟨S8x16384x128, .f32⟩ : BufTy).Contents (Elt F)),
    unary main_arg11 main_v41 (broadcastInDim S1x1x128 ![2] bcast_S128_S1x1x128_2 : (⟨S128, .f32⟩ : BufTy).Contents (Elt F) → (⟨S1x1x128, .f32⟩ : BufTy).Contents (Elt F)),
    unary main_v41 main_v42 (broadcastInDim S8x16384x128 ![0, 1, 2] bcast_S1x1x128_S8x16384x128_0_1_2 : (⟨S1x1x128, .f32⟩ : BufTy).Contents (Elt F) → (⟨S8x16384x128, .f32⟩ : BufTy).Contents (Elt F)),
    binary main_v40 main_v42 main_v43 (addf : (⟨S8x16384x128, .f32⟩ : BufTy).Contents (Elt F) → (⟨S8x16384x128, .f32⟩ : BufTy).Contents (Elt F) → (⟨S8x16384x128, .f32⟩ : BufTy).Contents (Elt F)),
    TRef.nullary main_call2.cst (constant S_ .f32 0x00000000#32),
    TRef.unary main_call2.cst main_call2.v0 (broadcastInDim S8x16384x128 ![] bcast_S_S8x16384x128),
    TRef.binary (.of main_v43 : TRef sig ⟨S8x16384x128, .f32⟩) main_call2.v0 main_call2.v1 maximumf,
    nullary main_cst_4 (constant S_ .f32 0x00000000#32),
    binary main_v44 main_cst_4 main_v45 ((fun x v => Host.reduceAdd x v reducesTo_S8x16384x128_S16384_d0_2 h_S_) : (⟨S8x16384x128, .f32⟩ : BufTy).Contents (Elt F) → (⟨S_, .f32⟩ : BufTy).Contents (Elt F) → (⟨S16384, .f32⟩ : BufTy).Contents (Elt F)),
    unary main_v45 main_v46 (broadcastInDim S1x16384x1 ![1] bcast_S16384_S1x16384x1_1 : (⟨S16384, .f32⟩ : BufTy).Contents (Elt F) → (⟨S1x16384x1, .f32⟩ : BufTy).Contents (Elt F)),
    nullary main_cst_5 (constant S_ .f32 0x44800000#32),
    unary main_cst_5 main_v47 (broadcastInDim S1x16384x1 ![] bcast_S_S1x16384x1 : (⟨S_, .f32⟩ : BufTy).Contents (Elt F) → (⟨S1x16384x1, .f32⟩ : BufTy).Contents (Elt F)),
    binary main_v46 main_v47 main_v48 (Host.divf : (⟨S1x16384x1, .f32⟩ : BufTy).Contents (Elt F) → (⟨S1x16384x1, .f32⟩ : BufTy).Contents (Elt F) → (⟨S1x16384x1, .f32⟩ : BufTy).Contents (Elt F)),
    nullary main_c_6 (constantI S_ 32 0#32),
    TRef.nullary main_call3.cst (constant S_ .f32 0x00000000#32),
    TRef.binary (.of main_v44 : TRef sig ⟨S8x16384x128, .f32⟩) main_call3.cst main_call3.v0 (fun x v => Host.reduceAdd x v reducesTo_S8x16384x128_S16384_d0_2 h_S_),
    TRef.unary main_call3.v0 main_call3.v1 (broadcastInDim S1x16384x1 ![1] bcast_S16384_S1x16384x1_1),
    TRef.nullary main_call3.cst_0 (constant S_ .f32 0x44800000#32),
    TRef.unary main_call3.cst_0 main_call3.v2 (broadcastInDim S1x16384x1 ![] bcast_S_S1x16384x1),
    TRef.binary main_call3.v1 main_call3.v2 main_call3.v3 Host.divf,
    TRef.unary main_call3.v3 main_call3.v4 (broadcastInDim S8x16384x128 ![0, 1, 2] bcast_S1x16384x1_S8x16384x128_0_1_2),
    TRef.binary (.of main_v44 : TRef sig ⟨S8x16384x128, .f32⟩) main_call3.v4 main_call3.v5 subf,
    TRef.binary main_call3.v5 main_call3.v5 main_call3.v6 mulf,
    TRef.unary (.of main_c_6 : TRef sig ⟨S_, .i32⟩) main_call3.v7 (sitofp .f32),
    TRef.nullary main_call3.cst_1 (constant S_ .f32 0x44800000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S8x16384x128_S16384_d0_2 h_S_),
    TRef.unary main_call3.v9 main_call3.v10 (broadcastInDim S1x16384x1 ![1] bcast_S16384_S1x16384x1_1),
    TRef.unary main_call3.v8 main_call3.v11 (broadcastInDim S1x16384x1 ![] bcast_S_S1x16384x1),
    TRef.binary main_call3.v10 main_call3.v11 main_call3.v12 Host.divf,
    TRef.nullary main_call3.cst_3 (constant S_ .f32 0x00000000#32),
    TRef.binary main_call3.v8 main_call3.cst_3 main_call3.v13 (cmpf .ogt),
    TRef.nullary main_call3.cst_4 (constant S_ .f32 0x7FC00000#32),
    TRef.unary main_call3.cst_4 main_call3.call0.v0 id,
    TRef.unary main_call3.call0.v0 main_call3.call0.v1 (broadcastInDim S1x16384x1 ![] bcast_S_S1x16384x1),
    TRef.ternary main_call3.v13 main_call3.v12 main_call3.call0.v1 main_call3.call0.v2 (fun p a b => select (broadcastInDim S1x16384x1 ![] bcast_S_S1x16384x1 p) a b),
    unary main_v48 main_v50 (broadcastInDim S8x16384x128 ![0, 1, 2] bcast_S1x16384x1_S8x16384x128_0_1_2 : (⟨S1x16384x1, .f32⟩ : BufTy).Contents (Elt F) → (⟨S8x16384x128, .f32⟩ : BufTy).Contents (Elt F)),
    binary main_v44 main_v50 main_v51 (subf : (⟨S8x16384x128, .f32⟩ : BufTy).Contents (Elt F) → (⟨S8x16384x128, .f32⟩ : BufTy).Contents (Elt F) → (⟨S8x16384x128, .f32⟩ : BufTy).Contents (Elt F)),
    nullary main_cst_7 (constant S_ .f32 0x3A83126F#32),
    unary main_cst_7 main_v52 (broadcastInDim S1x16384x1 ![] bcast_S_S1x16384x1 : (⟨S_, .f32⟩ : BufTy).Contents (Elt F) → (⟨S1x16384x1, .f32⟩ : BufTy).Contents (Elt F)),
    binary main_v49 main_v52 main_v53 (addf : (⟨S1x16384x1, .f32⟩ : BufTy).Contents (Elt F) → (⟨S1x16384x1, .f32⟩ : BufTy).Contents (Elt F) → (⟨S1x16384x1, .f32⟩ : BufTy).Contents (Elt F)),
    unary main_v53 main_v54 (Host.rsqrt : (⟨S1x16384x1, .f32⟩ : BufTy).Contents (Elt F) → (⟨S1x16384x1, .f32⟩ : BufTy).Contents (Elt F)),
    unary main_v54 main_v55 (broadcastInDim S8x16384x128 ![0, 1, 2] bcast_S1x16384x1_S8x16384x128_0_1_2 : (⟨S1x16384x1, .f32⟩ : BufTy).Contents (Elt F) → (⟨S8x16384x128, .f32⟩ : BufTy).Contents (Elt F)),
    binary main_v51 main_v55 main_v56 (mulf : (⟨S8x16384x128, .f32⟩ : BufTy).Contents (Elt F) → (⟨S8x16384x128, .f32⟩ : BufTy).Contents (Elt F) → (⟨S8x16384x128, .f32⟩ : BufTy).Contents (Elt F)),
    reshape main_arg12 main_v57 rfl shapeCasts_S16384_S1x16384x1,
    unary main_v57 main_v58 (broadcastInDim S8x16384x128 ![0, 1, 2] bcast_S1x16384x1_S8x16384x128_0_1_2 : (⟨S1x16384x1, .f32⟩ : BufTy).Contents (Elt F) → (⟨S8x16384x128, .f32⟩ : BufTy).Contents (Elt F)),
    binary main_v56 main_v58 main_v59 (mulf : (⟨S8x16384x128, .f32⟩ : BufTy).Contents (Elt F) → (⟨S8x16384x128, .f32⟩ : BufTy).Contents (Elt F) → (⟨S8x16384x128, .f32⟩ : BufTy).Contents (Elt F)),
    reshape main_arg13 main_v60 rfl shapeCasts_S16384_S1x16384x1,
    unary main_v60 main_v61 (broadcastInDim S8x16384x128 ![0, 1, 2] bcast_S1x16384x1_S8x16384x128_0_1_2 : (⟨S1x16384x1, .f32⟩ : BufTy).Contents (Elt F) → (⟨S8x16384x128, .f32⟩ : BufTy).Contents (Elt F)),
    binary main_v59 main_v61 main_v62 (addf : (⟨S8x16384x128, .f32⟩ : BufTy).Contents (Elt F) → (⟨S8x16384x128, .f32⟩ : BufTy).Contents (Elt F) → (⟨S8x16384x128, .f32⟩ : BufTy).Contents (Elt F)),
    nullary main_cst_8 (constant S_ .f32 0xFF800000#32),
    binary main_v62 main_cst_8 main_v63 ((fun x v => Host.reduce FloatOps.maximumf x v reducesTo_S8x16384x128_S8x128_d1 h_S_) : (⟨S8x16384x128, .f32⟩ : BufTy).Contents (Elt F) → (⟨S_, .f32⟩ : BufTy).Contents (Elt F) → (⟨S8x128, .f32⟩ : BufTy).Contents (Elt F)),
    binary main_v63 main_arg18 main_v64 ((fun l r => Host.dotGeneral dot_S8x128_S128x256_S8x256_1_0_0_1_n_n none l r) : (⟨S8x128, .f32⟩ : BufTy).Contents (Elt F) → (⟨S128x256, .f32⟩ : BufTy).Contents (Elt F) → (⟨S8x256, .f32⟩ : BufTy).Contents (Elt F)),
    unary main_arg19 main_v65 (broadcastInDim S1x256 ![1] bcast_S256_S1x256_1 : (⟨S256, .f32⟩ : BufTy).Contents (Elt F) → (⟨S1x256, .f32⟩ : BufTy).Contents (Elt F)),
    unary main_v65 main_v66 (broadcastInDim S8x256 ![0, 1] bcast_S1x256_S8x256_0_1 : (⟨S1x256, .f32⟩ : BufTy).Contents (Elt F) → (⟨S8x256, .f32⟩ : BufTy).Contents (Elt F)),
    binary main_v64 main_v66 main_v67 (addf : (⟨S8x256, .f32⟩ : BufTy).Contents (Elt F) → (⟨S8x256, .f32⟩ : BufTy).Contents (Elt F) → (⟨S8x256, .f32⟩ : BufTy).Contents (Elt F)),
    TRef.nullary main_call4.cst (constant S_ .f32 0x00000000#32),
    TRef.unary main_call4.cst main_call4.v0 (broadcastInDim S8x256 ![] bcast_S_S8x256),
    TRef.binary (.of main_v67 : TRef sig ⟨S8x256, .f32⟩) main_call4.v0 main_call4.v1 maximumf,
    nullary main_cst_9 (constant S_ .f32 0x00000000#32),
    binary main_v68 main_cst_9 main_v69 ((fun x v => Host.reduceAdd x v reducesTo_S8x256_S256_d0 h_S_) : (⟨S8x256, .f32⟩ : BufTy).Contents (Elt F) → (⟨S_, .f32⟩ : BufTy).Contents (Elt F) → (⟨S256, .f32⟩ : BufTy).Contents (Elt F)),
    unary main_v69 main_v70 (broadcastInDim S1x256 ![1] bcast_S256_S1x256_1 : (⟨S256, .f32⟩ : BufTy).Contents (Elt F) → (⟨S1x256, .f32⟩ : BufTy).Contents (Elt F)),
    nullary main_cst_10 (constant S_ .f32 0x41000000#32),
    unary main_cst_10 main_v71 (broadcastInDim S1x256 ![] bcast_S_S1x256 : (⟨S_, .f32⟩ : BufTy).Contents (Elt F) → (⟨S1x256, .f32⟩ : BufTy).Contents (Elt F)),
    binary main_v70 main_v71 main_v72 (Host.divf : (⟨S1x256, .f32⟩ : BufTy).Contents (Elt F) → (⟨S1x256, .f32⟩ : BufTy).Contents (Elt F) → (⟨S1x256, .f32⟩ : BufTy).Contents (Elt F)),
    nullary main_c_11 (constantI S_ 32 0#32),
    TRef.nullary main_call5.cst (constant S_ .f32 0x00000000#32),
    TRef.binary (.of main_v68 : TRef sig ⟨S8x256, .f32⟩) main_call5.cst main_call5.v0 (fun x v => Host.reduceAdd x v reducesTo_S8x256_S256_d0 h_S_),
    TRef.unary main_call5.v0 main_call5.v1 (broadcastInDim S1x256 ![1] bcast_S256_S1x256_1),
    TRef.nullary main_call5.cst_0 (constant S_ .f32 0x41000000#32),
    TRef.unary main_call5.cst_0 main_call5.v2 (broadcastInDim S1x256 ![] bcast_S_S1x256),
    TRef.binary main_call5.v1 main_call5.v2 main_call5.v3 Host.divf,
    TRef.unary main_call5.v3 main_call5.v4 (broadcastInDim S8x256 ![0, 1] bcast_S1x256_S8x256_0_1),
    TRef.binary (.of main_v68 : TRef sig ⟨S8x256, .f32⟩) main_call5.v4 main_call5.v5 subf,
    TRef.binary main_call5.v5 main_call5.v5 main_call5.v6 mulf,
    TRef.unary (.of main_c_11 : TRef sig ⟨S_, .i32⟩) main_call5.v7 (sitofp .f32),
    TRef.nullary main_call5.cst_1 (constant S_ .f32 0x41000000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S8x256_S256_d0 h_S_),
    TRef.unary main_call5.v9 main_call5.v10 (broadcastInDim S1x256 ![1] bcast_S256_S1x256_1),
    TRef.unary main_call5.v8 main_call5.v11 (broadcastInDim S1x256 ![] bcast_S_S1x256),
    TRef.binary main_call5.v10 main_call5.v11 main_call5.v12 Host.divf,
    TRef.nullary main_call5.cst_3 (constant S_ .f32 0x00000000#32),
    TRef.binary main_call5.v8 main_call5.cst_3 main_call5.v13 (cmpf .ogt),
    TRef.nullary main_call5.cst_4 (constant S_ .f32 0x7FC00000#32),
    TRef.unary main_call5.cst_4 main_call5.call0.v0 id,
    TRef.unary main_call5.call0.v0 main_call5.call0.v1 (broadcastInDim S1x256 ![] bcast_S_S1x256),
    TRef.ternary main_call5.v13 main_call5.v12 main_call5.call0.v1 main_call5.call0.v2 (fun p a b => select (broadcastInDim S1x256 ![] bcast_S_S1x256 p) a b),
    unary main_v72 main_v74 (broadcastInDim S8x256 ![0, 1] bcast_S1x256_S8x256_0_1 : (⟨S1x256, .f32⟩ : BufTy).Contents (Elt F) → (⟨S8x256, .f32⟩ : BufTy).Contents (Elt F)),
    binary main_v68 main_v74 main_v75 (subf : (⟨S8x256, .f32⟩ : BufTy).Contents (Elt F) → (⟨S8x256, .f32⟩ : BufTy).Contents (Elt F) → (⟨S8x256, .f32⟩ : BufTy).Contents (Elt F)),
    nullary main_cst_12 (constant S_ .f32 0x3A83126F#32),
    unary main_cst_12 main_v76 (broadcastInDim S1x256 ![] bcast_S_S1x256 : (⟨S_, .f32⟩ : BufTy).Contents (Elt F) → (⟨S1x256, .f32⟩ : BufTy).Contents (Elt F)),
    binary main_v73 main_v76 main_v77 (addf : (⟨S1x256, .f32⟩ : BufTy).Contents (Elt F) → (⟨S1x256, .f32⟩ : BufTy).Contents (Elt F) → (⟨S1x256, .f32⟩ : BufTy).Contents (Elt F)),
    unary main_v77 main_v78 (Host.rsqrt : (⟨S1x256, .f32⟩ : BufTy).Contents (Elt F) → (⟨S1x256, .f32⟩ : BufTy).Contents (Elt F)),
    unary main_v78 main_v79 (broadcastInDim S8x256 ![0, 1] bcast_S1x256_S8x256_0_1 : (⟨S1x256, .f32⟩ : BufTy).Contents (Elt F) → (⟨S8x256, .f32⟩ : BufTy).Contents (Elt F)),
    binary main_v75 main_v79 main_v80 (mulf : (⟨S8x256, .f32⟩ : BufTy).Contents (Elt F) → (⟨S8x256, .f32⟩ : BufTy).Contents (Elt F) → (⟨S8x256, .f32⟩ : BufTy).Contents (Elt F)),
    reshape main_arg14 main_v81 rfl shapeCasts_S256_S1x256,
    unary main_v81 main_v82 (broadcastInDim S8x256 ![0, 1] bcast_S1x256_S8x256_0_1 : (⟨S1x256, .f32⟩ : BufTy).Contents (Elt F) → (⟨S8x256, .f32⟩ : BufTy).Contents (Elt F)),
    binary main_v80 main_v82 main_v83 (mulf : (⟨S8x256, .f32⟩ : BufTy).Contents (Elt F) → (⟨S8x256, .f32⟩ : BufTy).Contents (Elt F) → (⟨S8x256, .f32⟩ : BufTy).Contents (Elt F)),
    reshape main_arg15 main_v84 rfl shapeCasts_S256_S1x256,
    unary main_v84 main_v85 (broadcastInDim S8x256 ![0, 1] bcast_S1x256_S8x256_0_1 : (⟨S1x256, .f32⟩ : BufTy).Contents (Elt F) → (⟨S8x256, .f32⟩ : BufTy).Contents (Elt F)),
    binary main_v83 main_v85 main_v86 (addf : (⟨S8x256, .f32⟩ : BufTy).Contents (Elt F) → (⟨S8x256, .f32⟩ : BufTy).Contents (Elt F) → (⟨S8x256, .f32⟩ : BufTy).Contents (Elt F)),
    binary main_v86 main_arg20 main_v87 ((fun l r => Host.dotGeneral dot_S8x256_S256x128_S8x128_1_0_0_1_n_n none l r) : (⟨S8x256, .f32⟩ : BufTy).Contents (Elt F) → (⟨S256x128, .f32⟩ : BufTy).Contents (Elt F) → (⟨S8x128, .f32⟩ : BufTy).Contents (Elt F)),
    unary main_arg21 main_v88 (broadcastInDim S1x128 ![1] bcast_S128_S1x128_1 : (⟨S128, .f32⟩ : BufTy).Contents (Elt F) → (⟨S1x128, .f32⟩ : BufTy).Contents (Elt F)),
    unary main_v88 main_v89 (broadcastInDim S8x128 ![0, 1] bcast_S1x128_S8x128_0_1 : (⟨S1x128, .f32⟩ : BufTy).Contents (Elt F) → (⟨S8x128, .f32⟩ : BufTy).Contents (Elt F)),
    binary main_v87 main_v89 main_v90 (addf : (⟨S8x128, .f32⟩ : BufTy).Contents (Elt F) → (⟨S8x128, .f32⟩ : BufTy).Contents (Elt F) → (⟨S8x128, .f32⟩ : BufTy).Contents (Elt F)),
    TRef.nullary main_call6.cst (constant S_ .f32 0x00000000#32),
    TRef.unary main_call6.cst main_call6.v0 (broadcastInDim S8x128 ![] bcast_S_S8x128),
    TRef.binary (.of main_v90 : TRef sig ⟨S8x128, .f32⟩) main_call6.v0 main_call6.v1 maximumf,
    nullary main_cst_13 (constant S_ .f32 0x00000000#32),
    binary main_v91 main_cst_13 main_v92 ((fun x v => Host.reduceAdd x v reducesTo_S8x128_S128_d0 h_S_) : (⟨S8x128, .f32⟩ : BufTy).Contents (Elt F) → (⟨S_, .f32⟩ : BufTy).Contents (Elt F) → (⟨S128, .f32⟩ : BufTy).Contents (Elt F)),
    unary main_v92 main_v93 (broadcastInDim S1x128 ![1] bcast_S128_S1x128_1 : (⟨S128, .f32⟩ : BufTy).Contents (Elt F) → (⟨S1x128, .f32⟩ : BufTy).Contents (Elt F)),
    nullary main_cst_14 (constant S_ .f32 0x41000000#32),
    unary main_cst_14 main_v94 (broadcastInDim S1x128 ![] bcast_S_S1x128 : (⟨S_, .f32⟩ : BufTy).Contents (Elt F) → (⟨S1x128, .f32⟩ : BufTy).Contents (Elt F)),
    binary main_v93 main_v94 main_v95 (Host.divf : (⟨S1x128, .f32⟩ : BufTy).Contents (Elt F) → (⟨S1x128, .f32⟩ : BufTy).Contents (Elt F) → (⟨S1x128, .f32⟩ : BufTy).Contents (Elt F)),
    nullary main_c_15 (constantI S_ 32 0#32),
    TRef.nullary main_call7.cst (constant S_ .f32 0x00000000#32),
    TRef.binary (.of main_v91 : TRef sig ⟨S8x128, .f32⟩) main_call7.cst main_call7.v0 (fun x v => Host.reduceAdd x v reducesTo_S8x128_S128_d0 h_S_),
    TRef.unary main_call7.v0 main_call7.v1 (broadcastInDim S1x128 ![1] bcast_S128_S1x128_1),
    TRef.nullary main_call7.cst_0 (constant S_ .f32 0x41000000#32),
    TRef.unary main_call7.cst_0 main_call7.v2 (broadcastInDim S1x128 ![] bcast_S_S1x128),
    TRef.binary main_call7.v1 main_call7.v2 main_call7.v3 Host.divf,
    TRef.unary main_call7.v3 main_call7.v4 (broadcastInDim S8x128 ![0, 1] bcast_S1x128_S8x128_0_1),
    TRef.binary (.of main_v91 : TRef sig ⟨S8x128, .f32⟩) main_call7.v4 main_call7.v5 subf,
    TRef.binary main_call7.v5 main_call7.v5 main_call7.v6 mulf,
    TRef.unary (.of main_c_15 : TRef sig ⟨S_, .i32⟩) main_call7.v7 (sitofp .f32),
    TRef.nullary main_call7.cst_1 (constant S_ .f32 0x41000000#32),
    TRef.binary main_call7.cst_1 main_call7.v7 main_call7.v8 subf,
    TRef.nullary main_call7.cst_2 (constant S_ .f32 0x00000000#32),
    TRef.binary main_call7.v6 main_call7.cst_2 main_call7.v9 (fun x v => Host.reduceAdd x v reducesTo_S8x128_S128_d0 h_S_),
    TRef.unary main_call7.v9 main_call7.v10 (broadcastInDim S1x128 ![1] bcast_S128_S1x128_1),
    TRef.unary main_call7.v8 main_call7.v11 (broadcastInDim S1x128 ![] bcast_S_S1x128),
    TRef.binary main_call7.v10 main_call7.v11 main_call7.v12 Host.divf,
    TRef.nullary main_call7.cst_3 (constant S_ .f32 0x00000000#32),
    TRef.binary main_call7.v8 main_call7.cst_3 main_call7.v13 (cmpf .ogt),
    TRef.nullary main_call7.cst_4 (constant S_ .f32 0x7FC00000#32),
    TRef.unary main_call7.cst_4 main_call7.call0.v0 id,
    TRef.unary main_call7.call0.v0 main_call7.call0.v1 (broadcastInDim S1x128 ![] bcast_S_S1x128),
    TRef.ternary main_call7.v13 main_call7.v12 main_call7.call0.v1 main_call7.call0.v2 (fun p a b => select (broadcastInDim S1x128 ![] bcast_S_S1x128 p) a b),
    unary main_v95 main_v97 (broadcastInDim S8x128 ![0, 1] bcast_S1x128_S8x128_0_1 : (⟨S1x128, .f32⟩ : BufTy).Contents (Elt F) → (⟨S8x128, .f32⟩ : BufTy).Contents (Elt F)),
    binary main_v91 main_v97 main_v98 (subf : (⟨S8x128, .f32⟩ : BufTy).Contents (Elt F) → (⟨S8x128, .f32⟩ : BufTy).Contents (Elt F) → (⟨S8x128, .f32⟩ : BufTy).Contents (Elt F)),
    nullary main_cst_16 (constant S_ .f32 0x3A83126F#32),
    unary main_cst_16 main_v99 (broadcastInDim S1x128 ![] bcast_S_S1x128 : (⟨S_, .f32⟩ : BufTy).Contents (Elt F) → (⟨S1x128, .f32⟩ : BufTy).Contents (Elt F)),
    binary main_v96 main_v99 main_v100 (addf : (⟨S1x128, .f32⟩ : BufTy).Contents (Elt F) → (⟨S1x128, .f32⟩ : BufTy).Contents (Elt F) → (⟨S1x128, .f32⟩ : BufTy).Contents (Elt F)),
    unary main_v100 main_v101 (Host.rsqrt : (⟨S1x128, .f32⟩ : BufTy).Contents (Elt F) → (⟨S1x128, .f32⟩ : BufTy).Contents (Elt F)),
    unary main_v101 main_v102 (broadcastInDim S8x128 ![0, 1] bcast_S1x128_S8x128_0_1 : (⟨S1x128, .f32⟩ : BufTy).Contents (Elt F) → (⟨S8x128, .f32⟩ : BufTy).Contents (Elt F)),
    binary main_v98 main_v102 main_v103 (mulf : (⟨S8x128, .f32⟩ : BufTy).Contents (Elt F) → (⟨S8x128, .f32⟩ : BufTy).Contents (Elt F) → (⟨S8x128, .f32⟩ : BufTy).Contents (Elt F)),
    reshape main_arg16 main_v104 rfl shapeCasts_S128_S1x128,
    unary main_v104 main_v105 (broadcastInDim S8x128 ![0, 1] bcast_S1x128_S8x128_0_1 : (⟨S1x128, .f32⟩ : BufTy).Contents (Elt F) → (⟨S8x128, .f32⟩ : BufTy).Contents (Elt F)),
    binary main_v103 main_v105 main_v106 (mulf : (⟨S8x128, .f32⟩ : BufTy).Contents (Elt F) → (⟨S8x128, .f32⟩ : BufTy).Contents (Elt F) → (⟨S8x128, .f32⟩ : BufTy).Contents (Elt F)),
    reshape main_arg17 main_v107 rfl shapeCasts_S128_S1x128,
    unary main_v107 main_v108 (broadcastInDim S8x128 ![0, 1] bcast_S1x128_S8x128_0_1 : (⟨S1x128, .f32⟩ : BufTy).Contents (Elt F) → (⟨S8x128, .f32⟩ : BufTy).Contents (Elt F)),
    binary main_v106 main_v108 main_v109 (addf : (⟨S8x128, .f32⟩ : BufTy).Contents (Elt F) → (⟨S8x128, .f32⟩ : BufTy).Contents (Elt F) → (⟨S8x128, .f32⟩ : BufTy).Contents (Elt F)),
    binary main_v109 main_arg22 main_v110 ((fun l r => Host.dotGeneral dot_S8x128_S128x4_S8x4_1_0_0_1_n_n none l r) : (⟨S8x128, .f32⟩ : BufTy).Contents (Elt F) → (⟨S128x4, .f32⟩ : BufTy).Contents (Elt F) → (⟨S8x4, .f32⟩ : BufTy).Contents (Elt F)),
    unary main_arg23 main_v111 (broadcastInDim S1x4 ![1] bcast_S4_S1x4_1 : (⟨S4, .f32⟩ : BufTy).Contents (Elt F) → (⟨S1x4, .f32⟩ : BufTy).Contents (Elt F)),
    unary main_v111 main_v112 (broadcastInDim S8x4 ![0, 1] bcast_S1x4_S8x4_0_1 : (⟨S1x4, .f32⟩ : BufTy).Contents (Elt F) → (⟨S8x4, .f32⟩ : BufTy).Contents (Elt F)),
    binary main_v110 main_v112 main_v113 (addf : (⟨S8x4, .f32⟩ : BufTy).Contents (Elt F) → (⟨S8x4, .f32⟩ : BufTy).Contents (Elt F) → (⟨S8x4, .f32⟩ : BufTy).Contents (Elt F)),
    nullary main_cst_17 (constant S_ .f32 0xFF800000#32),
    binary main_v113 main_cst_17 main_v114 ((fun x v => Host.reduce FloatOps.maximumf x v reducesTo_S8x4_S8_d1 h_S_) : (⟨S8x4, .f32⟩ : BufTy).Contents (Elt F) → (⟨S_, .f32⟩ : BufTy).Contents (Elt F) → (⟨S8, .f32⟩ : BufTy).Contents (Elt F)),
    nullary main_cst_18 (constant S_ .f32 0xFF800000#32),
    unary main_cst_18 main_v115 (broadcastInDim S8 ![] bcast_S_S8 : (⟨S_, .f32⟩ : BufTy).Contents (Elt F) → (⟨S8, .f32⟩ : BufTy).Contents (Elt F)),
    binary main_v115 main_v114 main_v116 (maximumf : (⟨S8, .f32⟩ : BufTy).Contents (Elt F) → (⟨S8, .f32⟩ : BufTy).Contents (Elt F) → (⟨S8, .f32⟩ : BufTy).Contents (Elt F)),
    unary main_v116 main_v117 (broadcastInDim S8x1 ![0] bcast_S8_S8x1_0 : (⟨S8, .f32⟩ : BufTy).Contents (Elt F) → (⟨S8x1, .f32⟩ : BufTy).Contents (Elt F)),
    unary main_v117 main_v118 (broadcastInDim S8x4 ![0, 1] bcast_S8x1_S8x4_0_1 : (⟨S8x1, .f32⟩ : BufTy).Contents (Elt F) → (⟨S8x4, .f32⟩ : BufTy).Contents (Elt F)),
    binary main_v113 main_v118 main_v119 (subf : (⟨S8x4, .f32⟩ : BufTy).Contents (Elt F) → (⟨S8x4, .f32⟩ : BufTy).Contents (Elt F) → (⟨S8x4, .f32⟩ : BufTy).Contents (Elt F)),
    unary main_v119 main_v120 (Host.exp : (⟨S8x4, .f32⟩ : BufTy).Contents (Elt F) → (⟨S8x4, .f32⟩ : BufTy).Contents (Elt F)),
    nullary main_cst_19 (constant S_ .f32 0x00000000#32),
    binary main_v120 main_cst_19 main_v121 ((fun x v => Host.reduceAdd x v reducesTo_S8x4_S8_d1 h_S_) : (⟨S8x4, .f32⟩ : BufTy).Contents (Elt F) → (⟨S_, .f32⟩ : BufTy).Contents (Elt F) → (⟨S8, .f32⟩ : BufTy).Contents (Elt F)),
    unary main_v121 main_v122 (broadcastInDim S8x1 ![0] bcast_S8_S8x1_0 : (⟨S8, .f32⟩ : BufTy).Contents (Elt F) → (⟨S8x1, .f32⟩ : BufTy).Contents (Elt F)),
    unary main_v122 main_v123 (broadcastInDim S8x4 ![0, 1] bcast_S8x1_S8x4_0_1 : (⟨S8x1, .f32⟩ : BufTy).Contents (Elt F) → (⟨S8x4, .f32⟩ : BufTy).Contents (Elt F)),
    binary main_v120 main_v123 main_v124 (Host.divf : (⟨S8x4, .f32⟩ : BufTy).Contents (Elt F) → (⟨S8x4, .f32⟩ : BufTy).Contents (Elt F) → (⟨S8x4, .f32⟩ : BufTy).Contents (Elt F)) ]

/-- The buffers the operations write, in order: one each. -/
abbrev written : List (Ref sig .tc) :=
  [ main_cst, main_v0, main_v1, main_v2, main_v3, main_v4, main_call0_cst, main_call0_v0,
    main_v5, main_v6, main_v7, main_v8, main_v9, main_call1_cst, main_call1_v0, main_v10,
    main_v11, main_v12, main_v13, main_v14, main_v15, main_v16, main_cst_0, main_v17,
    main_v18, main_cst_1, main_v19, main_v20, main_v21, main_v22, main_v23, main_v24,
    main_v25, main_c, main_v26, main_v27, main_c_2, main_v28, main_v29, main_v30,
    main_v31, main_v32, main_v33, main_v34, main_v35, main_cst_3, main_v36, main_v37,
    main_v38, main_v39, main_v40, main_v41, main_v42, main_v43, main_call2_cst, main_call2_v0,
    main_v44, main_cst_4, main_v45, main_v46, main_cst_5, main_v47, main_v48, main_c_6,
    main_call3_cst, main_call3_v0, main_call3_v1, main_call3_cst_0, main_call3_v2, main_call3_v3, main_call3_v4, main_call3_v5,
    main_call3_v6, main_call3_v7, main_call3_cst_1, main_call3_v8, main_call3_cst_2, main_call3_v9, main_call3_v10, main_call3_v11,
    main_call3_v12, main_call3_cst_3, main_call3_v13, main_call3_cst_4, main_call3_call0_v0, main_call3_call0_v1, main_v49, main_v50,
    main_v51, main_cst_7, main_v52, main_v53, main_v54, main_v55, main_v56, main_v57,
    main_v58, main_v59, main_v60, main_v61, main_v62, main_cst_8, main_v63, main_v64,
    main_v65, main_v66, main_v67, main_call4_cst, main_call4_v0, main_v68, main_cst_9, main_v69,
    main_v70, main_cst_10, main_v71, main_v72, main_c_11, main_call5_cst, main_call5_v0, main_call5_v1,
    main_call5_cst_0, main_call5_v2, main_call5_v3, main_call5_v4, main_call5_v5, main_call5_v6, main_call5_v7, main_call5_cst_1,
    main_call5_v8, main_call5_cst_2, main_call5_v9, main_call5_v10, main_call5_v11, main_call5_v12, main_call5_cst_3, main_call5_v13,
    main_call5_cst_4, main_call5_call0_v0, main_call5_call0_v1, main_v73, main_v74, main_v75, main_cst_12, main_v76,
    main_v77, main_v78, main_v79, main_v80, main_v81, main_v82, main_v83, main_v84,
    main_v85, main_v86, main_v87, main_v88, main_v89, main_v90, main_call6_cst, main_call6_v0,
    main_v91, main_cst_13, main_v92, main_v93, main_cst_14, main_v94, main_v95, main_c_15,
    main_call7_cst, main_call7_v0, main_call7_v1, main_call7_cst_0, main_call7_v2, main_call7_v3, main_call7_v4, main_call7_v5,
    main_call7_v6, main_call7_v7, main_call7_cst_1, main_call7_v8, main_call7_cst_2, main_call7_v9, main_call7_v10, main_call7_v11,
    main_call7_v12, main_call7_cst_3, main_call7_v13, main_call7_cst_4, main_call7_call0_v0, main_call7_call0_v1, main_v96, main_v97,
    main_v98, main_cst_16, main_v99, main_v100, main_v101, main_v102, main_v103, main_v104,
    main_v105, main_v106, main_v107, main_v108, main_v109, main_v110, main_v111, main_v112,
    main_v113, main_cst_17, main_v114, main_cst_18, main_v115, main_v116, main_v117, main_v118,
    main_v119, main_v120, main_cst_19, main_v121, main_v122, main_v123, main_v124 ]

set_option maxRecDepth 8192 in
set_option maxHeartbeats 4000000 in
/-- @main is that straight line: its three windows in order, the functions' definitions unfolded at their calls and the records at their
    fields; both sides are then one chain of steps once sequencing is reassociated. -/
theorem main_eq (c : Dev nD) : main (F := F) c = seq ops := by
  simp only [main, main_part0, main_part1, main_part2, fn_relu.body, fn_relu_0.body, fn_where.body, fn_var.body, fn_relu_1.body, fn_where_3.body, fn_var_2.body, fn_relu_4.body, fn_where_6.body, fn_var_5.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore buffers only. -/
theorem ops_sub : (ops : List (HloOp τ sig (Elt F))).Forall fun op => op.bufs ⊆ tcRefs τ sig :=
  ⟨nullary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., unary_bufs_sub .., unary_bufs_sub .., nullary_bufs_sub .., unary_bufs_sub ..,
    binary_bufs_sub .., nullary_bufs_sub .., unary_bufs_sub .., binary_bufs_sub .., unary_bufs_sub .., unary_bufs_sub ..,
    binary_bufs_sub .., binary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., binary_bufs_sub .., nullary_bufs_sub .., unary_bufs_sub .., unary_bufs_sub ..,
    ternary_bufs_sub .., binary_bufs_sub .., unary_bufs_sub .., unary_bufs_sub .., unary_bufs_sub .., binary_bufs_sub ..,
    nullary_bufs_sub .., unary_bufs_sub .., binary_bufs_sub .., nullary_bufs_sub .., binary_bufs_sub .., unary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., unary_bufs_sub .., binary_bufs_sub .., nullary_bufs_sub .., binary_bufs_sub .., nullary_bufs_sub ..,
    unary_bufs_sub .., unary_bufs_sub .., ternary_bufs_sub .., unary_bufs_sub .., binary_bufs_sub .., nullary_bufs_sub ..,
    unary_bufs_sub .., binary_bufs_sub .., unary_bufs_sub .., unary_bufs_sub .., binary_bufs_sub .., reshape_bufs_sub ..,
    unary_bufs_sub .., binary_bufs_sub .., reshape_bufs_sub .., unary_bufs_sub .., binary_bufs_sub .., nullary_bufs_sub ..,
    binary_bufs_sub .., binary_bufs_sub .., unary_bufs_sub .., unary_bufs_sub .., binary_bufs_sub .., nullary_bufs_sub ..,
    unary_bufs_sub .., binary_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., binary_bufs_sub .., nullary_bufs_sub .., unary_bufs_sub ..,
    binary_bufs_sub .., unary_bufs_sub .., unary_bufs_sub .., binary_bufs_sub .., reshape_bufs_sub .., unary_bufs_sub ..,
    binary_bufs_sub .., reshape_bufs_sub .., unary_bufs_sub .., binary_bufs_sub .., binary_bufs_sub .., unary_bufs_sub ..,
    unary_bufs_sub .., binary_bufs_sub .., nullary_bufs_sub .., unary_bufs_sub .., binary_bufs_sub .., nullary_bufs_sub ..,
    binary_bufs_sub .., unary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub .., unary_bufs_sub ..,
    binary_bufs_sub .., nullary_bufs_sub .., unary_bufs_sub .., binary_bufs_sub .., unary_bufs_sub .., unary_bufs_sub ..,
    binary_bufs_sub .., reshape_bufs_sub .., unary_bufs_sub .., binary_bufs_sub .., reshape_bufs_sub .., unary_bufs_sub ..,
    binary_bufs_sub .., binary_bufs_sub .., unary_bufs_sub .., unary_bufs_sub .., binary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub ..⟩

set_option maxRecDepth 8192 in
set_option maxHeartbeats 4000000 in
/-- Each operation writes one buffer, and it is in the list. -/
theorem ops_writes : (ops : List (HloOp τ sig (Elt F))).Forall fun op =>
    op.writes ⊆ (written.map (Proc.devRef (τ := τ) .tc)).toFinset := by
  simp only [List.Forall, nullary_writes, unary_writes, binary_writes, ternary_writes, reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)

/-- A buffer no operation writes holds after the run what it held before: so every argument. -/
theorem kept (V : Valuation τ sig (Elt F)) (r : Ref sig .tc) (h : r ∉ written) :
    after ops V (Proc.devRef .tc r) = V (Proc.devRef .tc r) :=
  after_of_writes_sub ops V ops_writes h

set_option maxRecDepth 8192 in
set_option maxHeartbeats 100000000 in
/-- The result buffer after the run, from any contents: the operations' results composed (each operation's result read at its own buffer,
    any other buffer as it was), which is the stage functions composed — they are the same operations applied in the same order. -/
theorem out_eq (V : Valuation τ sig (Elt F)) :
    after ops V (Proc.devRef .tc main_v124) = Cert.Stages.head (Cert.Stages.bnPool (Cert.Stages.aggOf (Cert.Stages.gateRes (V (Proc.devRef .tc main_arg0)) (Cert.Stages.seGate (Cert.Stages.pool0 (V (Proc.devRef .tc main_arg0))) (V (Proc.devRef .tc main_arg4)) (V (Proc.devRef .tc main_arg5)) (V (Proc.devRef .tc main_arg6)) (V (Proc.devRef .tc main_arg7)) (V (Proc.devRef .tc main_arg8)) (V (Proc.devRef .tc main_arg9)))) (V (Proc.devRef .tc main_arg1)) (V (Proc.devRef .tc main_arg2)) (V (Proc.devRef .tc main_arg3))) (V (Proc.devRef .tc main_arg10)) (V (Proc.devRef .tc main_arg11)) (V (Proc.devRef .tc main_arg12)) (V (Proc.devRef .tc main_arg13))) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) := by
  after_results_simp <;> (try simp only [TRef.ofBuf, TRef.toBuf, cast_eq]) <;> rfl

set_option maxRecDepth 8192 in
set_option maxHeartbeats 4000000 in
/-- On every device, for any float values, from any memory with zero counters: every weakly fair execution of @main terminates with the
    result at the stage functions composed over the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v124) = Cert.Stages.head (Cert.Stages.bnPool (Cert.Stages.aggOf (Cert.Stages.gateRes (m ((c.tc : Thread nD τ).loc main_arg0)) (Cert.Stages.seGate (Cert.Stages.pool0 (m ((c.tc : Thread nD τ).loc main_arg0))) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))) (m ((c.tc : Thread nD τ).loc main_arg1)) (m ((c.tc : Thread nD τ).loc main_arg2)) (m ((c.tc : Thread nD τ).loc main_arg3))) (m ((c.tc : Thread nD τ).loc main_arg10)) (m ((c.tc : Thread nD τ).loc main_arg11)) (m ((c.tc : Thread nD τ).loc main_arg12)) (m ((c.tc : Thread nD τ).loc main_arg13))) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun _ h c => ⟨(h c main_v124).trans (out_eq (launchContents m c)),
      (h c main_arg0).trans (kept (launchContents m c) main_arg0 (by decide)),
      (h c main_arg1).trans (kept (launchContents m c) main_arg1 (by decide)),
      (h c main_arg2).trans (kept (launchContents m c) main_arg2 (by decide)),
      (h c main_arg3).trans (kept (launchContents m c) main_arg3 (by decide)),
      (h c main_arg4).trans (kept (launchContents m c) main_arg4 (by decide)),
      (h c main_arg5).trans (kept (launchContents m c) main_arg5 (by decide)),
      (h c main_arg6).trans (kept (launchContents m c) main_arg6 (by decide)),
      (h c main_arg7).trans (kept (launchContents m c) main_arg7 (by decide)),
      (h c main_arg8).trans (kept (launchContents m c) main_arg8 (by decide)),
      (h c main_arg9).trans (kept (launchContents m c) main_arg9 (by decide)),
      (h c main_arg10).trans (kept (launchContents m c) main_arg10 (by decide)),
      (h c main_arg11).trans (kept (launchContents m c) main_arg11 (by decide)),
      (h c main_arg12).trans (kept (launchContents m c) main_arg12 (by decide)),
      (h c main_arg13).trans (kept (launchContents m c) main_arg13 (by decide)),
      (h c main_arg14).trans (kept (launchContents m c) main_arg14 (by decide)),
      (h c main_arg15).trans (kept (launchContents m c) main_arg15 (by decide)),
      (h c main_arg16).trans (kept (launchContents m c) main_arg16 (by decide)),
      (h c main_arg17).trans (kept (launchContents m c) main_arg17 (by decide)),
      (h c main_arg18).trans (kept (launchContents m c) main_arg18 (by decide)),
      (h c main_arg19).trans (kept (launchContents m c) main_arg19 (by decide)),
      (h c main_arg20).trans (kept (launchContents m c) main_arg20 (by decide)),
      (h c main_arg21).trans (kept (launchContents m c) main_arg21 (by decide)),
      (h c main_arg22).trans (kept (launchContents m c) main_arg22 (by decide)),
      (h c main_arg23).trans (kept (launchContents m c) main_arg23 (by decide))⟩)
    (run_seq scopedRefs_eq scopedSems_eq defs main (fun _ => ops) main_eq (fun _ => ops_sub) m ρ)

end Cert.ReferenceIdeal.Hand

end
-- ==== Proof.KI.Acc.lean ====
import proofs.«422996_j60266981097886_3_alg».proof.Proof.Gen.KernelIdeal.Skeleton

noncomputable section

namespace Cert.KernelIdeal.Hand

open Idealize.ShloMosaic Idealize.SL.Sem Cert.KernelIdeal Cert.KernelIdeal.Gen

variable {F : FTy → Type} [FloatOps F]

def acc0Of (blk : Fin 16 → Vec F S8x1024x64 .f32) : (n : ℕ) → n < 16 → FVec F S8x64 .f32
  | 0, h => k0_pay2 (blk ⟨0, h⟩) (k0_pay1 (F := F))
  | n + 1, h => k0_pay2 (blk ⟨n + 1, h⟩) (acc0Of blk n (Nat.lt_of_succ_lt h))

def acc2Of (xb : Fin 16 → Vec F S8x64x1024 .f32) (wb : Fin 16 → Vec F S8x64x128 .f32) (bb : Fin 16 → Vec F S1x128x1024 .f32)
    (gb betab : Fin 16 → Vec F S1x1024 .f32) : (n : ℕ) → n < 16 → FVec F S8x128 .f32
  | 0, h => k2_pay1 (k2_pay3 (xb ⟨0, h⟩) (wb ⟨0, h⟩) (bb ⟨0, h⟩)) (k2_pay4 (xb ⟨0, h⟩) (wb ⟨0, h⟩) (bb ⟨0, h⟩))
      (k2_pay5 (xb ⟨0, h⟩) (wb ⟨0, h⟩) (bb ⟨0, h⟩)) (gb ⟨0, h⟩) (betab ⟨0, h⟩) (k2_pay2 (F := F))
  | n + 1, h => k2_pay1 (k2_pay3 (xb ⟨n + 1, h⟩) (wb ⟨n + 1, h⟩) (bb ⟨n + 1, h⟩)) (k2_pay4 (xb ⟨n + 1, h⟩) (wb ⟨n + 1, h⟩) (bb ⟨n + 1, h⟩))
      (k2_pay5 (xb ⟨n + 1, h⟩) (wb ⟨n + 1, h⟩) (bb ⟨n + 1, h⟩)) (gb ⟨n + 1, h⟩) (betab ⟨n + 1, h⟩)
      (acc2Of xb wb bb gb betab n (Nat.lt_of_succ_lt h))

end Cert.KernelIdeal.Hand

end
-- ==== Proof.KI.Reg0.lean ====
import proofs.«422996_j60266981097886_3_alg».proof.Proof.Gen.KernelIdeal.Launch
import proofs.«422996_j60266981097886_3_alg».proof.Proof.Gen.KernelIdeal.Skeleton
import proofs.«422996_j60266981097886_3_alg».proof.Proof.Gen.KernelIdeal.Points
import proofs.«422996_j60266981097886_3_alg».proof.Proof.KI.Acc
import Idealize.ShloMosaic.Lib.Pipeline.FrameBody
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond0_0 (i : grid0.Coords) : Prop :=
  (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

abbrev cond0_1 (i : grid0.Coords) : Prop := k0_cond2 i = 1#1
theorem hcond0_1 : ∀ t : Fin cfg0.N, cond0_1 (grid0.coords t) ↔ t.val = 15 :=
  (by decide +kernel : ∀ t : Fin grid0.N, cond0_1 (grid0.coords t) ↔ t.val = 15)

theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel

abbrev ms0_0 (t : Fin cfg0.N) : Memref sig .tc .vmem S8x1024x64 .f32 := win0_0.stage (cfg0.slots t 0)
abbrev ms0_1 (t : Fin cfg0.N) : Memref sig .tc .vmem S8x64 .f32 := win0_1.stage (cfg0.slots t 1)
abbrev scM0_0 : Memref sig .tc .vmem S8x64 .f32 := Memref.whole cc0_scratch0

abbrev others0 (c : Dev nD) : sProp 𝕄 :=
  Pipeline.scopedRestBut (Ix := Unit) (Name := ℕ) (U := UR sig nD τ) (Lvl := ℕ) (Val := Elt F) spec0 c [cc0_scratch0]

-- The running maximum's buffer split off from what the region never touches.
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA; rw [Pipeline.scopedRest_split_of_list spec0 c [cc0_scratch0] (by decide) (by decide)]
  simp only [scM0_0, owns_whole]; try rfl

theorem hz0_2 : (![0, 0] : Fin 2 → Nat) = fun _ => 0 := funext fun a => by fin_cases a <;> rfl
theorem hz0_3 : (![0, 0, 0] : Fin 3 → Nat) = fun _ => 0 := funext fun a => by fin_cases a <;> rfl

-- A buffer whose newest store went through the whole-buffer rectangle reads as that store's payload.
theorem read_writes_whole {Val : EltTy → Type} [∀ e, Nonempty (Val e)] {S : Shape} {e : EltTy} {sg : RefSig} {κ : Kind} {sp : Space}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ fun y => ⟨_, .head _, View.mem_set_unit_zero h inb y⟩).trans
    (View.canon_cons_unit_zero h inb w L)

section Run

variable (c : Dev nD) (i : grid0.Coords) {arg1 : Memref sig .tc .vmem S8x1024x64 .f32} (harg1 : arg1.IsWhole)
  {arg2 arg3 : Memref sig .tc .vmem S8x64 .f32} (harg2 : arg2.IsWhole) (harg3 : arg3.IsWhole)
  (x0 : Vec F S8x1024x64 .f32) (xi1 xs0 : Vec F S8x64 .f32)

-- The body's triple on whole buffers: the block at x0 throughout, the output's buffer from xi1 to y1, the scratch from xs0 to ys.
def Run0 (y1 ys : Vec F S8x64 .f32) : Prop :=
  ∀ K : PUnit → sProp 𝕄,
    iprop(owns (c : Thread nD τ) arg1 fullShare x0 ∗ owns (c : Thread nD τ) arg2 fullShare xi1 ∗ owns (c : Thread nD τ) arg3 fullShare xs0
        ∗ (iprop(owns (c : Thread nD τ) arg1 fullShare x0 ∗ owns (c : Thread nD τ) arg2 fullShare y1 ∗ owns (c : Thread nD τ) arg3 fullShare ys) -∗ K ⟨⟩))
      ⊢ wp frame (wpE (defs₀ (F := F)) Variants.none c none) Set.univ (cc0__se_pool_kernel i arg1 harg1 arg2 harg2 arg3 harg3) K

-- The three ways through the body: reset and update at the first point, update alone at a middle point, update and copy at the last.
theorem run0 :
    (cond0_0 i → ¬cond0_1 i → Run0 c i harg1 harg2 harg3 x0 xi1 xs0 xi1 (k0_pay2 x0 (k0_pay1 (F := F))))
      ∧ (¬cond0_0 i → ¬cond0_1 i → Run0 c i harg1 harg2 harg3 x0 xi1 xs0 xi1 (k0_pay2 x0 xs0))
      ∧ (¬cond0_0 i → cond0_1 i → Run0 c i harg1 harg2 harg3 x0 xi1 xs0 (k0_pay2 x0 xs0) (k0_pay2 x0 xs0)) := by
  refine ⟨?_, ?_, ?_⟩ <;> (
    intro hc0 hc1 K
    simp only [cc0__se_pool_kernel_eq_skeleton]; unfold cc0__se_pool_kernel_skel owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc0 | exact hc1)
    sl_step
    iapply Hk
    isplitl [H0]
    · iexists _; isplitr; · ipureintro; exact harg1.read_unread _
      iexact H0
    isplitl [H1]
    · iexists _; isplitr; swap; · iexact H1
      ipureintro
      first
      | exact harg2.read_unread _
      | refine (read_writes_whole (S := S8x64) _ _ hz0_2 _ _ _).trans ?_
        sl_unfold_words
        simp only [View.readCov_unit_zero (S := S8x64) _ hz0_2, View.readAt_eq_ld, harg1.read_unread, harg3.read_unread,
          View.ld_unit_zero (S := S8x64) hz0_2, View.ld_unit_zero (S := S8x1024x64) hz0_3]
    iexists _; isplitr; swap; · iexact HS0
    ipureintro
    refine (read_writes_whole (S := S8x64) _ _ hz0_2 _ _ _).trans ?_
    sl_unfold_words
    simp only [View.readCov_unit_zero (S := S8x64) _ hz0_2, View.readAt_eq_ld, harg1.read_unread, harg3.read_unread,
      View.ld_unit_zero (S := S8x64) hz0_2, View.ld_unit_zero (S := S8x1024x64) hz0_3])

end Run

section Region

variable (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

theorem lt16_0 {n : ℕ} (h : n < cfg0.N) : n < 16 := Nat.lt_of_lt_of_eq h N_0

-- The running maximum after point n.
abbrev accAt0 (n : ℕ) (h : n < 16) : Vec F S8x64 .f32 :=
  acc0Of (fun t : Fin 16 => (iblk0 V c 0 t : Vec F S8x1024x64 .f32)) n h

theorem accAt0_zero (hn : 0 < cfg0.N) : accAt0 V c 0 (lt16_0 hn) = k0_pay2 (iblk0 V c 0 ⟨0, hn⟩) (k0_pay1 (F := F)) := rfl
theorem accAt0_succ (n : ℕ) (hn : n + 1 < cfg0.N) :
    accAt0 V c (n + 1) (lt16_0 hn) = k0_pay2 (iblk0 V c 0 ⟨n + 1, hn⟩) (accAt0 V c n (lt16_0 (Nat.lt_of_succ_lt hn))) := rfl

-- Before the first point the scratch holds anything; before point n + 1 the running maximum after point n.
def PhiS0 : (n : ℕ) → n ≤ cfg0.N → sProp 𝕄
  | 0, _ => Pipeline.ΦA spec0 c
  | n + 1, hn => iprop(iprop(owns (c : Thread nD τ) scM0_0 fullShare (accAt0 V c n (lt16_0 hn)) ∗ others0 c) ∗ (∃ r, prngReg c r))

theorem PhiS0_succ (n : ℕ) (hn : n + 1 ≤ cfg0.N) :
    PhiS0 V c (n + 1) hn
      = iprop(iprop(owns (c : Thread nD τ) scM0_0 fullShare (accAt0 V c n (lt16_0 hn)) ∗ others0 c) ∗ (∃ r, prngReg c r)) := rfl

def dat0 : Dat τ (Elt F) Unit ℕ (UR sig nD τ) ℕ cfg0 c where
  A w := V c (Pipeline.arrRef spec0 w)
  after w t := match w with
    | ⟨0, _⟩ => iblk0 V c 0 t
    | ⟨1, _⟩ => accAt0 V c 15 (by decide)
  Φ t := PhiS0 V c t.val (Nat.le_of_lt_succ t.isLt)
  q _ := fullShare
  owed _ := 0

theorem dat0_A (w : Fin cfg0.W) : (dat0 V c).A w = V c (Pipeline.arrRef spec0 w) := rfl
theorem dat0_q (w : Fin cfg0.W) : (dat0 V c).q w = fullShare := rfl
theorem dat0_owed (t : Fin (cfg0.N + 1)) : (dat0 V c).owed t = 0 := rfl

theorem after0_0 (t : Fin cfg0.N) : (dat0 V c).after 0 t = iblk0 V c 0 t := rfl
theorem after0_1 (t : Fin cfg0.N) : (dat0 V c).after 1 t = accAt0 V c 15 (by decide) := rfl

theorem before0_0 (t : Fin cfg0.N) (d) : (dat0 V c).before 0 t d = iblk0 V c 0 t :=
  ((dat0 V c).before_fetched 0 t (fetch0_0 t) d).trans (by unfold Dat.fetched Dat.blockOf iblk0; rw [dat0_A]; try rfl)

-- The body at any point: the scratch goes from the running maximum before the point (anything, at the first) to the one after; the output's buffer is written at the last point only.
theorem sound_body0 (t : Fin cfg0.N) :
    iprop((dat0 V c).Φ t.castSucc ∗ (dat0 V c).owesAt () t.castSucc
        ∗ (∃ d, owns (c : Thread nD τ) (ms0_0 t) fullShare ((dat0 V c).before 0 t d))
        ∗ (∃ d, owns (c : Thread nD τ) (ms0_1 t) fullShare ((dat0 V c).before 1 t d)))
      ⊢ wp frame (wpE (defs₀ (F := F)) Variants.none c none) Set.univ (bodyAt0 t) fun _ =>
        iprop((dat0 V c).Φ t.succ ∗ (dat0 V c).owesAt () t.succ ∗ (dat0 V c).leavesExact 0 t ∗ (dat0 V c).leavesExact 1 t) := by
  unfold bodyAt0
  simp only [before0_0]
  rw [show (dat0 V c).owesAt () t.succ = (dat0 V c).owesAt () t.castSucc from rfl]
  rw [show (dat0 V c).leavesExact 0 t = owns (c : Thread nD τ) (ms0_0 t) fullShare ((dat0 V c).after 0 t) from by
    unfold Dat.leavesExact; rw [liveAt0_0 t], after0_0]
  obtain ⟨n, hn⟩ := t
  cases n with
  | zero =>
    have hc0 : cond0_0 (grid0.coords ⟨0, hn⟩) := (hcond0_0 ⟨0, hn⟩).mpr rfl
    have hc1 : ¬cond0_1 (grid0.coords ⟨0, hn⟩) := fun h => absurd ((hcond0_1 ⟨0, hn⟩).mp h) (show ¬((0 : ℕ) = 15) from by decide)
    rw [Dat.leavesExact_idle (dat0 V c) 1 ⟨0, hn⟩ (idleAt0_1 ⟨0, hn⟩ hc1) (noFlush0_1 ⟨0, hn⟩ hc1)]
    rw [show (dat0 V c).Φ (Fin.castSucc ⟨0, hn⟩) = Pipeline.ΦA spec0 c from rfl, PhiA0_eq,
      show (dat0 V c).Φ (Fin.succ ⟨0, hn⟩) = PhiS0 V c (0 + 1) hn from rfl, PhiS0_succ, accAt0_zero]
    iintro ⟨⟨⟨⟨%ds, HS0⟩, Hr⟩, Hg⟩, Ho, ⟨%d0, H0⟩, ⟨%d1, H1⟩⟩
    iapply ((run0 c _ _ _ _ _ _ ds).1 hc0 hc1 _)
    isplitl [H0]; · iexact H0
    isplitl [H1]; · iexact H1
    isplitl [HS0]; · iexact HS0
    iintro ⟨H0, H1, HS0⟩
    iframe HS0 Hr Hg Ho H0
    iexists _; iexact H1
  | succ n =>
    have hc0 : ¬cond0_0 (grid0.coords ⟨n + 1, hn⟩) := fun h => absurd ((hcond0_0 ⟨n + 1, hn⟩).mp h) (Nat.succ_ne_zero n)
    rw [show (dat0 V c).Φ (Fin.castSucc ⟨n + 1, hn⟩) = PhiS0 V c (n + 1) (Nat.le_of_lt hn) from rfl, PhiS0_succ,
      show (dat0 V c).Φ (Fin.succ ⟨n + 1, hn⟩) = PhiS0 V c (n + 1 + 1) hn from rfl, PhiS0_succ]
    by_cases h1 : n + 1 = 15
    · have hc1 : cond0_1 (grid0.coords ⟨n + 1, hn⟩) := (hcond0_1 ⟨n + 1, hn⟩).mpr h1
      have e : accAt0 V c 15 (by decide) = accAt0 V c (n + 1) (lt16_0 hn) := by
        obtain rfl : n = 14 := by omega
        rfl
      rw [show (dat0 V c).leavesExact 1 ⟨n + 1, hn⟩ = owns (c : Thread nD τ) (ms0_1 ⟨n + 1, hn⟩) fullShare ((dat0 V c).after 1 ⟨n + 1, hn⟩) from by
        unfold Dat.leavesExact; rw [liveAt0_1 ⟨n + 1, hn⟩ hc1], after0_1, e, accAt0_succ]
      iintro ⟨⟨⟨HS0, Hr⟩, Hg⟩, Ho, ⟨%d0, H0⟩, ⟨%d1, H1⟩⟩
      iapply ((run0 c _ _ _ _ _ _ _).2.2 hc0 hc1 _)
      isplitl [H0]; · iexact H0
      isplitl [H1]; · iexact H1
      isplitl [HS0]; · iexact HS0
      iintro ⟨H0, H1, HS0⟩
      iframe HS0 Hr Hg Ho H0
      iexact H1
    · have hc1 : ¬cond0_1 (grid0.coords ⟨n + 1, hn⟩) := fun h => h1 ((hcond0_1 ⟨n + 1, hn⟩).mp h)
      rw [Dat.leavesExact_idle (dat0 V c) 1 ⟨n + 1, hn⟩ (idleAt0_1 ⟨n + 1, hn⟩ hc1) (noFlush0_1 ⟨n + 1, hn⟩ hc1), accAt0_succ]
      iintro ⟨⟨⟨HS0, Hr⟩, Hg⟩, Ho, ⟨%d0, H0⟩, ⟨%d1, H1⟩⟩
      iapply ((run0 c _ _ _ _ _ _ _).2.1 hc0 hc1 _)
      isplitl [H0]; · iexact H0
      isplitl [H1]; · iexact H1
      isplitl [HS0]; · iexact HS0
      iintro ⟨H0, H1, HS0⟩
      iframe HS0 Hr Hg Ho H0
      iexists _; iexact H1

theorem body0 : BodyObligation (dat0 (F := F) V c) (defs₀ (F := F)) Variants.none () Set.univ := fun t => by
  rw [bigSep_W0, bigSep_W0]
  exact sound_body0 V c t

theorem hin0 : Pipeline.ΦA spec0 c ⊢ (dat0 V c).Φ 0 := .rfl

-- After the last point what the scratch holds is forgotten.
theorem hout0 : (dat0 V c).Φ (Fin.last cfg0.N) ⊢ Pipeline.ΦA spec0 c := by
  rw [show (dat0 V c).Φ (Fin.last cfg0.N) = PhiS0 V c (15 + 1) (by decide) from rfl, PhiS0_succ, PhiA0_eq]
  iintro ⟨⟨HS0, Hr⟩, Hg⟩
  iframe Hr Hg
  iexists _; iexact HS0

theorem idx0_1 : ∀ a, win0_1.index t0_15 a = 0 ∧ win0_1.xsize (grid0.coords t0_15) a = main_v0.ty.shape.size a := by decide +kernel

-- The output's one block is the whole array.
theorem flushed0_eq (t : Fin cfg0.N) (hf : (cfg0.win 1).flush t = true) :
    (dat0 V c).flushed 1 t = ((cfg0.win 1).blk t).view.read (Elt F) (accAt0 V c 15 (by decide) : Buf (Elt F) ((c : Thread nD τ).loc main_v0)) := by
  obtain rfl : t = t0_15 := Fin.ext (show t.val = 15 by have := (flush0_1 t).mp hf; have := lt16_0 t.isLt; omega)
  have hz' : (fun a => win0_1.index t0_15 a * main_v0.ty.shape.size a) = fun _ => 0 := funext fun a => by rw [(idx0_1 a).1, Nat.zero_mul]
  exact (Memref.read_access_unit_zero (Elt F) main_v0 hz' (fun a => by rw [congrFun hz' a]; simp) _).symm

-- So the output array ends at the running maximum after the last point.
theorem out0_val :
    (dat0 V c).arrAt 1 cfg0.N = acc0Of (fun t : Fin 16 => (iblk0 V c 0 t : Vec F S8x1024x64 .f32)) 15 (by decide) :=
  (dat0 V c).arrAt_eq_of_cover 1 _ (flushed0_eq V c) fun i =>
    ⟨t0_15, (flush0_1 t0_15).mpr rfl, by
      show i ∈ ((View.whole main_v0).slice (win0_1.rect t0_15)).set
      rw [View.set_slice_whole, Rect.mem_set_unit]
      intro a
      show win0_1.index t0_15 a * win0_1.size a ≤ (i a : Nat) ∧ (i a : Nat) < win0_1.index t0_15 a * win0_1.size a + win0_1.xsize (grid0.coords t0_15) a
      rw [(idx0_1 a).1, (idx0_1 a).2, Nat.zero_mul, Nat.zero_add]
      exact ⟨Nat.zero_le _, (i a).isLt⟩⟩

end Region

end Cert.KernelIdeal.Hand

end
-- ==== Proof.KI.Reg1.lean ====
import proofs.«422996_j60266981097886_3_alg».proof.Proof.Gen.KernelIdeal.Launch
import proofs.«422996_j60266981097886_3_alg».proof.Proof.Gen.KernelIdeal.Skeleton
import proofs.«422996_j60266981097886_3_alg».proof.Proof.Gen.KernelIdeal.Points
import proofs.«422996_j60266981097886_3_alg».proof.Proof.Stages
import Idealize.ShloMosaic.Lib.Pipeline.FrameBody
import Idealize.ShloMosaic.Lib.Pipeline.Value
import Idealize.ShloMosaic.Lib.ValueIdx
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

/-- The block of window w's array at grid point t, the array read as the region finds it. -/
def blk1 (w : Fin cfg1.W) (t : Fin cfg1.N) :=
  ((cfg1.win w).blk t).view.read (Elt F) (V c (Pipeline.arrRef spec1 w))

theorem zeros3 : (![0, 0, 0] : Fin 3 → Nat) = fun _ => 0 := by decide
theorem zeros2 : (![0, 0] : Fin 2 → Nat) = fun _ => 0 := by decide

/-- The body keeps its two inputs x and a and leaves their payload in the output, whatever the three held besides. -/
theorem kernel1_sound {i arg1 harg1 arg2 harg2 arg3 harg3 x a} {P Q : sProp 𝕄} {D E : Type} {X1 X3 : D → _} {X2 : E → _}
    (h1 : ∀ d, X1 d = x) (h2 : ∀ d, X2 d = a) :
    iprop(P ∗ Q ∗ (∃ d, owns c arg1 fullShare (X1 d)) ∗ (∃ d, owns c arg2 fullShare (X2 d)) ∗ (∃ d, owns c arg3 fullShare (X3 d)))
      ⊢ wp frame (wpE (defs₀ (F := F)) Variants.none c none) Set.univ (cc1__gate_residual_kernel i arg1 harg1 arg2 harg2 arg3 harg3)
          fun _ => iprop(P ∗ Q ∗ owns c arg1 fullShare x ∗ owns c arg2 fullShare a ∗ owns c arg3 fullShare (k1_pay1 x a)) := by
  simp only [h1, h2, cc1__gate_residual_kernel_eq_skeleton]; unfold cc1__gate_residual_kernel_skel owns
  iintro ⟨HP, HQ, ⟨%_, %f1, %hf1, H1⟩, ⟨%_, %f2, %hf2, H2⟩, ⟨%_, %f3, -, H3⟩⟩
  subst hf1; subst hf2
  sl_exec
  sl_step
  iframe HP HQ
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (View.cover_of_tiled _ S8x1024x64.size (by rfl)), View.canon_unit_zero zeros3,
    View.readAt_eq_ld, View.readAt_eq_ld, View.ld_unit_zero zeros3, View.ld_unit_zero zeros2]

/-- At point t the output's block is the payload x * a + x of the two inputs' blocks. -/
def dat1 : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => k1_pay1 (blk1 V c 0 t) (blk1 V c 1 t)
  Φ _ := Pipeline.ΦA spec1 c
  q _ := fullShare
  owed _ := 0

theorem dat1_A (w : Fin cfg1.W) : (dat1 V c).A w = V c (Pipeline.arrRef spec1 w) := rfl
theorem dat1_q (w) : (dat1 V c).q w = fullShare := rfl
theorem dat1_owed (t) : (dat1 V c).owed t = 0 := rfl

/-- The body's triple, at every grid point. -/
theorem body1 : BodyObligation (dat1 (F := F) V c) (defs₀ (F := F)) Variants.none () Set.univ := fun t => by
  rw [bigSep_W1, bigSep_W1]
  show _ ⊢ wp _ _ _ (bodyAt1 t) _
  refine kernel1_sound c ?_ ?_ <;>
    exact fun _ => (dat1 V c).before_in_eq_fetched _ rfl (fun _ => rfl) (fun _ _ _ => rfl) (fun _ => rfl) t _

theorem hin1 : Pipeline.ΦA spec1 c ⊢ (dat1 (F := F) V c).Φ 0 := .rfl
theorem hout1 : (dat1 (F := F) V c).Φ (Fin.last cfg1.N) ⊢ Pipeline.ΦA spec1 c := .rfl

theorem idx1 : ∀ t : Fin cfg1.N,
    win1_1.index t (0 : Fin 2) = 0 ∧ win1_1.index t (1 : Fin 2) = 0
    ∧ win1_2.index t (0 : Fin 3) = 0 ∧ win1_2.index t (1 : Fin 3) = t.val ∧ win1_2.index t (2 : Fin 3) = 0 :=
  (by decide +kernel : ∀ t : Fin grid1.N, _)

/-- The output array ends at x * a + x: point t writes back its block of it, and row r lies in the block of point r / 1024. -/
theorem out1_val : (dat1 V c).arrAt 2 cfg1.N = Cert.Stages.gateRes (V c main_arg0) (V c main_v20) := by
  refine (dat1 V c).arrAt_eq_of_cover 2 _ (fun t _ => funext fun j => ?_) fun (i : S8x16384x64.Idx) => ?_
  · obtain ⟨e3, e4, e5, -, e7⟩ := idx1 t
    let k' : S8x1x64.Idx := ValueIdx.ix3 (j 0) 0 (j 2)
    let k : S8x64.Idx := ValueIdx.ix2 (j 0) (j 2)
    refine congrArg₂ (fun u g => FloatOps.addf (FloatOps.mulf u g) u) rfl ?_
    rw [shapeCast_self, broadcastTo_apply _ _ _ k', shapeCast_apply _ _ k' k, broadcastInDim_apply _ _ _ _ k',
      broadcastInDim_apply _ _ _ k' k]
    · exact congrArg (V c main_v20) (funext fun a => Fin.ext (match a with
        | ⟨0, _⟩ => win1_1.rect_emb_val_of_index_zero t 0 e3 k
        | ⟨1, _⟩ => win1_1.rect_emb_val_of_index_zero t 1 e4 k))
    · intro a; fin_cases a <;> rfl
    · exact fun
        | ⟨0, _⟩ => (win1_2.rect_emb_val_of_index_zero t 0 e5 j).symm
        | ⟨1, _⟩ => rfl
        | ⟨2, _⟩ => (win1_2.rect_emb_val_of_index_zero t 2 e7 j).symm
    · rw [Shape.rowMajor_val_two, Shape.rowMajor_val_three]
      exact congrArg (· * 64 + (j 2).val) (Nat.mul_one _).symm
    · intro a; fin_cases a <;> rfl
  · let t : Fin cfg1.N := ⟨(i 1).val / 1024, Nat.div_lt_of_lt_mul (i 1).isLt⟩
    let y : S8x1024x64.Idx := ValueIdx.ix3 (i 0) ⟨(i 1).val % 1024, Nat.mod_lt _ (by decide)⟩ (i 2)
    obtain ⟨-, -, e5, e6, e7⟩ := idx1 t
    have e : ((cfg1.win 2).blk t).view.emb y = i := funext fun a => Fin.ext (match a with
      | ⟨0, _⟩ => win1_2.rect_emb_val_of_index_zero t 0 e5 y
      | ⟨1, _⟩ => (win1_2.rect_emb_val t y 1).trans (e6 ▸ Nat.div_add_mod' (i 1).val 1024)
      | ⟨2, _⟩ => win1_2.rect_emb_val_of_index_zero t 2 e7 y)
    exact ⟨t, flush1_2 t, e ▸ View.emb_mem_set _ y⟩

end Cert.KernelIdeal.Hand

end
-- ==== Proof.KI.Reg2.lean ====
import proofs.«422996_j60266981097886_3_alg».proof.Proof.Gen.KernelIdeal.Launch
import proofs.«422996_j60266981097886_3_alg».proof.Proof.Gen.KernelIdeal.Skeleton
import proofs.«422996_j60266981097886_3_alg».proof.Proof.Gen.KernelIdeal.Points
import proofs.«422996_j60266981097886_3_alg».proof.Proof.KI.Acc
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 16 = 0 :=
  (by decide +kernel : ∀ t : Fin grid2.N, cond2_0 (grid2.coords t) ↔ t.val % 16 = 0)

abbrev cond2_1 (i : grid2.Coords) : Prop := k2_cond2 i = 1#1
theorem hcond2_1 : ∀ t : Fin cfg2.N, cond2_1 (grid2.coords t) ↔ t.val % 16 = 15 :=
  (by decide +kernel : ∀ t : Fin grid2.N, cond2_1 (grid2.coords t) ↔ t.val % 16 = 15)

theorem off2_5 : ∀ t : Fin cfg2.N, ¬cond2_1 (grid2.coords t) → cfg2.idle 5 (grid2.coords t) = true ∧ (cfg2.win 5).flush t = false := by decide +kernel
theorem liveAt2_5 : ∀ t : Fin cfg2.N, cond2_1 (grid2.coords t) → cfg2.idle 5 (grid2.coords t) = false := by decide +kernel

abbrev step2 (x0 : Vec F S8x64x1024 .f32) (x1 : Vec F S8x64x128 .f32) (x2 : Vec F S1x128x1024 .f32) (x3 x4 : Vec F S1x1024 .f32)
    (acc : Vec F S8x128 .f32) : Vec F S8x128 .f32 :=
  k2_pay1 (k2_pay3 x0 x1 x2) (k2_pay4 x0 x1 x2) (k2_pay5 x0 x1 x2) x3 x4 acc

theorem zero2_r2 : (![0, 0] : Fin 2 → Nat) = fun _ => 0 := funext fun a => by fin_cases a <;> rfl
theorem zero2_r3 : (![0, 0, 0] : Fin 3 → Nat) = fun _ => 0 := funext fun a => by fin_cases a <;> rfl

-- Reading is a bijection on a whole view, so owning it at x fixes its contents.
theorem owns_unread {sp : Space} {S : Shape} {e : EltTy} (c : Dev nD) (m : Memref sig .tc sp S e) (h : m.IsWhole) (x : S.Idx → Elt F e) :
    (owns (c : Thread nD τ) m fullShare x : sProp 𝕄) = (m.view.loc (c : Thread nD τ) ↦[m.view.set]{fullShare} h.unread x) := by
  unfold owns
  refine BI.equiv_iff.mp ⟨(?_ : (_ : sProp 𝕄) ⊢ _), (?_ : (_ : sProp 𝕄) ⊢ _)⟩
  · iintro ⟨%f, %hf, H⟩; obtain rfl := h.eq_unread hf; iexact H
  · iintro H; iexists _; isplitr; · ipureintro; exact h.read_unread _
    iexact H

section Run
variable (c : Dev nD) (i : grid2.Coords) (arg1 : Memref sig .tc .vmem S8x64x1024 .f32) (harg1 : arg1.IsWhole) (arg2 : Memref sig .tc .vmem S8x64x128 .f32) (harg2 : arg2.IsWhole) (arg3 : Memref sig .tc .vmem S1x128x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128 .f32) (harg6 : arg6.IsWhole) (arg7 : Memref sig .tc .vmem S8x128 .f32) (harg7 : arg7.IsWhole)
  (x0 : Vec F S8x64x1024 .f32) (x1 : Vec F S8x64x128 .f32) (x2 : Vec F S1x128x1024 .f32) (x3 x4 : Vec F S1x1024 .f32)

-- The body's specification: the inputs are unchanged; Q6 and Q7 describe the output block and the running maximum afterwards.
def Run2 (xi5 xs0 : Vec F S8x128 .f32) (Q6 Q7 : sProp 𝕄) : Prop :=
  ∀ (E : Set ℕ) (K : PUnit → sProp 𝕄),
    iprop((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ Q6 ∗ Q7) -∗ K ⟨⟩))
      ⊢ wp frame (wpE (defs₀ (F := F)) Variants.none c none) E (cc2__gcn_bn_pool_kernel i arg1 harg1 arg2 harg2 arg3 harg3 arg4 harg4 arg5 harg5 arg6 harg6 arg7 harg7) K

set_option maxHeartbeats 1000000 in
-- At the first point the fill with -∞ is read back by the update: one step from -∞.
theorem run2_A (hc0 : cond2_0 i) (hc1 : ¬cond2_1 i) (xi5 xs0 : Vec F S8x128 .f32) :
    Run2 c i arg1 harg1 arg2 harg2 arg3 harg3 arg4 harg4 arg5 harg5 arg6 harg6 arg7 harg7 x0 x1 x2 x3 x4 xi5 xs0 (owns (c : Thread nD τ) arg6 fullShare xi5) (owns (c : Thread nD τ) arg7 fullShare (step2 x0 x1 x2 x3 x4 (k2_pay2 (F := F)))) := fun E K => by
  simp only [cc2__gcn_bn_pool_kernel_eq_skeleton]; unfold cc2__gcn_bn_pool_kernel_skel
  simp only [k2_part1_eq_skeleton]
  rw [owns_unread c _ harg1, owns_unread c _ harg2, owns_unread c _ harg3, owns_unread c _ harg4, owns_unread c _ harg5, owns_unread c _ harg6, owns_unread c _ harg7 xs0]
  iintro ⟨⟨H0, H1, H2, H3, H4, H5, HS0⟩, Hk⟩
  sl_exec (disch := first | exact hc0 | exact hc1)
  sl_step
  iapply Hk
  ihave HS := (owns_intro _ arg7 fullShare _) $$ HS0
  rw [View.read_writes_eq_canon _ _ _ (View.cover_of_tiledL _ S8x128.size (by sl_kernel_rfl))]
  sl_unfold_words
  rw [View.canon_cons_unit_zero (S := S8x128) zero2_r2]
  simp only [View.readAt_eq_ld, Memref.IsWhole.read_unread, View.readCov_unit_zero (S := S8x128) _ zero2_r2,
    View.ld_unit_zero (S := S1x1024) zero2_r2, View.ld_unit_zero (S := S8x64x1024) zero2_r3,
    View.ld_unit_zero (S := S8x64x128) zero2_r3, View.ld_unit_zero (S := S1x128x1024) zero2_r3]
  sl_close

set_option maxHeartbeats 1000000 in
-- Between the ends: one step from the maximum so far.
theorem run2_B (hc0 : ¬cond2_0 i) (hc1 : ¬cond2_1 i) (xi5 xs0 : Vec F S8x128 .f32) :
    Run2 c i arg1 harg1 arg2 harg2 arg3 harg3 arg4 harg4 arg5 harg5 arg6 harg6 arg7 harg7 x0 x1 x2 x3 x4 xi5 xs0 (owns (c : Thread nD τ) arg6 fullShare xi5) (owns (c : Thread nD τ) arg7 fullShare (step2 x0 x1 x2 x3 x4 xs0)) := fun E K => by
  simp only [cc2__gcn_bn_pool_kernel_eq_skeleton]; unfold cc2__gcn_bn_pool_kernel_skel
  simp only [k2_part1_eq_skeleton]
  rw [owns_unread c _ harg1, owns_unread c _ harg2, owns_unread c _ harg3, owns_unread c _ harg4, owns_unread c _ harg5, owns_unread c _ harg6, owns_unread c _ harg7 xs0]
  iintro ⟨⟨H0, H1, H2, H3, H4, H5, HS0⟩, Hk⟩
  sl_exec (disch := first | exact hc0 | exact hc1)
  sl_step
  iapply Hk
  ihave HS := (owns_intro _ arg7 fullShare _) $$ HS0
  rw [View.read_writes_eq_canon _ _ _ (View.cover_of_tiledL _ S8x128.size (by sl_kernel_rfl))]
  sl_unfold_words
  rw [View.canon_unit_zero zero2_r2]
  simp only [View.readAt_eq_ld, Memref.IsWhole.read_unread,
    View.ld_unit_zero (S := S8x128) zero2_r2, View.ld_unit_zero (S := S1x1024) zero2_r2, View.ld_unit_zero (S := S8x64x1024) zero2_r3,
    View.ld_unit_zero (S := S8x64x128) zero2_r3, View.ld_unit_zero (S := S1x128x1024) zero2_r3]
  sl_close

set_option maxHeartbeats 1000000 in
-- At the last point: the same step, and the result is also the output block.
theorem run2_C (hc0 : ¬cond2_0 i) (hc1 : cond2_1 i) (xi5 xs0 : Vec F S8x128 .f32) :
    Run2 c i arg1 harg1 arg2 harg2 arg3 harg3 arg4 harg4 arg5 harg5 arg6 harg6 arg7 harg7 x0 x1 x2 x3 x4 xi5 xs0 (owns (c : Thread nD τ) arg6 fullShare (step2 x0 x1 x2 x3 x4 xs0)) (owns (c : Thread nD τ) arg7 fullShare (step2 x0 x1 x2 x3 x4 xs0)) := fun E K => by
  simp only [cc2__gcn_bn_pool_kernel_eq_skeleton]; unfold cc2__gcn_bn_pool_kernel_skel
  simp only [k2_part1_eq_skeleton]
  rw [owns_unread c _ harg1, owns_unread c _ harg2, owns_unread c _ harg3, owns_unread c _ harg4, owns_unread c _ harg5, owns_unread c _ harg6 xi5, owns_unread c _ harg7 xs0]
  iintro ⟨⟨H0, H1, H2, H3, H4, H5, HS0⟩, Hk⟩
  sl_exec (disch := first | exact hc0 | exact hc1)
  sl_step
  iapply Hk
  ihave HS := (owns_intro _ arg7 fullShare _) $$ HS0
  ihave HO := (owns_intro _ arg6 fullShare _) $$ H5
  rw [View.read_writes_eq_canon _ _ _ (View.cover_of_tiledL _ S8x128.size (by sl_kernel_rfl)),
    View.read_writes_eq_canon _ _ _ (View.cover_of_tiledL _ S8x128.size (by sl_kernel_rfl))]
  sl_unfold_words
  simp only [View.canon_unit_zero (S := S8x128) zero2_r2, View.readCov_unit_zero (S := S8x128) _ zero2_r2, View.readAt_eq_ld, Memref.IsWhole.read_unread,
    View.ld_unit_zero (S := S8x128) zero2_r2, View.ld_unit_zero (S := S1x1024) zero2_r2, View.ld_unit_zero (S := S8x64x1024) zero2_r3,
    View.ld_unit_zero (S := S8x64x128) zero2_r3, View.ld_unit_zero (S := S1x128x1024) zero2_r3]
  sl_close

end Run

section Region
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev ms2_0 (t : Fin cfg2.N) : Memref sig .tc .vmem S8x64x1024 .f32 := win2_0.stage (cfg2.slots t 0)
abbrev ms2_1 (t : Fin cfg2.N) : Memref sig .tc .vmem S8x64x128 .f32 := win2_1.stage (cfg2.slots t 1)
abbrev ms2_2 (t : Fin cfg2.N) : Memref sig .tc .vmem S1x128x1024 .f32 := win2_2.stage (cfg2.slots t 2)
abbrev ms2_3 (t : Fin cfg2.N) : Memref sig .tc .vmem S1x1024 .f32 := win2_3.stage (cfg2.slots t 3)
abbrev ms2_4 (t : Fin cfg2.N) : Memref sig .tc .vmem S1x1024 .f32 := win2_4.stage (cfg2.slots t 4)
abbrev ms2_5 (t : Fin cfg2.N) : Memref sig .tc .vmem S8x128 .f32 := win2_5.stage (cfg2.slots t 5)

abbrev scM2_0 : Memref sig .tc .vmem S8x128 .f32 := Memref.whole cc2_scratch0

abbrev pt2 (k : Fin 16) : Fin cfg2.N := Fin.cast N_2.symm k

def sAt2 (c : Dev nD) (n : ℕ) (hn : n < 16) : Vec F S8x128 .f32 :=
  acc2Of (fun k => iblk2 V c 0 (pt2 k)) (fun k => iblk2 V c 1 (pt2 k)) (fun k => iblk2 V c 2 (pt2 k))
    (fun k => iblk2 V c 3 (pt2 k)) (fun k => iblk2 V c 4 (pt2 k)) n hn

theorem sAt2_first (c : Dev nD) (t : Fin cfg2.N) (hz : t.val = 0) :
    sAt2 V c t.val (lt_of_lt_of_eq t.isLt N_2) = step2 (iblk2 V c 0 t) (iblk2 V c 1 t) (iblk2 V c 2 t) (iblk2 V c 3 t) (iblk2 V c 4 t) (k2_pay2 (F := F)) := by
  obtain ⟨n, hn⟩ := t
  cases n with
  | zero => rfl
  | succ n => exact absurd hz (Nat.succ_ne_zero n)

theorem sAt2_later (c : Dev nD) (t : Fin cfg2.N) (hz : t.val ≠ 0) :
    sAt2 V c t.val (lt_of_lt_of_eq t.isLt N_2)
      = step2 (iblk2 V c 0 t) (iblk2 V c 1 t) (iblk2 V c 2 t) (iblk2 V c 3 t) (iblk2 V c 4 t) (sAt2 V c (t.val - 1) (lt_of_le_of_lt (Nat.sub_le _ _) (lt_of_lt_of_eq t.isLt N_2))) := by
  obtain ⟨n, hn⟩ := t
  cases n with
  | zero => exact absurd rfl hz
  | succ n => rfl

abbrev Oth2 (c : Dev nD) : sProp 𝕄 := Pipeline.scopedRestBut spec2 c [cc2_scratch0]

-- The region's running maximum, split off from the resources it never touches.
theorem PhiA2_eq (c : Dev nD) :
    (Pipeline.ΦA spec2 c : sProp 𝕄)
      = iprop(((∃ d, owns (c : Thread nD τ) scM2_0 fullShare d) ∗ Oth2 c) ∗ (∃ r, prngReg c r)) := by
  unfold Pipeline.ΦA; rw [Pipeline.scopedRest_split_of_list spec2 c [cc2_scratch0] (by decide) (by decide)]
  simp only [scM2_0, owns_whole] <;> rfl

def PhiS2 (c : Dev nD) : (n : ℕ) → n ≤ cfg2.N → sProp 𝕄
  | 0, _ => Pipeline.ΦA spec2 c
  | n + 1, hn => iprop((owns (c : Thread nD τ) scM2_0 fullShare (sAt2 V c n (lt_of_lt_of_eq (Nat.lt_of_succ_le hn) N_2)) ∗ Oth2 c) ∗ (∃ r, prngReg c r))

theorem PhiS2_zero (c : Dev nD) (n : ℕ) (h : n ≤ cfg2.N) (hz : n = 0) : PhiS2 V c n h = Pipeline.ΦA spec2 c := by
  subst hz; rfl

theorem PhiS2_pos (c : Dev nD) (n : ℕ) (h : n ≤ cfg2.N) (hz : n ≠ 0) :
    PhiS2 V c n h = iprop((owns (c : Thread nD τ) scM2_0 fullShare (sAt2 V c (n - 1) (lt_of_lt_of_eq (lt_of_lt_of_le (Nat.sub_lt (Nat.pos_of_ne_zero hz) Nat.one_pos) h) N_2)) ∗ Oth2 c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => sAt2 V c t.val (lt_of_lt_of_eq t.isLt N_2)
  Φ t := PhiS2 V c t.val (Nat.le_of_lt_succ t.isLt)
  q _ := fullShare
  owed _ := 0

theorem dat2_A (c : Dev nD) (w : Fin cfg2.W) : (dat2 V c).A w = V c (Pipeline.arrRef spec2 w) := by dsimp only [dat2]
theorem dat2_q (c : Dev nD) (w : Fin cfg2.W) : (dat2 V c).q w = fullShare := by dsimp only [dat2]
theorem dat2_owed (c : Dev nD) (t : Fin (cfg2.N + 1)) : (dat2 V c).owed t = 0 := by dsimp only [dat2]

theorem after2_5 (c : Dev nD) (t : Fin cfg2.N) : (dat2 V c).after 5 t = sAt2 V c t.val (lt_of_lt_of_eq t.isLt N_2) := by dsimp only [dat2]

-- The inputs' blocks at point t.
theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl

def bodyPre2 (c : Dev nD) (t : Fin cfg2.N) : sProp 𝕄 :=
  iprop(PhiS2 V c t.val (Nat.le_of_lt t.isLt) ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop(((owns (c : Thread nD τ) scM2_0 fullShare (sAt2 V c t.val (lt_of_lt_of_eq t.isLt N_2)) ∗ Oth2 c) ∗ (∃ r, prngReg c r)) ∗ (dat2 V c).owesAt () t.castSucc
    ∗ owns (c : Thread nD τ) (ms2_0 t) fullShare (iblk2 V c 0 t)
    ∗ owns (c : Thread nD τ) (ms2_1 t) fullShare (iblk2 V c 1 t)
    ∗ owns (c : Thread nD τ) (ms2_2 t) fullShare (iblk2 V c 2 t)
    ∗ owns (c : Thread nD τ) (ms2_3 t) fullShare (iblk2 V c 3 t)
    ∗ owns (c : Thread nD τ) (ms2_4 t) fullShare (iblk2 V c 4 t)
    ∗ (dat2 V c).leavesExact 5 t)

set_option maxHeartbeats 4800000 in
-- By cases on the point (first, last, between): the invariant's running maximum advances by one step.
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  have hN : t.val < 16 := lt_of_lt_of_eq t.isLt N_2
  by_cases h0 : cond2_0 (grid2.coords t)
  · have hz : t.val = 0 := by have := (hcond2_0 t).mp h0; omega
    have h1 : ¬cond2_1 (grid2.coords t) := fun h => by have := (hcond2_1 t).mp h; omega
    rw [Dat.leavesExact_idle (dat2 V c) 5 t (off2_5 t h1).1 (off2_5 t h1).2]
    rw [PhiS2_zero V c _ _ hz, PhiA2_eq, sAt2_first V c t hz]
    iintro ⟨⟨⟨⟨%ds, HS0⟩, HO⟩, ⟨%r, Hg⟩⟩, ⟨%Wo, %hWo, Ho⟩, ⟨%d0, H0⟩, ⟨%d1, H1⟩, ⟨%d2, H2⟩, ⟨%d3, H3⟩, ⟨%d4, H4⟩, ⟨%d5, H5⟩⟩
    iapply (run2_A c _ _ _ _ _ _ _ _ _ _ _ _ _ _ _ _ _ _ _ _ h0 h1 _ _ Set.univ _)
    isplitl [H0 H1 H2 H3 H4 H5 HS0]; · sl_close
    iintro ⟨H0, H1, H2, H3, H4, H5, HS⟩
    sl_close
  · have hz : t.val ≠ 0 := fun h => h0 ((hcond2_0 t).mpr (by rw [h]))
    rw [PhiS2_pos V c _ _ hz, sAt2_later V c t hz]
    by_cases h1 : cond2_1 (grid2.coords t)
    · rw [show (dat2 V c).leavesExact 5 t = owns (c : Thread nD τ) (ms2_5 t) fullShare ((dat2 V c).after 5 t) from by
        unfold Dat.leavesExact; rw [liveAt2_5 t h1], after2_5, sAt2_later V c t hz]
      iintro ⟨⟨⟨HS0, HO⟩, ⟨%r, Hg⟩⟩, ⟨%Wo, %hWo, Ho⟩, ⟨%d0, H0⟩, ⟨%d1, H1⟩, ⟨%d2, H2⟩, ⟨%d3, H3⟩, ⟨%d4, H4⟩, ⟨%d5, H5⟩⟩
      iapply (run2_C c _ _ _ _ _ _ _ _ _ _ _ _ _ _ _ _ _ _ _ _ h0 h1 _ _ Set.univ _)
      isplitl [H0 H1 H2 H3 H4 H5 HS0]; · sl_close
      iintro ⟨H0, H1, H2, H3, H4, H5, HS⟩
      sl_close
    · rw [Dat.leavesExact_idle (dat2 V c) 5 t (off2_5 t h1).1 (off2_5 t h1).2]
      iintro ⟨⟨⟨HS0, HO⟩, ⟨%r, Hg⟩⟩, ⟨%Wo, %hWo, Ho⟩, ⟨%d0, H0⟩, ⟨%d1, H1⟩, ⟨%d2, H2⟩, ⟨%d3, H3⟩, ⟨%d4, H4⟩, ⟨%d5, H5⟩⟩
      iapply (run2_B c _ _ _ _ _ _ _ _ _ _ _ _ _ _ _ _ _ _ _ _ h0 h1 _ _ Set.univ _)
      isplitl [H0 H1 H2 H3 H4 H5 HS0]; · sl_close
      iintro ⟨H0, H1, H2, H3, H4, H5, HS⟩
      sl_close

theorem body2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := Entails.refl _

theorem hout2 (c : Dev nD) : (dat2 V c).Φ (Fin.last cfg2.N) ⊢ Pipeline.ΦA spec2 c := by
  have hN : cfg2.N = 16 := N_2
  rw [show (dat2 V c).Φ (Fin.last cfg2.N) = PhiS2 V c (Fin.last cfg2.N).val (Nat.le_of_lt_succ (Fin.last cfg2.N).isLt) from rfl,
    PhiS2_pos V c _ _ (by rw [Fin.val_last]; omega), PhiA2_eq]
  iintro ⟨⟨HS0, HO⟩, ⟨%r, Hg⟩⟩
  sl_close

end Region

end Cert.KernelIdeal.Hand

end
-- ==== Proof.KI.Run.lean ====
import proofs.«422996_j60266981097886_3_alg».proof.Proof.Gen.KernelIdeal.Regions
import proofs.«422996_j60266981097886_3_alg».proof.Proof.KI.Reg0
import proofs.«422996_j60266981097886_3_alg».proof.Proof.KI.Reg1
import proofs.«422996_j60266981097886_3_alg».proof.Proof.KI.Reg2
import Idealize.ShloMosaic.Lib.Pipeline.RegionsLoop

set_option maxRecDepth 4096

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

abbrev 𝒱₀ : Variants := Variants.none

abbrev L : GSem nD τ sig → Finset Unit := fun _ => ∅
abbrev lv : GSem nD τ sig → Unit → ℕ := fun _ _ => 0

abbrev R (c : Dev nD) : sProp 𝕄 :=
  iprop((∃ r, prngReg c r) ∗ ∃ W, owes (c : Thread nD τ) (0 : CellTallies nD τ sig Unit) W)

abbrev rd (W : Dev nD → Valuation τ sig (Elt F)) :
    (c : Dev nD) → (b : Ref sig .tc) → Buf (Elt F) ((c : Thread nD τ).loc b) := fun c b => W c b

section Region

variable (pdats : (p : Fin 3) → (c : Dev nD) → Dat τ (Elt F) Unit ℕ (UR sig nD τ) ℕ (cfgs p) c)

theorem owes_in (p : Fin 3) (c : Dev nD) (t : Fin ((cfgs p).N + 1))
    (howed : (pdats p c).owed t = 0) (hrec : (pdats p c).recorded t = Set.univ) :
    (iprop(∃ W, owes (c : Thread nD τ) (0 : CellTallies nD τ sig Unit) W) : sProp 𝕄) ⊢ (pdats p c).owesAt () t := by
  unfold Pipeline.Dat.owesAt Pipeline.owesWithin Pipeline.Dat.bound
  rw [howed, hrec]
  iintro ⟨%W, HO⟩
  iexists W
  isplitr
  · ipureintro; exact fun _ _ => Or.inl trivial
  iexact HO

theorem owes_out (p : Fin 3) (c : Dev nD) (t : Fin ((cfgs p).N + 1)) (howed : (pdats p c).owed t = 0) :
    (pdats p c).owesAt () t ⊢ (iprop(∃ W, owes (c : Thread nD τ) (0 : CellTallies nD τ sig Unit) W) : sProp 𝕄) := by
  unfold Pipeline.Dat.owesAt Pipeline.owesWithin
  rw [howed]
  iintro ⟨%W, -, HO⟩
  iexists W
  iexact HO

set_option backward.isDefEq.respectTransparency.types false in
def region (p : Fin 3) (lf : Pipeline.LaunchFacts (nD := nD) (τ := τ) cfgs p)
    (W W' : Dev nD → Valuation τ sig (Elt F))
    (hA : ∀ c w, (pdats p c).A w = rd W c (Pipeline.arrRef (cfgs p).spec w))
    (hq : ∀ c w, (pdats p c).q w = fullShare)
    (howed : ∀ c t, (pdats p c).owed t = 0)
    (hrec : ∀ c t, (pdats p c).recorded t = Set.univ)
    (hbody : ∀ c, BodyObligation (pdats p c) (defs₀ (F := F)) Variants.none () Set.univ)
    (hin : ∀ c, Pipeline.ΦA (τ := τ) (cfgs p).spec c ⊢ (pdats p c).Φ 0)
    (hout : ∀ c, (pdats p c).Φ (Fin.last (cfgs p).N) ⊢ Pipeline.ΦA (τ := τ) (cfgs p).spec c)
    (hF : ∀ c w, (pdats p c).arrAt w (cfgs p).N = rd W' c (Pipeline.arrRef (cfgs p).spec w))
    (hrest : ∀ c (b : Ref sig .tc), b ∉ Finset.univ.image (Pipeline.arrRef (cfgs p).spec) → rd W' c b = rd W c b) :
    Pipeline.RegionSeg (pcfgs (F := F)) Gen.adm pdats () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c (rd W c)
  hentry c := by
    have hsplit := Pipeline.arrays_of_unscopedBufs (p := p) (pcfgs (F := F)) Gen.adm pdats lf.win lf.arr_whole c
      ((pdats p c).share_full (hq c)) (rd W c) (hA c)
    rw [Pipeline.unscopedBufs_held c (W c)] at hsplit
    iintro ⟨⟨Hbuf, Hreg, Howe⟩, -, -⟩
    ihave Hsp := hsplit $$ Hbuf
    icases Hsp with ⟨Harr, Hrest⟩
    ihave Ho := owes_in pdats p c 0 (howed c 0) (hrec c 0) $$ Howe
    imodintro
    isplitl [Harr]; · iexact Harr
    isplitr
    · unfold Pipeline.prefHeld
      rw [show (Finset.univ : Finset (Fin (pcfgs (F := F) p).pre.K)) = ∅ from rfl, BI.bigSep_empty]
      iempintro
    isplitl [Ho]; · iexact Ho
    isplitl [Hreg]; · iexact Hreg
    iexact Hrest
  hin c := by
    refine BIBase.Entails.trans ?_ (hin c)
    unfold Pipeline.ΦA
    iintro ⟨Hreg, -, Hsc⟩
    isplitl [Hsc]; · iexact Hsc
    iexact Hreg
  hout c := by
    refine (hout c).trans ?_
    unfold Pipeline.ΦA
    rw [Pipeline.ownSems0_none]
    iintro ⟨Hsc, Hreg⟩
    isplitl [Hreg]; · iexact Hreg
    isplitr; · iempintro
    iexact Hsc
  hexit c := by
    have hjoin := Pipeline.unscopedBufs_of_arrays (p := p) (pcfgs (F := F)) Gen.adm (Ix := Unit) (Name := ℕ) (U := UR sig nD τ) (Lvl := ℕ)
      lf.win lf.arr_whole c pdats ((pdats p c).share_full (hq c))
      (rd W c) (rd W' c) ((pdats p c).arrAt · (cfgs p).N) (hF c) (hrest c)
    rw [Pipeline.unscopedBufs_held c (W' c)] at hjoin
    iintro ⟨Harr, Howe, Hreg, Hrest⟩
    ihave Hbuf := hjoin $$ [Harr Hrest]
    · isplitl [Harr]; · iexact Harr
      iexact Hrest
    ihave Ho := owes_out pdats p c (Fin.last _) (howed c _) $$ Howe
    imodintro
    isplitl [Hbuf]; · iexact Hbuf
    isplitl [Hreg]; · iexact Hreg
    iexact Ho

end Region

section Run

variable (m : (ℓ : Loc nD τ sig) → Buf (Elt F) ℓ) (ρ : Dev nD → PrngReg)

abbrev OutAt (r : Ref sig .tc) : Type := (c : Dev nD) → Buf (Elt F) ((c : Thread nD τ).loc r)

def out0 : OutAt (F := F) main_v0 := fun c => (dat0 (rd (Gen.V0 m)) c).arrAt 1 cfg0.N

def outsA : Gen.Outs (F := F) := fun _ =>
  Function.update (β := OutAt (F := F)) (fun r c => m ((c : Thread nD τ).loc r)) main_v0 (out0 m)

def out1 : OutAt (F := F) main_v21 := fun c => (dat1 (rd (Gen.V6 m (outsA m))) c).arrAt 2 cfg1.N

def outsB : Gen.Outs (F := F) := fun J =>
  Function.update (β := OutAt (F := F)) (outsA m J) main_v21 (out1 m)

def out2 : OutAt (F := F) main_v43 := fun c => (dat2 (rd (Gen.V8 m (outsB m))) c).arrAt 5 cfg2.N

def outs : Gen.Outs (F := F) := fun J =>
  Function.update (β := OutAt (F := F)) (outsB m J) main_v43 (out2 m)

theorem outs_v0 (J : ℕ) : outs m J main_v0 = out0 m := by
  unfold outs outsB outsA
  rw [Function.update_of_ne (by decide), Function.update_of_ne (by decide), Function.update_self]
theorem outs_v21 (J : ℕ) : outs m J main_v21 = out1 m := by
  unfold outs outsB
  rw [Function.update_of_ne (by decide), Function.update_self]
theorem outs_v43 (J : ℕ) : outs m J main_v43 = out2 m := by
  unfold outs
  rw [Function.update_self]
theorem outsB_v0 (J : ℕ) : outsB m J main_v0 = out0 m := by
  unfold outsB outsA
  rw [Function.update_of_ne (by decide), Function.update_self]
theorem outsB_v21 (J : ℕ) : outsB m J main_v21 = out1 m := by
  unfold outsB
  rw [Function.update_self]
theorem outsA_v0 (J : ℕ) : outsA m J main_v0 = out0 m := by
  unfold outsA
  rw [Function.update_self]

theorem V6_congr (o o' : Gen.Outs (F := F)) (h : o 1 main_v0 = o' 1 main_v0) : Gen.V6 m o = Gen.V6 m o' := by
  funext c
  unfold Gen.V6 Gen.V5 Gen.V4 Gen.V3 Gen.V2 Gen.V1
  rw [h]

theorem V8_congr (o o' : Gen.Outs (F := F)) (h : o 1 main_v0 = o' 1 main_v0) (h' : o 7 main_v21 = o' 7 main_v21) :
    Gen.V8 m o = Gen.V8 m o' := by
  funext c
  unfold Gen.V8 Gen.V7
  rw [V6_congr m o o' h, h']

theorem outs_1 (c : Dev nD) : outs m 1 main_v0 c = (dat0 (rd (Gen.V0 m)) c).arrAt 1 cfg0.N := by
  rw [outs_v0]; rfl

theorem outs_7 (c : Dev nD) :
    outs m 7 main_v21 c = (dat1 (rd (Gen.V6 m (outs m))) c).arrAt 2 cfg1.N := by
  rw [outs_v21, V6_congr m (outs m) (outsA m) ((outs_v0 m 1).trans (outsA_v0 m 1).symm)]
  rfl

theorem outs_9 (c : Dev nD) :
    outs m 9 main_v43 c = (dat2 (rd (Gen.V8 m (outs m))) c).arrAt 5 cfg2.N := by
  rw [outs_v43, V8_congr m (outs m) (outsB m)
    ((outs_v0 m 1).trans (outsB_v0 m 1).symm)
    ((outs_v21 m 7).trans (outsB_v21 m 7).symm)]
  rfl

theorem V1_at (o : Gen.Outs (F := F)) (c : Dev nD) : Gen.V1 m o c main_v0 = o 1 main_v0 c := by
  unfold Gen.V1; rw [Function.update_self]
theorem V7_at (o : Gen.Outs (F := F)) (c : Dev nD) : Gen.V7 m o c main_v21 = o 7 main_v21 c := by
  unfold Gen.V7; rw [Function.update_self]
theorem V9_at (o : Gen.Outs (F := F)) (c : Dev nD) : Gen.V9 m o c main_v43 = o 9 main_v43 c := by
  unfold Gen.V9; rw [Function.update_self]

theorem exit0 (c : Dev nD) (w : Fin 2) : (dat0 (rd (Gen.V0 m)) c).arrAt w cfg0.N
    = rd (Gen.V1 m (outs m)) c (Pipeline.arrRef spec0 w) := by
  by_cases h : w = 1
  · subst h
    exact (outs_1 m c).symm.trans (V1_at m _ c).symm
  · have hin : (cfg0.win w).isOut = false := by revert w; decide
    have hne : Pipeline.arrRef spec0 w ∉ ([main_v0] : List (Ref sig .tc)) := by revert w; decide
    exact ((dat0 _ c).arrAt_in w hin _).trans ((dat0_A _ c w).trans (Gen.V1_of m _ c _ hne).symm)
theorem rest0 (c : Dev nD) (b : Ref sig .tc) (hb : b ∉ Finset.univ.image (Pipeline.arrRef spec0)) :
    rd (Gen.V1 m (outs m)) c b = rd (Gen.V0 m) c b :=
  Gen.V1_of m _ c b fun hmem => hb (by
    rw [List.mem_singleton.mp hmem]; exact Finset.mem_image.mpr ⟨1, Finset.mem_univ _, rfl⟩)

theorem exit1 (c : Dev nD) (w : Fin 3) : (dat1 (rd (Gen.V6 m (outs m))) c).arrAt w cfg1.N
    = rd (Gen.V7 m (outs m)) c (Pipeline.arrRef spec1 w) := by
  by_cases h : w = 2
  · subst h
    exact (outs_7 m c).symm.trans (V7_at m _ c).symm
  · have hin : (cfg1.win w).isOut = false := by revert w; decide
    have hne : Pipeline.arrRef spec1 w ∉ ([main_v21] : List (Ref sig .tc)) := by revert w; decide
    exact ((dat1 _ c).arrAt_in w hin _).trans ((dat1_A _ c w).trans (Gen.V7_of m _ c _ hne).symm)
theorem rest1 (c : Dev nD) (b : Ref sig .tc) (hb : b ∉ Finset.univ.image (Pipeline.arrRef spec1)) :
    rd (Gen.V7 m (outs m)) c b = rd (Gen.V6 m (outs m)) c b :=
  Gen.V7_of m _ c b fun hmem => hb (by
    rw [List.mem_singleton.mp hmem]; exact Finset.mem_image.mpr ⟨2, Finset.mem_univ _, rfl⟩)

theorem exit2 (c : Dev nD) (w : Fin 6) : (dat2 (rd (Gen.V8 m (outs m))) c).arrAt w cfg2.N
    = rd (Gen.V9 m (outs m)) c (Pipeline.arrRef spec2 w) := by
  by_cases h : w = 5
  · subst h
    exact (outs_9 m c).symm.trans (V9_at m _ c).symm
  · have hin : (cfg2.win w).isOut = false := by revert w; decide
    have hne : Pipeline.arrRef spec2 w ∉ ([main_v43] : List (Ref sig .tc)) := by revert w; decide
    exact ((dat2 _ c).arrAt_in w hin _).trans ((dat2_A _ c w).trans (Gen.V9_of m _ c _ hne).symm)
theorem rest2 (c : Dev nD) (b : Ref sig .tc) (hb : b ∉ Finset.univ.image (Pipeline.arrRef spec2)) :
    rd (Gen.V9 m (outs m)) c b = rd (Gen.V8 m (outs m)) c b :=
  Gen.V9_of m _ c b fun hmem => hb (by
    rw [List.mem_singleton.mp hmem]; exact Finset.mem_image.mpr ⟨5, Finset.mem_univ _, rfl⟩)

def pdats : (p : Fin 3) → (c : Dev nD) → Dat τ (Elt F) Unit ℕ (UR sig nD τ) ℕ (cfgs p) c
  | ⟨0, _⟩ => dat0 (rd (Gen.V0 m))
  | ⟨1, _⟩ => dat1 (rd (Gen.V6 m (outs m)))
  | ⟨2, _⟩ => dat2 (rd (Gen.V8 m (outs m)))

def reg0 : Pipeline.RegionSeg (pcfgs (F := F)) Gen.adm (pdats m) () defs₀ 𝒱₀ L lv 0 :=
  region (pdats m) 0 Gen.launch0 (Gen.V0 m) (Gen.V1 m (outs m))
    (fun c w => dat0_A _ c w) (fun c w => dat0_q _ c w) (fun c t => dat0_owed _ c t) (fun _ _ => rfl)
    (fun c => body0 _ c) (fun c => hin0 _ c) (fun c => hout0 _ c)
    (exit0 m) (rest0 m)
def reg1 : Pipeline.RegionSeg (pcfgs (F := F)) Gen.adm (pdats m) () defs₀ 𝒱₀ L lv 1 :=
  region (pdats m) 1 Gen.launch1 (Gen.V6 m (outs m)) (Gen.V7 m (outs m))
    (fun c w => dat1_A _ c w) (fun c w => dat1_q _ c w) (fun c t => dat1_owed _ c t) (fun _ _ => rfl)
    (fun c => body1 _ c) (fun c => hin1 _ c) (fun c => hout1 _ c)
    (exit1 m) (rest1 m)
def reg2 : Pipeline.RegionSeg (pcfgs (F := F)) Gen.adm (pdats m) () defs₀ 𝒱₀ L lv 2 :=
  region (pdats m) 2 Gen.launch2 (Gen.V8 m (outs m)) (Gen.V9 m (outs m))
    (fun c w => dat2_A _ c w) (fun c w => dat2_q _ c w) (fun c t => dat2_owed _ c t) (fun _ _ => rfl)
    (fun c => body2 _ c) (fun c => hin2 _ c) (fun c => hout2 _ c)
    (exit2 m) (rest2 m)

abbrev u₀ : UR sig nD τ := initOf (Pipeline.cells cfgs Gen.cellOf_inj) (Pipeline.launchToks cfgs Gen.cellOf_inj)

theorem fund : (ownU (u₀) : sProp 𝕄)
    ⊢ |={Set.univ}=> iprop(BI.own ((emb₁ : Emb (UR sig nD τ) 𝕄) u₀) ∗ bigSep Finset.univ fun _ : Dev nD => (BI.emp : sProp 𝕄)) := by
  rw [ownU_emb₁, BI.bigSep_emp_const]
  iintro Hu
  imodintro
  isplitl [Hu]; · iexact Hu
  iempintro

theorem launchR : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  refine Pipeline.initEach L lv fun c => ?_
  iintro ⟨⟨-, Howe, -, Hreg, -⟩, -⟩
  imodintro
  isplitl [Hreg]
  · iexists _; iexact Hreg
  iexists ∅
  iexact Howe

theorem endR (c : Dev nD) : R (F := F) c ⊢ (iprop(∃ W, owes (c : Thread nD τ) (0 : CellTallies nD τ sig Unit) W) : sProp 𝕄) := by
  iintro ⟨-, Howe⟩
  iexact Howe

end Run

end Cert.KernelIdeal.Hand

end
-- ==== Proof.KHost.lean ====
import proofs.«422996_j60266981097886_3_alg».proof.Proof.Gen.KernelIdeal.Regions
import proofs.«422996_j60266981097886_3_alg».proof.Proof.Stages

noncomputable section

namespace Cert.KernelIdeal.Hand

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (outs : Gen.Outs (F := F))

-- Nothing up to boundary k writes `r`: each region may change one array, each host stretch writes its own results.
private abbrev K1 (r : Ref sig .tc) : Prop := r ∉ [main_v0]
private abbrev K6 (r : Ref sig .tc) : Prop :=
  K1 r ∧ r ∉ hostOps1_W ∧ r ∉ hostOps1_1_W ∧ r ∉ hostOps1_2_W ∧ r ∉ hostOps1_3_W ∧ r ∉ hostOps1_4_W
private abbrev K7 (r : Ref sig .tc) : Prop := K6 r ∧ r ∉ [main_v21]
private abbrev K9 (r : Ref sig .tc) : Prop := K7 r ∧ r ∉ hostOps2_W ∧ r ∉ [main_v43]
private abbrev K11 (r : Ref sig .tc) : Prop := K9 r ∧ r ∉ hostOps3_W ∧ r ∉ hostOps3_1_W
private abbrev K15 (r : Ref sig .tc) : Prop :=
  K11 r ∧ r ∉ hostOps3_2_W ∧ r ∉ hostOps3_3_W ∧ r ∉ hostOps3_4_W ∧ r ∉ hostOps3_5_W

section Kept

variable (c : Dev nD) (r : Ref sig .tc)

-- Such an array holds its launch contents at boundary k: one step per item, down to the launch.
theorem V1_kept (h : K1 r := by decide) : Gen.V1 m outs c r = m ((c : Thread nD τ).loc r) := Gen.V1_of m outs c r h
theorem V6_kept (h : K6 r := by decide) : Gen.V6 m outs c r = m ((c : Thread nD τ).loc r) := by
  rw [Gen.V6_of _ _ _ _ h.2.2.2.2.2, Gen.V5_of _ _ _ _ h.2.2.2.2.1, Gen.V4_of _ _ _ _ h.2.2.2.1, Gen.V3_of _ _ _ _ h.2.2.1,
    Gen.V2_of _ _ _ _ h.2.1, V1_kept m outs c r h.1]
theorem V7_kept (h : K7 r := by decide) : Gen.V7 m outs c r = m ((c : Thread nD τ).loc r) := by
  rw [Gen.V7_of _ _ _ _ h.2, V6_kept m outs c r h.1]
theorem V9_kept (h : K9 r := by decide) : Gen.V9 m outs c r = m ((c : Thread nD τ).loc r) := by
  rw [Gen.V9_of _ _ _ _ h.2.2, Gen.V8_of _ _ _ _ h.2.1, V7_kept m outs c r h.1]
theorem V11_kept (h : K11 r := by decide) : Gen.V11 m outs c r = m ((c : Thread nD τ).loc r) := by
  rw [Gen.V11_of _ _ _ _ h.2.2, Gen.V10_of _ _ _ _ h.2.1, V9_kept m outs c r h.1]
theorem V15_kept (h : K15 r := by decide) : Gen.V15 m outs c r = m ((c : Thread nD τ).loc r) := by
  rw [Gen.V15_of _ _ _ _ h.2.2.2.2, Gen.V14_of _ _ _ _ h.2.2.2.1, Gen.V13_of _ _ _ _ h.2.2.1, Gen.V12_of _ _ _ _ h.2.1,
    V11_kept m outs c r h.1]

end Kept

theorem V1_v0 (c : Dev nD) : Gen.V1 m outs c main_v0 = outs 1 main_v0 c := Function.update_self ..
theorem V7_v21 (c : Dev nD) : Gen.V7 m outs c main_v21 = outs 7 main_v21 c := Function.update_self ..
theorem V9_v43 (c : Dev nD) : Gen.V9 m outs c main_v43 = outs 9 main_v43 c := Function.update_self ..

theorem V6_arg0 (c : Dev nD) : Gen.V6 m outs c main_arg0 = m ((c : Thread nD τ).loc main_arg0) := V6_kept m outs c main_arg0

-- What a region reads is the host operations before it applied to the boundary they start from, in whose terms the launch arguments and the last output are first put back.
theorem V6_v20 (c : Dev nD) : Gen.V6 m outs c main_v20
    = Cert.Stages.seGate (outs 1 main_v0 c) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [← V1_v0 m outs c, ← V1_kept m outs c main_arg4, ← V1_kept m outs c main_arg5, ← V1_kept m outs c main_arg6, ← V1_kept m outs c main_arg7, ← V1_kept m outs c main_arg8, ← V1_kept m outs c main_arg9]
  dsimp only [Gen.V6, Gen.V5, Gen.V4, Gen.V3, Gen.V2]
  generalize Gen.V1 m outs c = W
  after_results_simp <;> rfl

theorem V8_v36 (c : Dev nD) : Gen.V8 m outs c main_v36
    = transpose S8x64x16384 [1, 2, 0] (Cert.Stages.aggOf (outs 7 main_v21 c) (m ((c : Thread nD τ).loc main_arg1)) (m ((c : Thread nD τ).loc main_arg2)) (m ((c : Thread nD τ).loc main_arg3)))
        transposes_S16384x8x64_S8x64x16384_1_2_0 := by
  rw [← V7_v21 m outs c, ← V7_kept m outs c main_arg1, ← V7_kept m outs c main_arg2, ← V7_kept m outs c main_arg3]
  dsimp only [Gen.V8]
  generalize Gen.V7 m outs c = W
  after_results_simp <;> rfl

theorem V8_v38 (c : Dev nD) : Gen.V8 m outs c main_v38
    = broadcastInDim S8x64x128 ![0, 1, 2] bcast_S1x64x128_S8x64x128_0_1_2
        (broadcastInDim S1x64x128 ![1, 2] bcast_S64x128_S1x64x128_1_2 (m ((c : Thread nD τ).loc main_arg10))) := by
  rw [← V7_kept m outs c main_arg10]
  dsimp only [Gen.V8]
  generalize Gen.V7 m outs c = W
  after_results_simp <;> rfl

theorem V8_v40 (c : Dev nD) : Gen.V8 m outs c main_v40
    = broadcastInDim S1x128x1024 ![0, 1, 2] bcast_S1x128x1_S1x128x1024_0_1_2
        (shapeCast S1x128x1 (m ((c : Thread nD τ).loc main_arg11)) shapeCasts_S128_S1x128x1) := by
  rw [← V7_kept m outs c main_arg11]
  dsimp only [Gen.V8]
  generalize Gen.V7 m outs c = W
  after_results_simp <;> rfl

theorem V8_v41 (c : Dev nD) : Gen.V8 m outs c main_v41
    = shapeCast S1x16384 (m ((c : Thread nD τ).loc main_arg12)) shapeCasts_S16384_S1x16384 := by
  rw [← V7_kept m outs c main_arg12]
  dsimp only [Gen.V8]
  generalize Gen.V7 m outs c = W
  after_results_simp <;> rfl

theorem V8_v42 (c : Dev nD) : Gen.V8 m outs c main_v42
    = shapeCast S1x16384 (m ((c : Thread nD τ).loc main_arg13)) shapeCasts_S16384_S1x16384 := by
  rw [← V7_kept m outs c main_arg13]
  dsimp only [Gen.V8]
  generalize Gen.V7 m outs c = W
  after_results_simp <;> rfl

-- After region 2, from arbitrary contents W: the first dense layer of the head with max(·, 0).
theorem fc1_of (W : Valuation τ sig (Elt F)) :
    StableHlo.after hostOps3_1 (StableHlo.after hostOps3 W) main_v48
    = Cert.Stages.fc1 (W main_v43) (W main_arg18) (W main_arg19) := by
  after_results_simp <;> rfl

-- Normalisation over the batch axis, then the second dense layer with max(·, 0).
theorem fc2_of (W : Valuation τ sig (Elt F)) :
    StableHlo.after hostOps3_5 (StableHlo.after hostOps3_4 (StableHlo.after hostOps3_3 (StableHlo.after hostOps3_2 W))) main_v71
    = Cert.Stages.fc2 (Cert.Stages.bnB256 (W main_v48) (W main_arg14) (W main_arg15)) (W main_arg20) (W main_arg21) := by
  after_results_simp <;> rfl

-- Normalisation over the batch axis, the output layer and the softmax.
theorem out_of (W : Valuation τ sig (Elt F)) :
    StableHlo.after hostOps3_8 (StableHlo.after hostOps3_7 (StableHlo.after hostOps3_6 W)) main_v104
    = Cert.Stages.softmax4 (Cert.Stages.logits (Cert.Stages.bnB128 (W main_v71) (W main_arg16) (W main_arg17))
        (W main_arg22) (W main_arg23)) := by
  after_results_simp <;> rfl

theorem V18_v104 (c : Dev nD) : Gen.V18 m outs c main_v104
    = Cert.Stages.head (outs 9 main_v43 c) (m ((c : Thread nD τ).loc main_arg14)) (m ((c : Thread nD τ).loc main_arg15)) (m ((c : Thread nD τ).loc main_arg16)) (m ((c : Thread nD τ).loc main_arg17))
        (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  rw [show Gen.V18 m outs c main_v104 = _ from out_of (Gen.V15 m outs c),
    show Gen.V15 m outs c main_v71 = _ from fc2_of (Gen.V11 m outs c),
    show Gen.V11 m outs c main_v48 = _ from fc1_of (Gen.V9 m outs c), V9_v43,
    V9_kept m outs c main_arg18, V9_kept m outs c main_arg19, V11_kept m outs c main_arg14, V11_kept m outs c main_arg15, V11_kept m outs c main_arg20, V11_kept m outs c main_arg21,
    V15_kept m outs c main_arg16, V15_kept m outs c main_arg17, V15_kept m outs c main_arg22, V15_kept m outs c main_arg23]
  rfl

end Cert.KernelIdeal.Hand

end
-- ==== Proof.LibEReal.lean ====
import Idealize.ShloMosaic.PureOps.Ideal
import Idealize.ShloMosaic.PureOps.Ideal.Laws

noncomputable section

open scoped BigOperators

namespace Cert.LibEReal

open Idealize.ShloMosaic

/-- The embedding of ℝ is additive, so it commutes with finite sums. -/
theorem coe_sum {ι : Type} (s : Finset ι) (f : ι → ℝ) :
    (∑ i ∈ s, ((f i : ℝ) : EReal)) = ((∑ i ∈ s, f i : ℝ) : EReal) :=
  (map_sum (⟨⟨(↑), EReal.coe_zero⟩, EReal.coe_add⟩ : ℝ →+ EReal) f s).symm

/-- Sign bit set, exponent field all ones, fraction field zero: the f32 pattern of −∞. -/
theorem ofBits_neg_inf : Ideal.ofBits .f32 0xFF800000#32 = (⊥ : EReal) := by
  simp [Ideal.ofBits, Ideal.ieee]

end Cert.LibEReal

end
-- ==== Proof.LibNodeMax.lean ====
import Idealize.ShloMosaic.PureOps.Ideal
import Idealize.ShloMosaic.PureOps.Ideal.Laws
import Idealize.ShloMosaic.PureOps.Reduce
import Idealize.ShloMosaic.Lib.ValueIdx
import proofs.«422996_j60266981097886_3_alg».proof.Proof.LibEReal
import proofs.«422996_j60266981097886_3_alg».proof.Proof.Stages

noncomputable section

namespace Cert.LibNodeMax

open Idealize.ShloMosaic Idealize.ShloMosaic.ValueIdx

/-- The running maximum of a family M of B values, from −∞: after member n it is max (… (max ⊥ (M 0)) …) (M n). -/
def runMax {B : ℕ} (M : Fin B → EReal) : (n : ℕ) → n < B → EReal
  | 0, h => max ⊥ (M ⟨0, h⟩)
  | n + 1, h => max (runMax M n (Nat.lt_of_succ_lt h)) (M ⟨n + 1, h⟩)

/-- Any recursion with the same first value and the same step is the running maximum. -/
theorem eq_runMax {B : ℕ} (M : Fin B → EReal) (A : (n : ℕ) → n < B → EReal)
    (h0 : ∀ h : 0 < B, A 0 h = max ⊥ (M ⟨0, h⟩))
    (hs : ∀ (n : ℕ) (h : n + 1 < B), A (n + 1) h = max (A n (Nat.lt_of_succ_lt h)) (M ⟨n + 1, h⟩)) :
    ∀ (n : ℕ) (h : n < B), A n h = runMax M n h
  | 0, h => h0 h
  | n + 1, h => by rw [hs n h, eq_runMax M A h0 hs n (Nat.lt_of_succ_lt h)]; rfl

/-- The running maximum after member n is the least upper bound of the members up to n. -/
theorem runMax_le_iff {B : ℕ} (M : Fin B → EReal) (c : EReal) : ∀ (n : ℕ) (h : n < B),
    runMax M n h ≤ c ↔ ∀ t : Fin B, t.val ≤ n → M t ≤ c
  | 0, h => by
    rw [runMax, max_le_iff]
    exact ⟨fun H t ht => (Fin.ext (Nat.le_zero.1 ht) : t = ⟨0, h⟩) ▸ H.2, fun H => ⟨bot_le, H ⟨0, h⟩ le_rfl⟩⟩
  | n + 1, h => by
    rw [runMax, max_le_iff, runMax_le_iff M c n (Nat.lt_of_succ_lt h)]
    exact ⟨fun H t ht => (Nat.le_succ_iff.1 ht).elim (H.1 t) fun e => (Fin.ext e : t = ⟨n + 1, h⟩) ▸ H.2,
      fun H => ⟨fun t ht => H t (Nat.le_succ_of_le ht), H ⟨n + 1, h⟩ le_rfl⟩⟩

theorem fold_max_bot_le_iff {ι : Type} [Fintype ι] (g : ι → EReal) (c : EReal) :
    (Finset.univ : Finset ι).fold max ⊥ g ≤ c ↔ ∀ i, g i ≤ c := by
  rw [Finset.fold_max_le]
  exact ⟨fun h i => h.2 i (Finset.mem_univ i), fun h => ⟨bot_le, fun i _ => h i⟩⟩

/-- Member r of block t of a range of m · B members cut into B blocks of m lies in the range. -/
theorem blockIdx_lt {m B : ℕ} (t : Fin B) (r : Fin m) : m * t.val + r.val < m * B :=
  (Nat.add_lt_add_left r.isLt _).trans_le ((Nat.mul_succ _ _).symm.trans_le (Nat.mul_le_mul_left _ t.isLt))

/-- Both sides are the least upper bound of all members: member i lies in block i / m at place i % m. -/
theorem fold_max_blocks {m n : ℕ} (g : Fin (m * (n + 1)) → EReal) :
    (Finset.univ : Finset (Fin (m * (n + 1)))).fold max ⊥ g
      = runMax (fun t : Fin (n + 1) => (Finset.univ : Finset (Fin m)).fold max ⊥
          (fun r : Fin m => g ⟨m * t.val + r.val, blockIdx_lt t r⟩)) n n.lt_succ_self := by
  refine eq_of_forall_ge_iff fun c => ?_
  simp only [fold_max_bot_le_iff, runMax_le_iff]
  refine ⟨fun H _ _ _ => H _, fun H i => ?_⟩
  have hm : 0 < m := Nat.pos_of_ne_zero fun h0 => by subst h0; exact absurd i.isLt (by simp)
  have hq := Nat.div_lt_of_lt_mul i.isLt
  simpa only [Nat.div_add_mod, Fin.eta] using H ⟨i.val / m, hq⟩ (Nat.le_of_lt_succ hq) ⟨i.val % m, Nat.mod_lt _ hm⟩

/-- At rank 3 with the middle axis reduced, result index (b, k) with coordinate n inserted is (b, n, k). -/
theorem lift_mid {n0 n1 n2 : ℕ} (h : Shape.Reduces (⟨3, ![n0, n1, n2]⟩ : Shape) [1] (⟨2, ![n0, n2]⟩ : Shape))
    (b : Fin n0) (k : Fin n2) (n : Fin n1) : h.lift (ix2 b k) n = ix3 b n k := by
  funext c
  match c with
  | ⟨0, _⟩ => rfl
  | ⟨1, _⟩ => rfl
  | ⟨2, _⟩ => rfl

/-- Node r of block t, of 16 blocks of 1024 nodes. -/
abbrev node (t : Fin 16) (r : Fin 1024) : Fin 16384 := ⟨1024 * t.val + r.val, blockIdx_lt (m := 1024) (B := 16) t r⟩

/-- A maximum over a middle axis of 16 · 1024 nodes, from the pattern of −∞, is at (b, k) the running maximum of the 16 block maxima. -/
theorem pool_blocks {n2 : ℕ} {u : Shape} (x : FVec Ideal (⟨3, ![8, 16384, n2]⟩ : Shape) .f32)
    (h' : Shape.ReducesTo (⟨3, ![8, 16384, n2]⟩ : Shape) [1] (⟨2, ![8, n2]⟩ : Shape)) (hu : 0 < u.numel)
    (b : Fin 8) (k : Fin n2) :
    Host.reduce (FloatOps.maximumf (F := Ideal) (φ := .f32)) x (constant (F := Ideal) u .f32 0xFF800000#32) h' hu (ix2 b k)
      = runMax (fun t : Fin 16 => (Finset.univ : Finset (Fin 1024)).fold max ⊥ (fun r => x (ix3 b (node t r) k))) 15 (by decide) := by
  rw [Host.reduce_eq_fold_single (FloatOps.maximumf (F := Ideal) (φ := .f32)) x _ h' ⟨h'.1, Nat.succ_pos 1, h'.2⟩ hu,
    constant_apply, Cert.LibEReal.ofBits_neg_inf]
  exact (congrArg (Finset.fold max ⊥ · Finset.univ) (funext fun n => congrArg x (lift_mid _ b k n))).trans
    (fold_max_blocks (m := 1024) (n := 15) fun n => x (ix3 b n k))

section Reference

open Cert.ReferenceIdeal

theorem poolN_blocks (Y : FVec Ideal S8x16384x128 .f32) (b : Fin 8) (k : Fin 128) :
    Cert.Stages.poolN (F := Ideal) Y (ix2 b k)
      = runMax (fun t : Fin 16 => (Finset.univ : Finset (Fin 1024)).fold max ⊥ (fun r => Y (ix3 b (node t r) k))) 15 (by decide) :=
  pool_blocks Y _ _ b k

theorem pool0_blocks (x : FVec Ideal S8x16384x64 .f32) (b : Fin 8) (f : Fin 64) :
    Cert.Stages.pool0 (F := Ideal) x (ix2 b f)
      = runMax (fun t : Fin 16 => (Finset.univ : Finset (Fin 1024)).fold max ⊥ (fun r => x (ix3 b (node t r) f))) 15 (by decide) :=
  pool_blocks x _ _ b f

end Reference

end Cert.LibNodeMax

end
-- ==== Proof.MPool.lean ====
import proofs.«422996_j60266981097886_3_alg».proof.Proof.LibNodeMax
import proofs.«422996_j60266981097886_3_alg».proof.Proof.KI.Acc
import Idealize.ShloMosaic.Lib.Pipeline.Value

noncomputable section

namespace Cert.KernelIdeal.Hand

open Idealize.ShloMosaic Idealize.SL.Sem Idealize.ShloMosaic.ValueIdx
open Cert.KernelIdeal Cert.KernelIdeal.Gen Cert.LibNodeMax

/-- The running value starts at −∞ at every index. -/
theorem k0_pay1_apply (j : S8x64.Idx) : k0_pay1 (F := Ideal) j = (⊥ : EReal) := by
  dsimp only [k0_pay1]
  rw [shapeCast_self]
  exact Cert.LibEReal.ofBits_neg_inf

/-- Each step takes the maximum of the running value with the step's block reduced, from −∞, over its 1024 nodes. -/
theorem k0_pay2_apply (v3 : Vec Ideal S8x1024x64 .f32) (v4 : Vec Ideal S8x64 .f32) (b : Fin 8) (f : Fin 64) :
    k0_pay2 (F := Ideal) v3 v4 (ix2 b f)
      = max (v4 (ix2 b f)) ((Finset.univ : Finset (Fin 1024)).fold max ⊥ (fun r => v3 (ix3 b r f))) := by
  dsimp only [k0_pay2]
  rw [shapeCast_self, maximumf_apply]
  refine congrArg (max _) ((Ideal.multiReduction_maximumf_single v3 _ _ _ _ (ix2 b f)).trans ?_)
  rw [show FloatOps.ofBits (F := Ideal) .f32 0xFF800000#32 = (⊥ : EReal) from Cert.LibEReal.ofBits_neg_inf]
  exact congrArg (Finset.fold max ⊥ · Finset.univ) (funext fun n => congrArg v3 (lift_mid _ b f n))

/-- So after step n the running value is the running maximum of the block maxima up to n. -/
theorem acc0Of_apply (blk : Fin 16 → Vec Ideal S8x1024x64 .f32) (b : Fin 8) (f : Fin 64) : ∀ (n : ℕ) (h : n < 16),
    acc0Of (F := Ideal) blk n h (ix2 b f)
      = runMax (fun t : Fin 16 => (Finset.univ : Finset (Fin 1024)).fold max ⊥ (fun r => blk t (ix3 b r f))) n h
  | 0, h => by rw [runMax, acc0Of, k0_pay2_apply, k0_pay1_apply]
  | n + 1, h => by rw [runMax, acc0Of, k0_pay2_apply, acc0Of_apply blk b f n]

theorem win0_index : ∀ (t : Fin grid0.N) (a : Fin 3), win0_0.index t a = (![0, t.val, 0] : Fin 3 → ℕ) a := by
  decide +kernel

/-- Block t of the array read at (a, r, c) is the array at (a, 1024 t + r, c): on each axis, block index times extent plus coordinate. -/
theorem blk0_read (x : FVec Ideal S8x16384x64 .f32) (t : Fin 16) (a : Fin 8) (r : Fin 1024) (c : Fin 64) :
    ((cfg0.win 0).blk t).view.read (Elt Ideal) x (ix3 a r c) = x (ix3 a (node t r) c) := by
  rw [View.read_apply, cast_eq]
  refine congrArg x (funext fun d => Fin.ext ?_)
  refine (win0_0.rect_emb_val t (ix3 a r c) d).trans ?_
  erw [win0_index]
  match d with
  | ⟨0, _⟩ => show 0 * 8 + a.val = a.val; omega
  | ⟨1, _⟩ => show t.val * 1024 + r.val = 1024 * t.val + r.val; omega
  | ⟨2, _⟩ => show 0 * 64 + c.val = c.val; omega

/-- The running maximum over the 16 blocks of the array is the reference's node-axis maximum of the whole array. -/
theorem pool0_fold (x : FVec Ideal S8x16384x64 .f32) :
    acc0Of (F := Ideal) (fun t : Fin 16 => ((cfg0.win 0).blk t).view.read (Elt Ideal) x) 15 (by decide)
      = Cert.Stages.pool0 (F := Ideal) x := by
  funext j
  obtain ⟨b, f, rfl⟩ : ∃ b f, j = ix2 b f := ⟨j 0, j 1, eq_ix2 j⟩
  rw [acc0Of_apply, pool0_blocks]
  refine congrArg (fun M => runMax M 15 (by decide)) (funext fun t => ?_)
  exact congrArg (Finset.fold max ⊥ · Finset.univ) (funext fun r => blk0_read x t b r f)

end Cert.KernelIdeal.Hand

end
-- ==== Proof.MJoin0.lean ====
import proofs.«422996_j60266981097886_3_alg».proof.Proof.KI.Reg0
import proofs.«422996_j60266981097886_3_alg».proof.Proof.MPool

noncomputable section

namespace Cert.KernelIdeal.Hand

open Idealize.ShloMosaic Idealize.ShloMosaic.TcCoe Idealize.SL.Sem
open Cert.KernelIdeal Cert.KernelIdeal.Gen

/-- Region 0 leaves the running maximum over the 16 blocks of x, which is the reference's maximum over all nodes at once. -/
theorem out0_pool (V : (c : Dev nD) → (b : Ref sig .tc) → Buf (Elt Ideal) ((c : Thread nD τ).loc b)) (c : Dev nD) :
    (dat0 (F := Ideal) V c).arrAt 1 cfg0.N = Cert.Stages.pool0 (F := Ideal) (V c main_arg0) :=
  (out0_val V c).trans (pool0_fold (V c main_arg0))

end Cert.KernelIdeal.Hand

end
-- ==== Proof.KI.Reg2Val.lean ====
import proofs.«422996_j60266981097886_3_alg».proof.Proof.KI.Reg2
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

-- The single output block sits at the array's origin.
theorem origin2 : (fun a => win2_5.index t2_15 a * main_v43.ty.shape.size a) = fun _ => 0 :=
  funext fun a => by fin_cases a <;> decide +kernel

-- Only the last point produces output, and its block is the whole array: so what it produces is the output.
theorem flushed2_eq (c : Dev nD) (t : Fin cfg2.N) (hf : (cfg2.win 5).flush t = true) :
    (dat2 V c).flushed 5 t = ((cfg2.win 5).blk t).view.read (Elt F) (sAt2 V c 15 (by decide)) := by
  have hlast : t.val = 15 := by
    have h1 := (flush2_5 t).mp hf
    have h2 : t.val < 16 := lt_of_lt_of_eq t.isLt N_2
    omega
  obtain rfl : t = t2_15 := Fin.ext hlast
  show (cfg2.win 5).cut (grid2.coords t2_15) ((dat2 V c).after 5 t2_15) = _
  rw [after2_5]
  exact (Memref.read_access_unit_zero (Elt F) main_v43 origin2 (fun a => by rw [congrFun origin2 a]; simp)
    (sAt2 V c 15 (by decide))).symm

theorem cover2 (i : S8x128.Idx) :
    ∃ t : Fin cfg2.N, (cfg2.win 5).flush t = true ∧ i ∈ ((cfg2.win 5).blk t).view.set := by
  refine ⟨t2_15, (flush2_5 t2_15).mpr rfl, ?_⟩
  show i ∈ ((View.whole main_v43).slice (win2_5.rect t2_15)).set
  rw [View.set_slice_whole]
  exact View.mem_set_unit_zero origin2 _ i

theorem out2_val_acc (c : Dev nD) :
    (dat2 V c).arrAt 5 cfg2.N = acc2Of (fun k => iblk2 V c 0 (pt2 k)) (fun k => iblk2 V c 1 (pt2 k)) (fun k => iblk2 V c 2 (pt2 k))
      (fun k => iblk2 V c 3 (pt2 k)) (fun k => iblk2 V c 4 (pt2 k)) 15 (by decide) :=
  (dat2 V c).arrAt_eq_of_cover 5 (sAt2 V c 15 (by decide)) (flushed2_eq V c) cover2

end Cert.KernelIdeal.Hand

end
-- ==== Proof.Reals.lean ====
import proofs.«422996_j60266981097886_3_alg».proof.Defs
import proofs.«422996_j60266981097886_3_alg».proof.Proof.Gen.Pre_finite_inputs
import proofs.«422996_j60266981097886_3_alg».proof.Proof.Stages
import Idealize.ShloMosaic.Lib.ReduceAll
import Idealize.ShloMosaic.Lib.IdealHost

noncomputable section

open scoped BigOperators

namespace Cert.Reals

open Idealize.ShloMosaic Idealize.SL.Sem
open Cert.Pre_finite_inputs (S_)

def IsReal {s : Shape} (v : s.Idx → EReal) : Prop := ∀ i, ∃ r : ℝ, v i = (r : EReal)

instance : Subsingleton S_.Idx := ⟨fun a b => funext fun d => d.elim0⟩

/-- A true conjunction of |v i| < +∞ over all entries makes v real: at −∞ and +∞ the absolute value max x (−x) is +∞. -/
theorem all_real {s : Shape} {axes : List (Fin s.rank)} {hb : S_.BroadcastsInDim s ![]} {hr : s.ReducesTo axes S_}
    {hu : 0 < S_.numel} {v : FVec Ideal s .f32}
    (e : Host.reduce IntOp.andi (cmpf .olt (Host.absf v) (broadcastInDim s ![] hb (constant (F := Ideal) S_ .f32 0x7F800000#32)))
          (constantI S_ 1 1#1) hr hu ValueIdx.ix0 = 1#1) : IsReal v := by
  intro i
  have h : Ideal.cmp .olt (max (v i) (-v i)) (Ideal.ofBits .f32 0x7F800000#32) = 1#1 :=
    Host.reduce_andi_all _ _ hr hu ValueIdx.ix0 e i
  rw [show Ideal.ofBits .f32 0x7F800000#32 = (⊤ : EReal) by simp [Ideal.ofBits, Ideal.ieee]] at h
  generalize v i = x at h
  induction x using EReal.rec with
  | coe r => exact ⟨r, rfl⟩
  | _ => simp [Ideal.cmp] at h

section Pre
open Cert.Pre_finite_inputs
open Cert.KernelIdeal (nD τ sig main_arg0 main_arg3 main_arg10 main_arg11 main_arg12 main_arg13)
variable [hP : Facts] (m : (ℓ : Loc nD τ sig) → Buf (Elt Ideal) ℓ) (h : Cert.Pre_KernelIdeal m) (c : Dev nD)
include h

/-- The precondition is a left-nested conjunction with one conjunct per float argument; these are the six that are used. -/
theorem pre_real6 :
    (IsReal (s := S8x16384x64) (m (c.tc.loc main_arg0))
      ∧ IsReal (s := S262144) (m (c.tc.loc main_arg3)))
    ∧ IsReal (s := S64x128) (m (c.tc.loc main_arg10))
    ∧ IsReal (s := S128) (m (c.tc.loc main_arg11))
    ∧ IsReal (s := S16384) (m (c.tc.loc main_arg12))
    ∧ IsReal (s := S16384) (m (c.tc.loc main_arg13)) := by
  have h0 := congrFun (h c) ValueIdx.ix0
  dsimp only [fn, fn_part1, fn_part2, fn_part3, fn_part4, fn_part5, fn_part6, andi] at h0
  simp only [IntOp.andi_eq_one] at h0
  obtain ⟨⟨⟨⟨⟨⟨⟨⟨⟨⟨⟨⟨⟨⟨⟨⟨⟨⟨⟨⟨⟨e0, e3⟩, -⟩, -⟩, -⟩, -⟩, -⟩, -⟩, e10⟩, e11⟩, e12⟩, e13⟩, -⟩, -⟩, -⟩, -⟩, -⟩, -⟩, -⟩, -⟩, -⟩, -⟩ := h0
  exact ⟨⟨all_real e0, all_real e3⟩, all_real e10, all_real e11, all_real e12, all_real e13⟩

theorem pre_real_arg0 : IsReal (s := S8x16384x64) (m (c.tc.loc main_arg0)) := (pre_real6 m h c).1.1

theorem pre_real_arg3 : IsReal (s := S262144) (m (c.tc.loc main_arg3)) := (pre_real6 m h c).1.2

theorem pre_real_arg10 : IsReal (s := S64x128) (m (c.tc.loc main_arg10)) := (pre_real6 m h c).2.1

theorem pre_real_arg11 : IsReal (s := S128) (m (c.tc.loc main_arg11)) := (pre_real6 m h c).2.2.1

theorem pre_real_arg12 : IsReal (s := S16384) (m (c.tc.loc main_arg12)) := (pre_real6 m h c).2.2.2.1

theorem pre_real_arg13 : IsReal (s := S16384) (m (c.tc.loc main_arg13)) := (pre_real6 m h c).2.2.2.2

end Pre

theorem real_add {a b : EReal} : (∃ r : ℝ, a = r) → (∃ r : ℝ, b = r) → ∃ r : ℝ, a + b = r := by
  rintro ⟨r, rfl⟩ ⟨t, rfl⟩; exact ⟨r + t, rfl⟩

theorem real_mul {a b : EReal} : (∃ r : ℝ, a = r) → (∃ r : ℝ, b = r) → ∃ r : ℝ, a * b = r := by
  rintro ⟨r, rfl⟩ ⟨t, rfl⟩; exact ⟨r * t, rfl⟩

/-- The reals inside the extended reals contain 0 and are closed under addition, hence under finite sums. -/
theorem sum_real {ι : Type} (s : Finset ι) (f : ι → EReal) (hf : ∀ i ∈ s, ∃ r : ℝ, f i = (r : EReal)) :
    ∃ r : ℝ, (∑ i ∈ s, f i) = (r : EReal) :=
  Finset.sum_induction f (fun x => ∃ r : ℝ, x = r) (fun _ _ => real_add) ⟨0, rfl⟩ hf

theorem isReal_addf {s : Shape} {a b : FVec Ideal s .f32} (ha : IsReal a) (hb : IsReal b) : IsReal (addf a b) :=
  fun i => real_add (ha i) (hb i)

theorem isReal_mulf {s : Shape} {a b : FVec Ideal s .f32} (ha : IsReal a) (hb : IsReal b) : IsReal (mulf a b) :=
  fun i => real_mul (ha i) (hb i)

/-- Each entry of an accumulating scatter is the entry of the base plus the finite sum of the updates that land on it. -/
theorem isReal_scatterAdd {s si u : Shape} {w : Nat} (d : ScatterDims s si u) (idx : IVec si w)
    {x : FVec Ideal s .f32} {upd : FVec Ideal u .f32} (hx : IsReal x) (hu : IsReal upd) :
    IsReal (Host.scatterAdd d x idx upd) :=
  fun i => real_add (hx i) (sum_real _ upd fun j _ => hu j)

/-- The logistic function 1 / (1 + exp (−z)) is real everywhere: 0 at −∞, 1 at +∞. -/
theorem logistic_real (z : EReal) : ∃ r : ℝ, Ideal.logistic z = (r : EReal) := by
  induction z using EReal.rec with
  | bot => exact ⟨0, Ideal.logistic_bot⟩
  | coe r => exact ⟨_, Ideal.logistic_coe r⟩
  | top => exact ⟨1, Ideal.logistic_top⟩

open Cert.ReferenceIdeal in
/-- The gate ends in the logistic function of its third dense layer, so it is real whatever its arguments. -/
theorem seGate_real (p : FVec Ideal S8x64 .f32) (W1 : FVec Ideal S64x32 .f32) (b1 : FVec Ideal S32 .f32)
    (W2 : FVec Ideal S32x32 .f32) (b2 : FVec Ideal S32 .f32) (Wop : FVec Ideal S32x64 .f32) (bop : FVec Ideal S64 .f32) :
    IsReal (s := S8x64) (Cert.Stages.seGate (F := Ideal) p W1 b1 W2 b2 Wop bop) := by
  intro i
  unfold Cert.Stages.seGate
  show ∃ r : ℝ, Ideal.div (Ideal.ofBits .f32 0x3F800000#32) (Ideal.ofBits .f32 0x3F800000#32 + Ideal.exp (- _)) = (r : EReal)
  rw [Ideal.ofBits_one_f32]
  exact logistic_real _

open Cert.ReferenceIdeal in
/-- The aggregation scatters, onto zeros, products of edge weights with re-indexed entries of x * a + x: sums and products of reals. -/
theorem agg_real (x : FVec Ideal S8x16384x64 .f32) (a : FVec Ideal S8x64 .f32) (src dst : IVec S262144 32)
    (ew : FVec Ideal S262144 .f32) (hx : IsReal x) (ha : IsReal a) (hew : IsReal ew) :
    IsReal (s := S16384x8x64) (Cert.Stages.aggOf (F := Ideal) (Cert.Stages.gateRes (F := Ideal) x a) src dst ew) := by
  unfold Cert.Stages.aggOf Cert.Stages.gateRes
  refine isReal_scatterAdd _ _ (fun _ => ⟨0, Ideal.ofBits_zero_f32⟩) (isReal_mulf (fun _ => ?_) fun _ => hew _)
  exact isReal_addf (isReal_mulf hx fun _ => ha _) hx _

end Cert.Reals

end
-- ==== Proof.BNRef.lean ====
import proofs.«422996_j60266981097886_3_alg».proof.Proof.Stages
import proofs.«422996_j60266981097886_3_alg».proof.Proof.Reals
import Idealize.ShloMosaic.Lib.IdealHost
import Idealize.ShloMosaic.Lib.Pipeline.Value

noncomputable section

namespace Cert.BNRef

open Idealize.ShloMosaic Idealize.SL.Sem Idealize.ShloMosaic.ValueIdx
open Cert.ReferenceIdeal Cert.ReferenceIdeal.Gen Cert.Reals

abbrev D0 := dot_S64x128_S16384x8x64_S128x16384x8_0_2_1_01_n_n

variable (agg : FVec Ideal S16384x8x64 .f32) (Wg : FVec Ideal S64x128 .f32) (bg : FVec Ideal S128 .f32)
  (H : FVec Ideal S8x16384x128 .f32) (b : Fin 8) (n : Fin 16384) (k : Fin 128)

-- the contracted index is the channel f: the weights are read at (f, k), the aggregate at (n, b, f)
theorem dot_apply :
    Host.dotGeneral D0 none Wg agg (ix3 k n b) = ∑ f : Fin 64, Wg (ix2 f k) * agg (ix3 n b f) := by
  show FloatOps.dotGeneral _ none _ Wg agg (ix3 k n b) = _
  rw [Ideal.dotGeneral_apply, ← Equiv.sum_comp (contrEquiv1 D0 64 rfl rfl).symm]
  refine Finset.sum_congr rfl fun f _ => ?_
  have c2 := contrEquiv1_symm_val D0 64 rfl rfl f
  have l2 : D0.lhsIdx (ix3 k n b) ((contrEquiv1 D0 64 rfl rfl).symm f) = ix2 f k := by
    funext ax; apply Fin.ext
    match ax with
    | ⟨0, _⟩ | ⟨1, _⟩ => simp [DotDims.lhsIdx, D0, dot_S64x128_S16384x8x64_S128x16384x8_0_2_1_01_n_n]; first | exact c2 | rfl
  have r2 : D0.rhsIdx (ix3 k n b) ((contrEquiv1 D0 64 rfl rfl).symm f) = ix3 n b f := by
    funext ax; apply Fin.ext
    match ax with
    | ⟨0, _⟩ | ⟨1, _⟩ | ⟨2, _⟩ =>
      simp [DotDims.rhsIdx, D0, dot_S64x128_S16384x8x64_S128x16384x8_0_2_1_01_n_n]; first | exact c2 | rfl
  rw [l2, r2]

-- the product is read transposed at (k, n, b), the bias at k, and the scalar 0 is 0
theorem gcnAct_apply :
    Cert.Stages.gcnAct (F := Ideal) agg Wg bg (ix3 b n k)
      = max (∑ f : Fin 64, Wg (ix2 f k) * agg (ix3 n b f) + bg (ix1 k)) 0 := by
  unfold Cert.Stages.gcnAct
  have h1 : ∀ X : FVec Ideal S128x16384x8 .f32,
      transpose S8x16384x128 [2, 1, 0] X transposes_S128x16384x8_S8x16384x128_2_1_0 (ix3 b n k) = X (ix3 k n b) :=
    fun X => transpose_apply _ X _ (ix3 b n k) (ix3 k n b)
      (fun a => match a with | ⟨0, _⟩ => rfl | ⟨1, _⟩ => rfl | ⟨2, _⟩ => rfl)
  have h2 : broadcastInDim S8x16384x128 ![0, 1, 2] bcast_S1x1x128_S8x16384x128_0_1_2
      (broadcastInDim S1x1x128 ![2] bcast_S128_S1x1x128_2 bg) (ix3 b n k) = bg (ix1 k) := by
    rw [broadcastInDim_apply _ _ _ (ix3 b n k) (ix3 (0 : Fin 1) (0 : Fin 1) k)
      (fun a => match a with | ⟨0, _⟩ => rfl | ⟨1, _⟩ => rfl | ⟨2, _⟩ => rfl)]
    exact broadcastInDim_apply _ _ _ _ (ix1 k) (fun a => match a with | ⟨0, _⟩ => rfl)
  dsimp only
  rw [maximumf_apply, addf_apply, h1, h2, broadcastInDim_scalar_apply, constant_apply, Ideal.ofBits_zero_f32, dot_apply]

-- axis 1 is the one kept: the indices that reduce to node n are the (b, n, k), one for each pair (b, k)
theorem reduce_mid :
    Host.reduceAdd H (constant (F := Ideal) S_ .f32 0x00000000#32) reducesTo_S8x16384x128_S16384_d0_2 h_S_ (ix1 n)
      = ∑ b : Fin 8, ∑ k : Fin 128, H (ix3 b n k) := by
  rw [hostReduceAdd_apply]
  unfold Ideal.hostReduceAdd
  rw [constant_apply, Ideal.ofBits_zero_f32, zero_add, ← Fintype.sum_prod_type' fun (b : Fin 8) (k : Fin 128) => H (ix3 b n k)]
  have hv : ∀ i, ((reducesTo_S8x16384x128_S16384_d0_2).drop i 0 : ℕ) = i 1 :=
    fun i => Shape.ReducesTo.drop_apply_val_of_eq _ i 0 1
  have hp : ∀ i, (reducesTo_S8x16384x128_S16384_d0_2).drop i = ix1 n ↔ i 1 = n := fun i =>
    ⟨fun e => Fin.ext ((hv i).symm.trans (congrArg (fun j => ((j 0 : Fin _) : ℕ)) e)),
      fun e => funext fun a => match a with | ⟨0, _⟩ => Fin.ext ((hv i).trans (congrArg Fin.val e))⟩
  refine Finset.sum_bij' (fun i _ => (i 0, i 2)) (fun q _ => ix3 q.1 n q.2) (fun _ _ => Finset.mem_univ _)
    (fun q _ => Finset.mem_filter.2 ⟨Finset.mem_univ _, (hp _).2 rfl⟩) (fun i hi => ?_) (fun _ _ => rfl) (fun i hi => ?_)
  all_goals obtain rfl := (hp i).1 (Finset.mem_filter.1 hi).2
  · exact (eq_ix3 i).symm
  · exact congrArg H (eq_ix3 i)

-- sign clear, exponent field 137, fraction field 0: 2^23 · 2^(137 − 127 − 23) = 2^10
theorem ofBits_1024 : Ideal.ofBits .f32 0x44800000#32 = ((1024 : ℝ) : EReal) := by
  simp [Ideal.ofBits, Ideal.ieee, -EReal.coe_mul]
  norm_num

theorem bcast3_apply {α : Type} (Y : S1x16384x1.Idx → α) :
    broadcastInDim S8x16384x128 ![0, 1, 2] bcast_S1x16384x1_S8x16384x128_0_1_2 Y (ix3 b n k) = Y (ix3 0 n 0) :=
  broadcastInDim_apply _ _ _ (ix3 b n k) (ix3 0 n 0)
    (fun a => match a with | ⟨0, _⟩ => rfl | ⟨1, _⟩ => rfl | ⟨2, _⟩ => rfl)

-- dividing by a scalar that is 1024 multiplies by 1/1024
theorem quot_mid (D : FVec Ideal S_ .f32) (hD : D ix0 = ((1024 : ℝ) : EReal)) :
    Host.divf (broadcastInDim S1x16384x1 ![1] bcast_S16384_S1x16384x1_1
        (Host.reduceAdd H (constant (F := Ideal) S_ .f32 0x00000000#32) reducesTo_S8x16384x128_S16384_d0_2 h_S_))
      (broadcastInDim S1x16384x1 ![] bcast_S_S1x16384x1 D) (ix3 0 n 0)
      = (∑ b : Fin 8, ∑ k : Fin 128, H (ix3 b n k)) * (((1 : ℝ) / 1024 : ℝ) : EReal) := by
  rw [hostDivf_apply, broadcastInDim_apply _ _ _ _ (ix1 n) (fun a => match a with | ⟨0, _⟩ => rfl), reduce_mid,
    broadcastInDim_scalar_apply, hD]
  exact Ideal.div_coe (by norm_num) _

theorem bnMean_apply :
    Cert.Stages.bnMean (F := Ideal) H (ix3 0 n 0)
      = (∑ b : Fin 8, ∑ k : Fin 128, H (ix3 b n k)) * (((1 : ℝ) / 1024 : ℝ) : EReal) := by
  unfold Cert.Stages.bnMean
  dsimp only
  exact quot_mid H n _ (by rw [constant_apply, ofBits_1024])

-- the integer 0 converts to the real 0
theorem divisor_eq :
    (subf (constant (F := Ideal) S_ .f32 0x44800000#32) (sitofp .f32 (constantI S_ 32 0#32))) ix0 = ((1024 : ℝ) : EReal) := by
  show Ideal.ofBits .f32 0x44800000#32 - (((0#32 : BitVec 32).toInt : ℝ) : EReal) = _
  rw [ofBits_1024]
  simp

-- the test 1024 − 0 > 0 holds, so the quotient is selected
theorem bnVar_apply :
    Cert.Stages.bnVar (F := Ideal) H (ix3 0 n 0)
      = (∑ b : Fin 8, ∑ k : Fin 128,
          (H (ix3 b n k) - Cert.Stages.bnMean (F := Ideal) H (ix3 0 n 0))
            * (H (ix3 b n k) - Cert.Stages.bnMean (F := Ideal) H (ix3 0 n 0)))
        * (((1 : ℝ) / 1024 : ℝ) : EReal) := by
  unfold Cert.Stages.bnVar
  dsimp only
  have hc : Ideal.cmp .ogt ((1024 : ℝ) : EReal) 0 = 1#1 := by simp [Ideal.cmp]
  rw [select_apply, broadcastInDim_scalar_apply, cmpf_apply, divisor_eq, constant_apply, Ideal.ofBits_zero_f32,
    Ideal.cmpf_def, hc, select_one, quot_mid _ n _ divisor_eq]
  refine congrArg (· * _) (Finset.sum_congr rfl fun b _ => Finset.sum_congr rfl fun k _ => ?_)
  rw [mulf_apply, subf_apply, bcast3_apply]
  rfl

theorem castN_apply {α : Type} (g : S16384.Idx → α) :
    shapeCast S1x16384x1 g shapeCasts_S16384_S1x16384x1 (ix3 0 n 0) = g (ix1 n) := by
  refine shapeCast_apply g _ _ (ix1 n) ?_
  rw [Shape.rowMajor_val_one, Shape.rowMajor_val_three]
  simp

theorem hostRsqrt_apply {s : Shape} (v : FVec Ideal s .f32) (i : s.Idx) : Host.rsqrt v i = Ideal.rsqrt (v i) := rfl

theorem bnNorm_apply (mean var : FVec Ideal S1x16384x1 .f32) (g1 beta1 : FVec Ideal S16384 .f32) :
    Cert.Stages.bnNorm (F := Ideal) H mean var g1 beta1 (ix3 b n k)
      = (H (ix3 b n k) - mean (ix3 0 n 0)) * Ideal.rsqrt (var (ix3 0 n 0) + Ideal.ofBits .f32 0x3A83126F#32)
        * g1 (ix1 n) + beta1 (ix1 n) := by
  unfold Cert.Stages.bnNorm
  dsimp only
  rw [addf_apply, mulf_apply, mulf_apply, subf_apply, bcast3_apply, bcast3_apply, bcast3_apply, bcast3_apply,
    castN_apply, castN_apply, hostRsqrt_apply, addf_apply, broadcastInDim_scalar_apply, constant_apply]

-- a finite sum of products of reals, plus a real, cut off below at the real 0
theorem gcnAct_real (hagg : IsReal agg) (hWg : IsReal Wg) (hbg : IsReal bg) :
    IsReal (s := S8x16384x128) (Cert.Stages.gcnAct (F := Ideal) agg Wg bg) := by
  intro i
  obtain ⟨b, n, k, rfl⟩ : ∃ (b : Fin 8) (n : Fin 16384) (k : Fin 128), i = ix3 b n k := ⟨i 0, i 1, i 2, eq_ix3 i⟩
  rw [gcnAct_apply]
  obtain ⟨s, hs⟩ := sum_real Finset.univ (fun f : Fin 64 => Wg (ix2 f k) * agg (ix3 n b f)) fun f _ => by
    obtain ⟨w, hw⟩ := hWg (ix2 f k)
    obtain ⟨a, ha⟩ := hagg (ix3 n b f)
    exact ⟨w * a, by rw [hw, ha, EReal.coe_mul]⟩
  obtain ⟨c, hc⟩ := hbg (ix1 k)
  rw [hs, hc, ← EReal.coe_add, ← EReal.coe_zero]
  exact ⟨_, EReal.coe_strictMono.monotone.map_max.symm⟩

end Cert.BNRef

end
-- ==== Proof.MBNBlock.lean ====
import proofs.«422996_j60266981097886_3_alg».proof.Proof.Gen.KernelIdeal.Skeleton
import Idealize.ShloMosaic.PureOps.Ideal.Laws
import Idealize.ShloMosaic.Lib.ValueLayout
import proofs.«422996_j60266981097886_3_alg».proof.Proof.LibEReal

noncomputable section

namespace Cert.MBNBlock

open Idealize.ShloMosaic Idealize.ShloMosaic.ValueIdx
open Cert.KernelIdeal Cert.KernelIdeal.Gen

abbrev D2 := dot_S8x64x128_S8x64x1024_S8x128x1024_1_1_2_2_0_0

variable (x : Vec Ideal S8x64x1024 .f32) (w : Vec Ideal S8x64x128 .f32) (bias : Vec Ideal S1x128x1024 .f32)
  (b : Fin 8) (k : Fin 128) (n : Fin 1024)

-- the contracted index is the feature f, the batch b is shared: w is read at (b, f, k), x at (b, f, n)
theorem matmul_at (w : FVec Ideal S8x64x128 .bf16) (x : FVec Ideal S8x64x1024 .bf16) :
    matmul D2 none w x (constant S8x128x1024 .f32 0x00000000#32) (ix3 b k n)
      = ∑ f : Fin 64, w (ix3 b f k) * x (ix3 b f n) := by
  show FloatOps.matmul D2 none w x _ (ix3 b k n) = _
  rw [Ideal.matmul_constant_zero_apply, ← Equiv.sum_comp (contrEquiv1 D2 64 rfl rfl).symm]
  refine Finset.sum_congr rfl fun c _ => ?_
  have c3 := contrEquiv1_symm_val D2 64 rfl rfl c
  have l3 : D2.lhsIdx (ix3 b k n) ((contrEquiv1 D2 64 rfl rfl).symm c) = ix3 b c k := by
    funext ax; apply Fin.ext
    match ax with
    | ⟨0, _⟩ | ⟨1, _⟩ | ⟨2, _⟩ =>
      simp [DotDims.lhsIdx, D2, dot_S8x64x128_S8x64x1024_S8x128x1024_1_1_2_2_0_0]; first | exact c3 | rfl
  have r3 : D2.rhsIdx (ix3 b k n) ((contrEquiv1 D2 64 rfl rfl).symm c) = ix3 b c n := by
    funext ax; apply Fin.ext
    match ax with
    | ⟨0, _⟩ | ⟨1, _⟩ | ⟨2, _⟩ =>
      simp [DotDims.rhsIdx, D2, dot_S8x64x128_S8x64x1024_S8x128x1024_1_1_2_2_0_0]; first | exact c3 | rfl
  rw [l3, r3]

theorem bcast_col_at (v : FVec Ideal S1x1x1024 .f32) (h : S1x1x1024.Broadcasts S8x128x1024) :
    broadcastTo S8x128x1024 v h (ix3 b k n) = v (ix3 0 0 n) :=
  broadcastTo_apply v h (ix3 b k n) (ix3 0 0 n) fun a => match a with
    | ⟨0, _⟩ => rfl | ⟨1, _⟩ => rfl | ⟨2, _⟩ => rfl

theorem pay3_at :
    k2_pay3 x w bias (ix3 b k n) = max ((∑ f : Fin 64, w (ix3 b f k) * x (ix3 b f n)) + bias (ix3 0 k n)) 0 := by
  unfold k2_pay3
  simp only [shapeCast_self]
  rw [maximumf_apply, addf_apply, broadcast_apply, broadcastTo_apply _ _ _ (ix3 0 k n) fun a => match a with
    | ⟨0, _⟩ => rfl | ⟨1, _⟩ => rfl | ⟨2, _⟩ => rfl]
  exact congrArg₂ max (congrArg₂ (· + ·) (matmul_at b k n _ _) rfl) Ideal.ofBits_zero_f32

-- the sum over the batch axis and then over the channel axis, each read as a sum over the dropped coordinate
theorem colsum_at (src : FVec Ideal S8x128x1024 .f32) (h0 : S8x128x1024.Reduces [0] S128x1024)
    (h1 : S1x128x1024.Reduces [1] S1x1024) (hc1 : S128x1024.ShapeCasts S1x128x1024) (hc2 : S1x1024.ShapeCasts S1x1x1024)
    (hφ : FKind.Formats .f32) (hacc : (0x00000000#32 : BitVec 32) = 0x00000000#32) :
    shapeCast S1x1x1024 (multiReduction .add [1] S1x1024
        (shapeCast S1x128x1024 (multiReduction .add [0] S128x1024 src 0x00000000#32 h0 hφ hacc) hc1)
        0x00000000#32 h1 hφ hacc) hc2 (ix3 0 0 n)
      = ∑ b : Fin 8, ∑ k : Fin 128, src (ix3 b k n) := by
  rw [shapeCast_ab_1ab_apply, Finset.sum_comm]
  refine (Ideal.multiReduction_add_single _ _ h1 hφ hacc (ix2 0 n)).trans (Finset.sum_congr rfl fun (k : Fin 128) _ => ?_)
  have e1 : h1.lift (ix2 0 n) k = ix3 0 k n := by
    funext a; apply Fin.ext
    match a with | ⟨0, _⟩ => rfl | ⟨1, _⟩ => rfl | ⟨2, _⟩ => rfl
  rw [e1, shapeCast_ab_1ab_apply]
  refine (Ideal.multiReduction_add_single src _ h0 hφ hacc (ix2 k n)).trans (Finset.sum_congr rfl fun b _ => congrArg src ?_)
  funext a; apply Fin.ext
  match a with | ⟨0, _⟩ => rfl | ⟨1, _⟩ => rfl | ⟨2, _⟩ => rfl

theorem pay4_at :
    k2_pay4 x w bias (ix3 0 0 n)
      = (∑ b : Fin 8, ∑ k : Fin 128, k2_pay3 x w bias (ix3 b k n)) * Ideal.ofBits .f32 0x3A800000#32 := by
  unfold k2_pay4
  rw [mulf_apply, broadcast_apply, colsum_at]
  rfl

theorem pay5_at :
    k2_pay5 x w bias (ix3 0 0 n)
      = Ideal.rsqrt (max ((∑ b : Fin 8, ∑ k : Fin 128,
            (k2_pay3 x w bias (ix3 b k n) - k2_pay4 x w bias (ix3 0 0 n)) * (k2_pay3 x w bias (ix3 b k n) - k2_pay4 x w bias (ix3 0 0 n)))
          * Ideal.ofBits .f32 0x3A800000#32) (Ideal.ofBits .f32 0x00000000#32) + Ideal.ofBits .f32 0x3A83126F#32) := by
  unfold k2_pay5
  refine congrArg Ideal.rsqrt ?_
  rw [addf_apply, maximumf_apply, mulf_apply, broadcast_apply, broadcast_apply, broadcast_apply, colsum_at]
  refine congrArg₂ (· + ·) (congrArg₂ max (congrArg₂ (· * ·) ?_ rfl) rfl) rfl
  refine Finset.sum_congr rfl fun b _ => Finset.sum_congr rfl fun k _ => ?_
  rw [mulf_apply, subf_apply, bcast_col_at]

-- the maximum over the column axis, read as the fold of max over the dropped coordinate
theorem max2_at (src : FVec Ideal S8x128x1024 .f32) (h : S8x128x1024.Reduces [2] S8x128) (hφ : FKind.Formats .f32)
    (hacc : (0xFF800000#32 : BitVec 32) = 0xFF800000#32) :
    multiReduction .maximumf [2] S8x128 src 0xFF800000#32 h hφ hacc (ix2 b k)
      = (Finset.univ : Finset (Fin 1024)).fold max (Ideal.ofBits .f32 0xFF800000#32) (fun n => src (ix3 b k n)) := by
  refine (Ideal.multiReduction_maximumf_single src 0xFF800000#32 h hφ hacc (ix2 b k)).trans ?_
  show (Finset.univ : Finset (Fin 1024)).fold max (Ideal.ofBits .f32 0xFF800000#32) (src ∘ h.lift (ix2 b k)) = _
  refine Finset.fold_congr fun n _ => congrArg src ?_
  funext a; apply Fin.ext
  match a with | ⟨0, _⟩ => rfl | ⟨1, _⟩ => rfl | ⟨2, _⟩ => rfl

variable (g β : Vec Ideal S1x1024 .f32)

/-- The value maximised over a block's columns: h2 · (inv · g) + (β − mean · (inv · g)) at column r. -/
def term (r : Fin 1024) : EReal :=
  k2_pay3 x w bias (ix3 b k r) * (k2_pay5 x w bias (ix3 0 0 r) * g (ix2 0 r))
    + (β (ix2 0 r) - k2_pay4 x w bias (ix3 0 0 r) * (k2_pay5 x w bias (ix3 0 0 r) * g (ix2 0 r)))

-- one block's update: the carried value against the maximum over the block's columns from −∞
theorem step_at (prev : Vec Ideal S8x128 .f32) :
    k2_pay1 (k2_pay3 x w bias) (k2_pay4 x w bias) (k2_pay5 x w bias) g β prev (ix2 b k)
      = max (prev (ix2 b k)) ((Finset.univ : Finset (Fin 1024)).fold max ⊥ (term x w bias b k g β)) := by
  unfold k2_pay1
  rw [shapeCast_self, maximumf_apply, max2_at, LibEReal.ofBits_neg_inf]
  refine congrArg (max (prev (ix2 b k))) (Finset.fold_congr fun n _ => ?_)
  rw [addf_apply, mulf_apply, bcast_col_at, bcast_col_at, mulf_apply, subf_apply, mulf_apply, mulf_apply,
    shapeCast_self, shapeCast_ab_1ab_apply, shapeCast_self, shapeCast_ab_1ab_apply]
  rfl

end Cert.MBNBlock

end
-- ==== Proof.MBNLaw.lean ====
import Idealize.ShloMosaic.PureOps.Ideal
import proofs.«422996_j60266981097886_3_alg».proof.Proof.LibEReal

noncomputable section

namespace Cert.MBNLaw

open Idealize.ShloMosaic

-- sign clear, exponent field 117, fraction field 0: 2^23 · 2^(117 − 127 − 23) = 2⁻¹⁰
theorem ofBits_inv1024 : Ideal.ofBits .f32 0x3A800000#32 = ((1 / 1024 : ℝ) : EReal) := by
  simp [Ideal.ofBits, Ideal.ieee, -EReal.coe_mul]
  norm_num

-- sign clear, exponent field 117, fraction field 201327: (2^23 + 201327) · 2⁻³³
theorem ofBits_eps : ∃ e : ℝ, 0 < e ∧ Ideal.ofBits .f32 0x3A83126F#32 = (e : EReal) :=
  ⟨(8589935 : ℝ) * (2 : ℝ) ^ (-33 : ℤ), by positivity, by simp [Ideal.ofBits, Ideal.ieee]⟩

variable {ι κ : Type} [Fintype ι] [Fintype κ] (h : ι → κ → ℝ)

-- the embedding of ℝ respects finite sums and products
theorem mean_real : ∃ μ : ℝ, (∑ b, ∑ k, (h b k : EReal)) * ((1 / 1024 : ℝ) : EReal) = μ :=
  ⟨(∑ b, ∑ k, h b k) * (1 / 1024), by simp only [Cert.LibEReal.coe_sum, ← EReal.coe_mul]⟩

-- a sum of squares of reals times a positive constant
theorem var_real (μ : ℝ) : ∃ v : ℝ, 0 ≤ v ∧
    (∑ b, ∑ k, ((h b k : EReal) - μ) * ((h b k : EReal) - μ)) * ((1 / 1024 : ℝ) : EReal) = v :=
  ⟨(∑ b, ∑ k, (h b k - μ) * (h b k - μ)) * (1 / 1024),
    mul_nonneg (Finset.sum_nonneg fun _ _ => Finset.sum_nonneg fun _ _ => mul_self_nonneg _) (by norm_num),
    by simp only [← EReal.coe_sub, ← EReal.coe_mul, Cert.LibEReal.coe_sum]⟩

-- v ≥ 0 makes the clamp at 0 idle, v + e > 0 makes the reciprocal root real; then distributivity among reals
theorem fold_eq {x μ v e g β : ℝ} (hv : 0 ≤ v) (he : 0 < e) :
    (x : EReal) * (Ideal.rsqrt (max (v : EReal) 0 + e) * g) + (β - μ * (Ideal.rsqrt (max (v : EReal) 0 + e) * g))
      = ((x : EReal) - μ) * Ideal.rsqrt ((v : EReal) + e) * g + β := by
  have hp : 0 < v + e := add_pos_of_nonneg_of_pos hv he
  rw [max_eq_left (EReal.coe_nonneg.2 hv), ← EReal.coe_add, Ideal.rsqrt_coe, if_neg (not_lt.2 hp.le), if_neg hp.ne']
  simp only [← EReal.coe_mul, ← EReal.coe_sub, ← EReal.coe_add]
  exact congrArg _ (by ring)

end Cert.MBNLaw

end
-- ==== Proof.MBN.lean ====
import proofs.«422996_j60266981097886_3_alg».proof.Proof.KI.Acc
import proofs.«422996_j60266981097886_3_alg».proof.Proof.LibNodeMax
import proofs.«422996_j60266981097886_3_alg».proof.Proof.BNRef
import proofs.«422996_j60266981097886_3_alg».proof.Proof.MBNBlock
import proofs.«422996_j60266981097886_3_alg».proof.Proof.MBNLaw

noncomputable section

namespace Cert.MBN

open Idealize.ShloMosaic Idealize.ShloMosaic.ValueIdx
open Cert.KernelIdeal.Gen Cert.KernelIdeal.Hand
open Cert.LibNodeMax (node runMax eq_runMax poolN_blocks)
open Cert.MBNBlock Cert.Reals Cert.BNRef Cert.MBNLaw

section Block

variable (x : Vec Ideal KernelIdeal.S8x64x1024 .f32) (w : Vec Ideal KernelIdeal.S8x64x128 .f32)
  (bias : Vec Ideal KernelIdeal.S1x128x1024 .f32) (g β : Vec Ideal KernelIdeal.S1x1024 .f32) (b : Fin 8) (k : Fin 128)

theorem pay2_at : (k2_pay2 (F := Ideal)) (ix2 b k) = ⊥ := by
  unfold k2_pay2
  simp only [shapeCast_self]
  exact LibEReal.ofBits_neg_inf

-- the mean and the variance are real, so both arrangements are the real number ((h − μ) / √(σ² + ε)) · g + β
theorem term_eq (H : FVec Ideal ReferenceIdeal.S8x16384x128 .f32) (g1 beta1 : FVec Ideal ReferenceIdeal.S16384 .f32)
    (hH : IsReal H) (hg1 : IsReal g1) (hbeta1 : IsReal beta1) (n : Fin 16384) (r : Fin 1024)
    (hP : ∀ (b' : Fin 8) (k' : Fin 128), k2_pay3 x w bias (ix3 b' k' r) = H (ix3 b' n k'))
    (hg : g (ix2 0 r) = g1 (ix1 n)) (hβ : β (ix2 0 r) = beta1 (ix1 n)) :
    term x w bias b k g β r = Stages.bnOut (F := Ideal) H g1 beta1 (ix3 b n k) := by
  choose hr hhr using fun (b' : Fin 8) (k' : Fin 128) => hH (ix3 b' n k')
  obtain ⟨gr, hgr⟩ := hg1 (ix1 n)
  obtain ⟨βr, hβr⟩ := hbeta1 (ix1 n)
  obtain ⟨e, he, hE⟩ := ofBits_eps
  obtain ⟨μ, hμ⟩ := mean_real hr
  obtain ⟨v, hv0, hv⟩ := var_real hr μ
  have hm : Stages.bnMean (F := Ideal) H (ix3 0 n 0) = μ := by rw [bnMean_apply]; simp only [hhr]; exact hμ
  have hV : Stages.bnVar (F := Ideal) H (ix3 0 n 0) = v := by rw [bnVar_apply, hm]; simp only [hhr]; exact hv
  have h4 : k2_pay4 x w bias (ix3 0 0 r) = μ := by rw [pay4_at, ofBits_inv1024]; simp only [hP, hhr]; exact hμ
  have h5 : k2_pay5 x w bias (ix3 0 0 r) = Ideal.rsqrt (max (v : EReal) 0 + e) := by
    rw [pay5_at, h4, ofBits_inv1024, Ideal.ofBits_zero_f32, hE]; simp only [hP, hhr]; rw [hv]
  unfold term Stages.bnOut
  rw [hP, h4, h5, hg, hβ, bnNorm_apply, hm, hV, hhr, hgr, hβr, hE]
  exact fold_eq hv0 he

variable (xb : Fin 16 → Vec Ideal KernelIdeal.S8x64x1024 .f32) (wb : Fin 16 → Vec Ideal KernelIdeal.S8x64x128 .f32)
  (bb : Fin 16 → Vec Ideal KernelIdeal.S1x128x1024 .f32) (gb betab : Fin 16 → Vec Ideal KernelIdeal.S1x1024 .f32)

-- the recursion's first value and step are one block's update, of −∞ and of what the block before left
theorem acc2_apply :
    acc2Of (F := Ideal) xb wb bb gb betab 15 (by decide) (ix2 b k)
      = runMax (fun t : Fin 16 => (Finset.univ : Finset (Fin 1024)).fold max ⊥
          (term (xb t) (wb t) (bb t) b k (gb t) (betab t))) 15 (by decide) := by
  refine eq_runMax _ (fun n h => acc2Of (F := Ideal) xb wb bb gb betab n h (ix2 b k)) (fun h => ?_) (fun n h => ?_) 15 (by decide)
  · exact (step_at _ _ _ b k _ _ _).trans (congrArg (max · _) (pay2_at b k))
  · exact step_at _ _ _ b k _ _ _

end Block

theorem bnPool_eq (agg : FVec Ideal Cert.ReferenceIdeal.S16384x8x64 .f32) (Wg : FVec Ideal Cert.ReferenceIdeal.S64x128 .f32)
    (bg : FVec Ideal Cert.ReferenceIdeal.S128 .f32) (g1 beta1 : FVec Ideal Cert.ReferenceIdeal.S16384 .f32)
    (hagg : IsReal agg) (hWg : IsReal Wg) (hbg : IsReal bg) (hg1 : IsReal g1) (hbeta1 : IsReal beta1)
    (xb : Fin 16 → Vec Ideal Cert.KernelIdeal.S8x64x1024 .f32) (wb : Fin 16 → Vec Ideal Cert.KernelIdeal.S8x64x128 .f32)
    (bb : Fin 16 → Vec Ideal Cert.KernelIdeal.S1x128x1024 .f32) (gb betab : Fin 16 → Vec Ideal Cert.KernelIdeal.S1x1024 .f32)
    (hx : ∀ (t : Fin 16) (b : Fin 8) (f : Fin 64) (r : Fin 1024), xb t (ix3 b f r) = agg (ix3 (node t r) b f))
    (hw : ∀ (t : Fin 16) (b : Fin 8) (f : Fin 64) (k : Fin 128), wb t (ix3 b f k) = Wg (ix2 f k))
    (hb : ∀ (t : Fin 16) (k : Fin 128) (r : Fin 1024), bb t (ix3 (0 : Fin 1) k r) = bg (ix1 k))
    (hg : ∀ (t : Fin 16) (r : Fin 1024), gb t (ix2 (0 : Fin 1) r) = g1 (ix1 (node t r)))
    (hβ : ∀ (t : Fin 16) (r : Fin 1024), betab t (ix2 (0 : Fin 1) r) = beta1 (ix1 (node t r))) :
    acc2Of (F := Ideal) xb wb bb gb betab 15 (by decide) = Cert.Stages.bnPool (F := Ideal) agg Wg bg g1 beta1 := by
  funext j
  obtain ⟨b, k, rfl⟩ : ∃ (b : Fin 8) (k : Fin 128), j = ix2 b k := ⟨j 0, j 1, eq_ix2 j⟩
  rw [acc2_apply]
  refine Eq.trans ?_ (poolN_blocks _ b k).symm
  refine congrArg (fun M => runMax M 15 (by decide)) (funext fun t => Finset.fold_congr fun r _ => ?_)
  refine term_eq _ _ _ _ _ b k _ g1 beta1 (gcnAct_real agg Wg bg hagg hWg hbg) hg1 hbeta1 (node t r) r
    (fun b' k' => ?_) (hg t r) (hβ t r)
  rw [pay3_at, gcnAct_apply]
  refine congrArg (max · 0) (congrArg₂ (· + ·) (Finset.sum_congr rfl fun f _ => ?_) (hb t k' r))
  rw [hw, hx]

end Cert.MBN

end
-- ==== Proof.MBlocks2.lean ====
import proofs.«422996_j60266981097886_3_alg».proof.Proof.Gen.KernelIdeal.Launch
import proofs.«422996_j60266981097886_3_alg».proof.Proof.LibNodeMax
import proofs.«422996_j60266981097886_3_alg».proof.Proof.KI.Acc
import Idealize.ShloMosaic.Lib.Pipeline.Value
import Idealize.ShloMosaic.Lib.ValueLayout
import proofs.«422996_j60266981097886_3_alg».proof.Proof.MBN

noncomputable section

namespace Cert.KernelIdeal.Hand

open Idealize.ShloMosaic Idealize.SL.Sem Idealize.ShloMosaic.ValueIdx
open Cert.KernelIdeal Cert.KernelIdeal.Gen Cert.LibNodeMax

-- An element of block t sits in its array, on each axis, at the block's offset (index times extent) plus its own coordinate.
private theorem emb_eq {G : Pipeline.Grid} (w : Pipeline.Window sig G) (t : Fin G.N) (y : (w.xblock (G.coords t)).Idx)
    (y' : w.shape.Idx) (h : ∀ a, w.index t a * w.size a + (y a : ℕ) = y' a) : (w.rect t).emb y = y' :=
  funext fun a => Fin.ext ((w.rect_emb_val t y a).trans (h a))

-- Where block t starts in each of region 2's five input arrays: only the node axis has a block index, and its extent is 1024.
theorem win2_0_off : ∀ (t : Fin grid2.N) (a : Fin 3), win2_0.index t a * win2_0.size a = (![0, 0, 1024 * t.val] : Fin 3 → ℕ) a := by
  decide +kernel
theorem win2_1_off : ∀ (t : Fin grid2.N) (a : Fin 3), win2_1.index t a * win2_1.size a = 0 := by
  decide +kernel
theorem win2_2_off : ∀ (t : Fin grid2.N) (a : Fin 3), win2_2.index t a * win2_2.size a = 0 := by
  decide +kernel
theorem win2_3_off : ∀ (t : Fin grid2.N) (a : Fin 2), win2_3.index t a * win2_3.size a = (![0, 1024 * t.val] : Fin 2 → ℕ) a := by
  decide +kernel
theorem win2_4_off : ∀ (t : Fin grid2.N) (a : Fin 2), win2_4.index t a * win2_4.size a = (![0, 1024 * t.val] : Fin 2 → ℕ) a := by
  decide +kernel

-- A read through block t is a read of the whole array at the offset index: what turns the region's per-block inputs into entries of the arrays.
theorem blk2_0_read (x : FVec Ideal S8x64x16384 .f32) (t : Fin 16) (b : Fin 8) (f : Fin 64) (r : Fin 1024) :
    ((cfg2.win 0).blk (Fin.cast N_2.symm t)).view.read (Elt Ideal) x (ix3 b f r) = x (ix3 b f (node t r)) := by
  rw [View.read_apply, cast_eq]
  refine congrArg x (emb_eq win2_0 (Fin.cast N_2.symm t) (ix3 b f r) _ fun a => ?_)
  rw [win2_0_off]
  match a with
  | ⟨0, _⟩ | ⟨1, _⟩ => exact Nat.zero_add _
  | ⟨2, _⟩ => rfl

theorem blk2_1_read (x : FVec Ideal S8x64x128 .f32) (t : Fin 16) (b : Fin 8) (f : Fin 64) (k : Fin 128) :
    ((cfg2.win 1).blk (Fin.cast N_2.symm t)).view.read (Elt Ideal) x (ix3 b f k) = x (ix3 b f k) := by
  rw [View.read_apply, cast_eq]
  exact congrArg x (emb_eq win2_1 (Fin.cast N_2.symm t) (ix3 b f k) _ fun a => by rw [win2_1_off]; exact Nat.zero_add _)

theorem blk2_2_read (x : FVec Ideal S1x128x1024 .f32) (t : Fin 16) (k : Fin 128) (r : Fin 1024) :
    ((cfg2.win 2).blk (Fin.cast N_2.symm t)).view.read (Elt Ideal) x (ix3 (0 : Fin 1) k r) = x (ix3 (0 : Fin 1) k r) := by
  rw [View.read_apply, cast_eq]
  exact congrArg x (emb_eq win2_2 (Fin.cast N_2.symm t) (ix3 (0 : Fin 1) k r) _ fun a => by rw [win2_2_off]; exact Nat.zero_add _)

theorem blk2_3_read (x : FVec Ideal S1x16384 .f32) (t : Fin 16) (r : Fin 1024) :
    ((cfg2.win 3).blk (Fin.cast N_2.symm t)).view.read (Elt Ideal) x (ix2 (0 : Fin 1) r) = x (ix2 (0 : Fin 1) (node t r)) := by
  rw [View.read_apply, cast_eq]
  refine congrArg x (emb_eq win2_3 (Fin.cast N_2.symm t) (ix2 (0 : Fin 1) r) _ fun a => ?_)
  rw [win2_3_off]
  match a with
  | ⟨0, _⟩ | ⟨1, _⟩ => rfl

theorem blk2_4_read (x : FVec Ideal S1x16384 .f32) (t : Fin 16) (r : Fin 1024) :
    ((cfg2.win 4).blk (Fin.cast N_2.symm t)).view.read (Elt Ideal) x (ix2 (0 : Fin 1) r) = x (ix2 (0 : Fin 1) (node t r)) := by
  rw [View.read_apply, cast_eq]
  refine congrArg x (emb_eq win2_4 (Fin.cast N_2.symm t) (ix2 (0 : Fin 1) r) _ fun a => ?_)
  rw [win2_4_off]
  match a with
  | ⟨0, _⟩ | ⟨1, _⟩ => rfl

-- Entry by entry the blocks are agg[1024 t + r, b, f], Wg[f, k], bg[k], g1[1024 t + r] and beta1[1024 t + r] (a block's element, then the transpose, the repetitions and the changes of view at an index), so the running maximum over them is the reference's.
theorem blocks_bnPool' (agg : FVec Ideal S16384x8x64 .f32) (Wg : FVec Ideal S64x128 .f32) (bg : FVec Ideal S128 .f32)
    (g1 beta1 : FVec Ideal S16384 .f32)
    (hagg : Cert.Reals.IsReal agg) (hWg : Cert.Reals.IsReal Wg) (hbg : Cert.Reals.IsReal bg)
    (hg1 : Cert.Reals.IsReal g1) (hbeta1 : Cert.Reals.IsReal beta1)
    (A36 : FVec Ideal S8x64x16384 .f32) (A38 : FVec Ideal S8x64x128 .f32) (A40 : FVec Ideal S1x128x1024 .f32)
    (A41 A42 : FVec Ideal S1x16384 .f32)
    (hT : S16384x8x64.Transposes [1, 2, 0] S8x64x16384)
    (h36 : A36 = transpose S8x64x16384 [1, 2, 0] agg hT)
    (hB1 : S64x128.BroadcastsInDim S1x64x128 (![1, 2] : Fin 2 → Fin S1x64x128.rank))
    (hB2 : S1x64x128.BroadcastsInDim S8x64x128 (![0, 1, 2] : Fin 3 → Fin S8x64x128.rank))
    (h38 : A38 = broadcastInDim S8x64x128 ![0, 1, 2] hB2 (broadcastInDim S1x64x128 ![1, 2] hB1 Wg))
    (hC : S128.ShapeCasts S1x128x1)
    (hB3 : S1x128x1.BroadcastsInDim S1x128x1024 (![0, 1, 2] : Fin 3 → Fin S1x128x1024.rank))
    (h40 : A40 = broadcastInDim S1x128x1024 ![0, 1, 2] hB3 (shapeCast S1x128x1 bg hC))
    (hC2 : S16384.ShapeCasts S1x16384)
    (h41 : A41 = shapeCast S1x16384 g1 hC2) (h42 : A42 = shapeCast S1x16384 beta1 hC2) :
    acc2Of (F := Ideal)
        (fun t : Fin 16 => ((cfg2.win 0).blk (Fin.cast N_2.symm t)).view.read (Elt Ideal) A36)
        (fun t : Fin 16 => ((cfg2.win 1).blk (Fin.cast N_2.symm t)).view.read (Elt Ideal) A38)
        (fun t : Fin 16 => ((cfg2.win 2).blk (Fin.cast N_2.symm t)).view.read (Elt Ideal) A40)
        (fun t : Fin 16 => ((cfg2.win 3).blk (Fin.cast N_2.symm t)).view.read (Elt Ideal) A41)
        (fun t : Fin 16 => ((cfg2.win 4).blk (Fin.cast N_2.symm t)).view.read (Elt Ideal) A42)
        15 (by decide)
      = Cert.Stages.bnPool (F := Ideal) agg Wg bg g1 beta1 := by
  subst h36 h38 h40 h41 h42
  refine Cert.MBN.bnPool_eq agg Wg bg g1 beta1 hagg hWg hbg hg1 hbeta1 _ _ _ _ _
    (fun t b f r => (blk2_0_read _ t b f r).trans (transpose_apply _ agg hT _ _ (fun a => match a with | ⟨0, _⟩ => rfl | ⟨1, _⟩ => rfl | ⟨2, _⟩ => rfl)))
    (fun t b f k => (blk2_1_read _ t b f k).trans ?_) (fun t k r => (blk2_2_read _ t k r).trans ?_)
    (fun t r => (blk2_3_read _ t r).trans (shapeCast_a_1a_apply g1 hC2 0 _))
    (fun t r => (blk2_4_read _ t r).trans (shapeCast_a_1a_apply beta1 hC2 0 _))
  · rw [broadcastInDim_apply _ hB2 _ (ix3 b f k) (ix3 (0 : Fin 1) f k) (fun a => match a with | ⟨0, _⟩ => rfl | ⟨1, _⟩ => rfl | ⟨2, _⟩ => rfl)]
    exact broadcastInDim_apply _ hB1 Wg (ix3 (0 : Fin 1) f k) (ix2 f k) (fun a => match a with | ⟨0, _⟩ => rfl | ⟨1, _⟩ => rfl)
  · rw [broadcastInDim_apply _ hB3 _ (ix3 (0 : Fin 1) k r) (ix3 (0 : Fin 1) k (0 : Fin 1)) (fun a => match a with | ⟨0, _⟩ => rfl | ⟨1, _⟩ => rfl | ⟨2, _⟩ => rfl)]
    refine shapeCast_apply bg hC _ (ix1 k) ?_
    rw [Shape.rowMajor_val_one, Shape.rowMajor_val_three]
    show k.val = (0 * 128 + k.val) * 1 + 0
    omega

end Cert.KernelIdeal.Hand

end
-- ==== Proof.MJoin2.lean ====
import proofs.«422996_j60266981097886_3_alg».proof.Proof.KI.Reg2Val
import proofs.«422996_j60266981097886_3_alg».proof.Proof.MBlocks2

noncomputable section

namespace Cert.KernelIdeal.Hand

open Idealize.ShloMosaic Idealize.ShloMosaic.TcCoe Idealize.SL.Sem
open Cert.KernelIdeal Cert.KernelIdeal.Gen

-- the output array holds the running maximum over the sixteen blocks, which is the reference's stage on these five arrays
theorem out2_bn
    (V : (c : Dev nD) → (b : Ref sig .tc) → Buf (Elt Ideal) ((c : Thread nD τ).loc b)) (c : Dev nD)
    (agg : FVec Ideal S16384x8x64 .f32) (Wg : FVec Ideal S64x128 .f32) (bg : FVec Ideal S128 .f32) (g1 beta1 : FVec Ideal S16384 .f32)
    (hagg : Cert.Reals.IsReal agg) (hWg : Cert.Reals.IsReal Wg) (hbg : Cert.Reals.IsReal bg)
    (hg1 : Cert.Reals.IsReal g1) (hbeta1 : Cert.Reals.IsReal beta1)
    (hT : S16384x8x64.Transposes [1, 2, 0] S8x64x16384)
    (h36 : V c main_v36 = transpose S8x64x16384 [1, 2, 0] agg hT)
    (hB1 : S64x128.BroadcastsInDim S1x64x128 (![1, 2] : Fin 2 → Fin S1x64x128.rank))
    (hB2 : S1x64x128.BroadcastsInDim S8x64x128 (![0, 1, 2] : Fin 3 → Fin S8x64x128.rank))
    (h38 : V c main_v38 = broadcastInDim S8x64x128 ![0, 1, 2] hB2 (broadcastInDim S1x64x128 ![1, 2] hB1 Wg))
    (hC : S128.ShapeCasts S1x128x1)
    (hB3 : S1x128x1.BroadcastsInDim S1x128x1024 (![0, 1, 2] : Fin 3 → Fin S1x128x1024.rank))
    (h40 : V c main_v40 = broadcastInDim S1x128x1024 ![0, 1, 2] hB3 (shapeCast S1x128x1 bg hC))
    (hC2 : S16384.ShapeCasts S1x16384)
    (h41 : V c main_v41 = shapeCast S1x16384 g1 hC2) (h42 : V c main_v42 = shapeCast S1x16384 beta1 hC2) :
    (dat2 (F := Ideal) V c).arrAt 5 cfg2.N = Cert.Stages.bnPool (F := Ideal) agg Wg bg g1 beta1 :=
  (out2_val_acc V c).trans
    (blocks_bnPool' _ _ _ _ _ hagg hWg hbg hg1 hbeta1 _ _ _ _ _ hT h36 hB1 hB2 h38 hC hB3 h40 hC2 h41 h42)

end Cert.KernelIdeal.Hand

end
-- ==== Proof.Alg.lean ====
import proofs.«422996_j60266981097886_3_alg».proof.Proof.KI.Run
import proofs.«422996_j60266981097886_3_alg».proof.Proof.KHost
import proofs.«422996_j60266981097886_3_alg».proof.Proof.MJoin0
import proofs.«422996_j60266981097886_3_alg».proof.Proof.MJoin2
import proofs.«422996_j60266981097886_3_alg».proof.Proof.Reals

set_option maxRecDepth 1376

noncomputable section

namespace Cert.KernelIdeal.Hand

open Idealize.ShloMosaic Idealize.ShloMosaic.TcCoe Idealize.SL.Sem Cert.KernelIdeal Cert.KernelIdeal.Gen Cert.Stages
open Idealize.ShloMosaic.Pipeline (Dat)

variable (m : (ℓ : Loc nD τ sig) → Buf (Elt Ideal) ℓ) (c : Dev nD)

/-- Argument `r` of the launch on core `c`. -/
abbrev arg (r : Ref sig .tc) : Buf (Elt Ideal) ((c : Thread nD τ).loc r) := m ((c : Thread nD τ).loc r)

/-- The squeeze-and-excitation gate of the node-axis maximum of x. -/
abbrev gate := seGate (pool0 (arg m c main_arg0)) (arg m c main_arg4) (arg m c main_arg5) (arg m c main_arg6) (arg m c main_arg7) (arg m c main_arg8) (arg m c main_arg9)

/-- The sparse aggregation of the gated features with the residual. -/
abbrev agg := aggOf (gateRes (arg m c main_arg0) (gate m c)) (arg m c main_arg1) (arg m c main_arg2) (arg m c main_arg3)

/-- The convolution, normalised per node and reduced by maximum over the nodes. -/
abbrev pooled := bnPool (agg m c) (arg m c main_arg10) (arg m c main_arg11) (arg m c main_arg12) (arg m c main_arg13)

/-- The result array holds the reference's stages composed on the launch's arguments: each region's output is read at
    the contents it is entered at, which are the stages before it; region 2 needs real inputs, which the precondition gives. -/
theorem result_eq (hpre : Cert.Pre_KernelIdeal m) :
    Gen.V18 m (outs m) c main_v104
      = head (pooled m c) (arg m c main_arg14) (arg m c main_arg15) (arg m c main_arg16) (arg m c main_arg17) (arg m c main_arg18) (arg m c main_arg19) (arg m c main_arg20) (arg m c main_arg21) (arg m c main_arg22) (arg m c main_arg23) := by
  have e0 : outs m 1 main_v0 c = pool0 (arg m c main_arg0) := (outs_1 m c).trans (out0_pool (rd (Gen.V0 m)) c)
  have ea : rd (Gen.V6 m (outs m)) c main_v20 = gate m c := (V6_v20 m (outs m) c).trans (by rw [e0])
  have ex : rd (Gen.V6 m (outs m)) c main_arg0 = arg m c main_arg0 := V6_arg0 m (outs m) c
  have e1 : outs m 7 main_v21 c = gateRes (arg m c main_arg0) (gate m c) :=
    (outs_7 m c).trans ((out1_val (rd (Gen.V6 m (outs m))) c).trans (by rw [ex, ea]))
  have h36 : rd (Gen.V8 m (outs m)) c main_v36
      = transpose S8x64x16384 [1, 2, 0] (agg m c) transposes_S16384x8x64_S8x64x16384_1_2_0 :=
    (V8_v36 m (outs m) c).trans (by rw [e1])
  have hagg : Cert.Reals.IsReal (agg m c) :=
    Cert.Reals.agg_real _ _ _ _ _ (Cert.Reals.pre_real_arg0 m hpre c) (Cert.Reals.seGate_real _ _ _ _ _ _ _) (Cert.Reals.pre_real_arg3 m hpre c)
  have e2 : outs m 9 main_v43 c = pooled m c :=
    (outs_9 m c).trans (out2_bn (rd (Gen.V8 m (outs m))) c (agg m c) (arg m c main_arg10) (arg m c main_arg11) (arg m c main_arg12) (arg m c main_arg13)
      hagg (Cert.Reals.pre_real_arg10 m hpre c) (Cert.Reals.pre_real_arg11 m hpre c) (Cert.Reals.pre_real_arg12 m hpre c) (Cert.Reals.pre_real_arg13 m hpre c)
      _ h36 _ _ (V8_v38 m (outs m) c) _ _ (V8_v40 m (outs m) c) _ (V8_v41 m (outs m) c) (V8_v42 m (outs m) c))
  exact (V18_v104 m (outs m) c).trans (by rw [e2])

end Cert.KernelIdeal.Hand

end
-- ==== Proof.lean ====
/-
  A program of three block-by-block regions among plain array operations (maximum of x over the node axis; gate and
  residual x * a + x; graph convolution, normalised per node over batch and channel, then maximum over the node axis)
  against the same computation as plain array operations only. Over the extended reals each region leaves the
  reference's stage of whatever it is handed: a running maximum over blocks is the maximum over the axis, and
  H * (s * g) + (beta - mean * (s * g)) is ((H - mean) * s) * g + beta on real numbers, which finite inputs, the logistic
  gate and finite sums of reals provide.
-/
import proofs.«422996_j60266981097886_3_alg».proof.Defs
import proofs.«422996_j60266981097886_3_alg».proof.Proof.Gen.Pre_finite_inputs
import proofs.«422996_j60266981097886_3_alg».proof.Proof.K.Run
import proofs.«422996_j60266981097886_3_alg».proof.Proof.KI.RunValue
import proofs.«422996_j60266981097886_3_alg».proof.Proof.RefRun
import proofs.«422996_j60266981097886_3_alg».proof.Proof.Alg

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Kernel.Hand in
/-- The program as printed runs, region by region, and leaves its arguments as launched. -/
theorem frame_K : Cert.frame_Kernel := fun m g _ =>
  Cert.Kernel.Gen.frame_cond m emb₁ () 𝒱₀ L lv (fun _ _ => rfl) g (outs m) (pdats m) 0 (fun _ => iprop(emp)) u₀ fund (fun _ => R) (launchR g) endR
    (reg0 m) (fun _ => .rfl) (fun _ => .rfl) (reg1 m) (fun _ => .rfl) (fun _ => .rfl) (reg2 m) (fun _ => .rfl) (fun _ => .rfl)

open Cert.KernelIdeal.Hand in
/-- The idealized program's run, its result buffer read off the last boundary valuation; the arguments end as launched. -/
theorem frame_KI : Cert.frame_KernelIdeal := fun m g _ =>
  (θ_run Cert.KernelIdeal.defs _ _).mono (fun _ h c => (h c).2)
    (value_cond m emb₁ () 𝒱₀ L lv (fun _ _ => rfl) g (outs m) (pdats m) 0 (fun _ => iprop(emp)) u₀ fund (fun _ => R) (launchR g) endR
    (reg0 m) (fun _ => .rfl) (fun _ => .rfl) (reg1 m) (fun _ => .rfl) (fun _ => .rfl) (reg2 m) (fun _ => .rfl) (fun _ => .rfl))

/-- The reference is a list of array operations: its run with the result dropped. -/
theorem frame_R : Cert.frame_ReferenceIdeal := fun m g _ =>
  (θ_run Cert.ReferenceIdeal.defs _ _).mono (fun _ h c => (h c).2) (Cert.ReferenceIdeal.Hand.run (F := Ideal) m g)

open Cert.KernelIdeal.Hand in
/-- Both programs end with the reference's stages composed on arguments that agree. -/
theorem algebraic : Cert.algebraic_KernelIdeal_ReferenceIdeal := by
  intro m g m' g' hpre hagree
  refine ⟨_, value_cond m emb₁ () 𝒱₀ L lv (fun _ _ => rfl) g (outs m) (pdats m) 0 (fun _ => iprop(emp)) u₀ fund (fun _ => R) (launchR g) endR
    (reg0 m) (fun _ => .rfl) (fun _ => .rfl) (reg1 m) (fun _ => .rfl) (fun _ => .rfl) (reg2 m) (fun _ => .rfl) (fun _ => .rfl), ?_⟩
  refine (θ_run Cert.ReferenceIdeal.defs _ _).mono (fun r h c => ⟨(h c).1.trans ?_, (h c).2⟩)
    (Cert.ReferenceIdeal.Hand.run (F := Ideal) m' g')
  obtain ⟨h0, h1, h2, h3, h4, h5, h6, h7, h8, h9, h10, h11, h12, h13, h14, h15, h16, h17, h18, h19, h20, h21, h22, h23⟩ := hagree c
  rw [h0, h1, h2, h3, h4, h5, h6, h7, h8, h9, h10, h11, h12, h13, h14, h15, h16, h17, h18, h19, h20, h21, h22, h23]
  exact (result_eq m c hpre).symm

theorem claim : Cert.Claim :=
  ⟨Cert.Kernel.Gen.facts, Cert.KernelIdeal.Gen.facts, Cert.ReferenceIdeal.Gen.facts, Cert.Pre_finite_inputs.Gen.facts,
    frame_K, frame_KI, frame_R, trivial, algebraic⟩

end Cert.Proof

end
